-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S_ : Shape := ⟨0, ![]⟩
abbrev S1x1600000 : Shape := ⟨2, ![1, 1600000]⟩
abbrev S100000 : Shape := ⟨1, ![100000]⟩
abbrev S1600000x1 : Shape := ⟨2, ![1600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x40 : S_.BroadcastsInDim S2x128x40 (![] : Fin 0 → Fin S2x128x40.rank)
  reducesTo_S2x128x40_S_d0_1_2 : S2x128x40.ReducesTo [0, 1, 2] S_
  bcast_S_S2x40 : S_.BroadcastsInDim S2x40 (![] : Fin 0 → Fin S2x40.rank)
  reducesTo_S2x40_S_d0_1 : S2x40.ReducesTo [0, 1] S_
  slices_S2x1600000_S1x1600000_1_0 : S2x1600000.Slices ![1, 0] S1x1600000
  shapeCasts_S1x1600000_S1600000 : S1x1600000.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part4 {F : FTy → Type} [FloatOps F] (main_v58 : IVec S_ 1) (main_v67 : IVec S100000 1) (main_c_25 : IVec S_ 1) : IVec S_ 1 :=
  let main_v68 : IVec S_ 1 := (fun x v => Host.reduce IntOp.andi x v reducesTo_S100000_S_d0 h_S_) main_v67 main_c_25
  let main_v69 : IVec S_ 1 := andi main_v58 main_v68
  main_v69

def fn_part3 {F : FTy → Type} [FloatOps F] (main_arg1 : FVec F S1600000 .f32) (main_arg11 : FVec F S2x40 .f32) (main_arg12 : IVec S2x1600000 32) (main_v48 : IVec S_ 1) (main_v49 : FVec F S2x128x40 .f32) (main_v50 : FVec F S2x128x40 .f32) : IVec S_ 1 :=
  let main_v51 : IVec S2x128x40 1 := cmpf .olt main_v49 main_v50
  let main_c_19 : IVec S_ 1 := constantI S_ 1 1#1
  let main_v52 : IVec S_ 1 := (fun x v => Host.reduce IntOp.andi x v reducesTo_S2x128x40_S_d0_1_2 h_S_) main_v51 main_c_19
  let main_v53 : IVec S_ 1 := andi main_v48 main_v52
  let main_v54 : FVec F S2x40 .f32 := Host.absf main_arg11
  let main_cst_20 : FVec F S_ .f32 := constant S_ .f32 0x7F800000#32
  let main_v55 : FVec F S2x40 .f32 := broadcastInDim S2x40 ![] bcast_S_S2x40 main_cst_20
  let main_v56 : IVec S2x40 1 := cmpf .olt main_v54 main_v55
  let main_c_21 : IVec S_ 1 := constantI S_ 1 1#1
  let main_v57 : IVec S_ 1 := (fun x v => Host.reduce IntOp.andi x v reducesTo_S2x40_S_d0_1 h_S_) main_v56 main_c_21
  let main_v58 : IVec S_ 1 := andi main_v53 main_v57
  let main_v59 : IVec S1x1600000 32 := (extractStridedSlice S1x1600000 ![1, 0] · slices_S2x1600000_S1x1600000_1_0) main_arg12
  let main_v60 : IVec S1600000 32 := shapeCast S1600000 main_v59 shapeCasts_S1x1600000_S1600000
  let main_cst_22 : FVec F S_ .f32 := constant S_ .f32 0x00000000#32
  let main_v61 : FVec F S100000 .f32 := broadcastInDim S100000 ![] bcast_S_S100000 main_cst_22
  let main_v62 : IVec S1600000x1 32 := broadcastInDim S1600000x1 ![0] bcast_S1600000_S1600000x1_0 main_v60
  let main_v63 : FVec F S100000 .f32 := (fun x i u => Host.scatterAdd scatter_S100000_S1600000x1_S1600000_n_0_0_1 x i u) main_v61 main_v62 main_arg1
  let main_cst_23 : FVec F S_ .f32 := constant S_ .f32 0x3F800000#32
  let main_v64 : FVec F S100000 .f32 := broadcastInDim S100000 ![] bcast_S_S100000 main_cst_23
  let main_v65 : FVec F S100000 .f32 := addf main_v63 main_v64
  let main_cst_24 : FVec F S_ .f32 := constant S_ .f32 0x00000000#32
  let main_v66 : FVec F S100000 .f32 := broadcastInDim S100000 ![] bcast_S_S100000 main_cst_24
  let main_v67 : IVec S100000 1 := cmpf .ogt main_v65 main_v66
  let main_c_25 : IVec S_ 1 := constantI S_ 1 1#1
  fn_part4 (F := F) main_v58 main_v67 main_c_25

def fn_part2 {F : FTy → Type} [FloatOps F] (main_arg1 : FVec F S1600000 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x40 .f32 := Host.absf main_arg10
  let main_cst_18 : FVec F S_ .f32 := constant S_ .f32 0x7F800000#32
  let main_v50 : FVec F S2x128x40 .f32 := broadcastInDim S2x128x40 ![] bcast_S_S2x128x40 main_cst_18
  fn_part3 (F := F) main_arg1 main_arg11 main_arg12 main_v48 main_v49 main_v50

def fn_part1 {F : FTy → Type} [FloatOps F] (main_arg1 : FVec F S1600000 .f32) (main_arg4 : FVec F S2x128 .f32) (main_arg5 : FVec F S2x128 .f32) (main_arg6 : FVec F S2x128x128 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg1 main_arg7 main_arg8 main_arg9 main_arg10 main_arg11 main_arg12 main_v33

def fn {F : FTy → Type} [FloatOps F] (main_arg0 : FVec F S100000x128 .f32) (main_arg1 : FVec F S1600000 .f32) (main_arg2 : FVec F S2x128x128 .f32) (main_arg3 : FVec F S2x128 .f32) (main_arg4 : FVec F S2x128 .f32) (main_arg5 : FVec F S2x128 .f32) (main_arg6 : FVec F S2x128x128 .f32) (main_arg7 : FVec F S2x128 .f32) (main_arg8 : FVec F S2x128 .f32) (main_arg9 : FVec F S2x128 .f32) (main_arg10 : FVec F S2x128x40 .f32) (main_arg11 : FVec F S2x40 .f32) (main_arg12 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg1 main_arg4 main_arg5 main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128 : Shape := ⟨1, ![128]⟩
abbrev S1x40 : Shape := ⟨2, ![1, 40]⟩
abbrev S40 : Shape := ⟨1, ![40]⟩
abbrev S1x128x128 : Shape := ⟨3, ![1, 128, 128]⟩
abbrev S128x128 : Shape := ⟨2, ![128, 128]⟩
abbrev S20x1x128 : Shape := ⟨3, ![20, 1, 128]⟩
abbrev S5000x128 : Shape := ⟨2, ![5000, 128]⟩
abbrev S5000x1 : Shape := ⟨2, ![5000, 1]⟩
abbrev S1x1x128 : Shape := ⟨3, ![1, 1, 128]⟩
abbrev S1x128x40 : Shape := ⟨3, ![1, 128, 40]⟩
abbrev S128x40 : Shape := ⟨2, ![128, 40]⟩
abbrev S100000x40 : Shape := ⟨2, ![100000, 40]⟩
abbrev S5000x40 : Shape := ⟨2, ![5000, 40]⟩
abbrev S1600000x40 : Shape := ⟨2, ![1600000, 40]⟩
abbrev S20x1x40 : Shape := ⟨3, ![20, 1, 40]⟩
abbrev S1x1x40 : Shape := ⟨3, ![1, 1, 40]⟩
abbrev S1x100000x40 : Shape := ⟨3, ![1, 100000, 40]⟩
abbrev S2x100000x40 : Shape := ⟨3, ![2, 100000, 40]⟩

abbrev nBuf : Space → Nat
  | .hbm => 266
  | .vmem => 116
  | .smem => 0
  | _ => 0

abbrev hbmTy0_0 (i : Nat) : BufTy := match i % 128 with
  | 0 => ⟨S100000x128, .f32⟩
  | 1 => ⟨S1600000, .f32⟩
  | 2 => ⟨S2x128x128, .f32⟩
  | 3 => ⟨S2x128, .f32⟩
  | 4 => ⟨S2x128, .f32⟩
  | 5 => ⟨S2x128, .f32⟩
  | 6 => ⟨S2x128x128, .f32⟩
  | 7 => ⟨S2x128, .f32⟩
  | 8 => ⟨S2x128, .f32⟩
  | 9 => ⟨S2x128, .f32⟩
  | 10 => ⟨S2x128x40, .f32⟩
  | 11 => ⟨S2x40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S100000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S128, .f32⟩
  | 77 => ⟨S1x128, .f32⟩
  | 78 => ⟨S1x128, .f32⟩
  | 79 => ⟨S128, .f32⟩
  | 80 => ⟨S1x128, .f32⟩
  | 81 => ⟨S1x40, .f32⟩
  | 82 => ⟨S40, .f32⟩
  | 83 => ⟨S1x40, .f32⟩
  | 84 => ⟨S1x128x128, .f32⟩
  | 85 => ⟨S128x128, .f32⟩
  | 86 => ⟨S100000x128, .f32⟩
  | 87 => ⟨S20x1x128, .f32⟩
  | 88 => ⟨S20x1x128, .f32⟩
  | 89 => ⟨S_, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128x128, .f32⟩
  | 105 => ⟨S128x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x1, .f32⟩
  | 117 => ⟨S1600000x128, .f32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S20x1x128, .f32⟩
  | 125 => ⟨S20x1x128, .f32⟩
  | 126 => ⟨S_, .f32⟩
  | 127 => ⟨S1x128, .f32⟩
  | _ => ⟨S100000x128, .f32⟩

abbrev hbmTy0_1 (i : Nat) : BufTy := match i % 128 with
  | 0 => ⟨S_, .f32⟩
  | 1 => ⟨S1x128, .f32⟩
  | 2 => ⟨S1x128, .f32⟩
  | 3 => ⟨S_, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128x40, .f32⟩
  | 14 => ⟨S128x40, .f32⟩
  | 15 => ⟨S100000x40, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x40, .f32⟩
  | 25 => ⟨S1600000x1, .f32⟩
  | 26 => ⟨S1600000x40, .f32⟩
  | 27 => ⟨S1600000x40, .f32⟩
  | 28 => ⟨S_, .f32⟩
  | 29 => ⟨S100000x40, .f32⟩
  | 30 => ⟨S1600000x1, .i32⟩
  | 31 => ⟨S100000x40, .f32⟩
  | 32 => ⟨S100000x40, .f32⟩
  | 33 => ⟨S20x1x40, .f32⟩
  | 34 => ⟨S20x1x40, .f32⟩
  | 35 => ⟨S1x128, .f32⟩
  | 36 => ⟨S128, .f32⟩
  | 37 => ⟨S1x128, .f32⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x40, .f32⟩
  | 54 => ⟨S40, .f32⟩
  | 55 => ⟨S1x40, .f32⟩
  | 56 => ⟨S1x128x128, .f32⟩
  | 57 => ⟨S128x128, .f32⟩
  | 58 => ⟨S100000x128, .f32⟩
  | 59 => ⟨S20x1x128, .f32⟩
  | 60 => ⟨S20x1x128, .f32⟩
  | 61 => ⟨S_, .f32⟩
  | 62 => ⟨S1x128, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128x128, .f32⟩
  | 77 => ⟨S128x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x1, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x128, .f32⟩
  | 96 => ⟨S20x1x128, .f32⟩
  | 97 => ⟨S20x1x128, .f32⟩
  | 98 => ⟨S_, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128x40, .f32⟩
  | 114 => ⟨S128x40, .f32⟩
  | 115 => ⟨S100000x40, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x40, .f32⟩
  | 125 => ⟨S1600000x1, .f32⟩
  | 126 => ⟨S1600000x40, .f32⟩
  | 127 => ⟨S1600000x40, .f32⟩
  | _ => ⟨S100000x128, .f32⟩

abbrev hbmTy0_2 (i : Nat) : BufTy := match i % 128 with
  | 0 => ⟨S_, .f32⟩
  | 1 => ⟨S100000x40, .f32⟩
  | 2 => ⟨S1600000x1, .i32⟩
  | 3 => ⟨S100000x40, .f32⟩
  | 4 => ⟨S100000x40, .f32⟩
  | 5 => ⟨S20x1x40, .f32⟩
  | 6 => ⟨S20x1x40, .f32⟩
  | 7 => ⟨S1x100000x40, .f32⟩
  | 8 => ⟨S1x100000x40, .f32⟩
  | 9 => ⟨S2x100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x40, .f32⟩
  | .local _ .vmem, ⟨43, _⟩ => ⟨S5000x40, .f32⟩
  | .local _ .vmem, ⟨44, _⟩ => ⟨S5000x40, .f32⟩
  | .local _ .vmem, ⟨45, _⟩ => ⟨S5000x40, .f32⟩
  | .local _ .vmem, ⟨46, _⟩ => ⟨S5000x40, .f32⟩
  | .local _ .vmem, ⟨47, _⟩ => ⟨S5000x40, .f32⟩
  | .local _ .vmem, ⟨48, _⟩ => ⟨S5000x40, .f32⟩
  | .local _ .vmem, ⟨49, _⟩ => ⟨S5000x1, .f32⟩
  | .local _ .vmem, ⟨50, _⟩ => ⟨S5000x1, .f32⟩
  | .local _ .vmem, ⟨51, _⟩ => ⟨S1x40, .f32⟩
  | .local _ .vmem, ⟨52, _⟩ => ⟨S5000x40, .f32⟩
  | .local _ .vmem, ⟨53, _⟩ => ⟨S5000x40, .f32⟩
  | .local _ .vmem, ⟨54, _⟩ => ⟨S1x1x40, .f32⟩
  | .local _ .vmem, ⟨55, _⟩ => ⟨S1x1x40, .f32⟩
  | .local _ .vmem, ⟨56, _⟩ => ⟨S1x1x40, .f32⟩
  | .local _ .vmem, ⟨57, _⟩ => ⟨S1x1x40, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x1, .f32⟩
  | .local _ .vmem, ⟨63, _⟩ => ⟨S5000x1, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x1x128, .f32⟩
  | .local _ .vmem, ⟨69, _⟩ => ⟨S1x1x128, .f32⟩
  | .local _ .vmem, ⟨70, _⟩ => ⟨S1x1x128, .f32⟩
  | .local _ .vmem, ⟨71, _⟩ => ⟨S1x1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S128x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x1, .f32⟩
  | .local _ .vmem, ⟨86, _⟩ => ⟨S5000x1, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S1x1x128, .f32⟩
  | .local _ .vmem, ⟨91, _⟩ => ⟨S1x1x128, .f32⟩
  | .local _ .vmem, ⟨92, _⟩ => ⟨S1x1x128, .f32⟩
  | .local _ .vmem, ⟨93, _⟩ => ⟨S1x1x128, .f32⟩
  | .local _ .vmem, ⟨94, _⟩ => ⟨S5000x128, .f32⟩
  | .local _ .vmem, ⟨95, _⟩ => ⟨S5000x128, .f32⟩
  | .local _ .vmem, ⟨96, _⟩ => ⟨S1x128, .f32⟩
  | .local _ .vmem, ⟨97, _⟩ => ⟨S1x128, .f32⟩
  | .local _ .vmem, ⟨98, _⟩ => ⟨S1x128, .f32⟩
  | .local _ .vmem, ⟨99, _⟩ => ⟨S1x128, .f32⟩
  | .local _ .vmem, ⟨100, _⟩ => ⟨S128x40, .f32⟩
  | .local _ .vmem, ⟨101, _⟩ => ⟨S5000x40, .f32⟩
  | .local _ .vmem, ⟨102, _⟩ => ⟨S5000x40, .f32⟩
  | .local _ .vmem, ⟨103, _⟩ => ⟨S5000x40, .f32⟩
  | .local _ .vmem, ⟨104, _⟩ => ⟨S5000x40, .f32⟩
  | .local _ .vmem, ⟨105, _⟩ => ⟨S5000x40, .f32⟩
  | .local _ .vmem, ⟨106, _⟩ => ⟨S5000x40, .f32⟩
  | .local _ .vmem, ⟨107, _⟩ => ⟨S5000x1, .f32⟩
  | .local _ .vmem, ⟨108, _⟩ => ⟨S5000x1, .f32⟩
  | .local _ .vmem, ⟨109, _⟩ => ⟨S1x40, .f32⟩
  | .local _ .vmem, ⟨110, _⟩ => ⟨S5000x40, .f32⟩
  | .local _ .vmem, ⟨111, _⟩ => ⟨S5000x40, .f32⟩
  | .local _ .vmem, ⟨112, _⟩ => ⟨S1x1x40, .f32⟩
  | .local _ .vmem, ⟨113, _⟩ => ⟨S1x1x40, .f32⟩
  | .local _ .vmem, ⟨114, _⟩ => ⟨S1x1x40, .f32⟩
  | .local _ .vmem, ⟨115, _⟩ => ⟨S1x1x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev main_cst_7 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_c_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91_0 : Ref sig .tc := ⟨.hbm, 123, rfl⟩
abbrev main_v91_1 : Ref sig .tc := ⟨.hbm, 124, rfl⟩
abbrev main_v91_2 : Ref sig .tc := ⟨.hbm, 125, rfl⟩
abbrev main_cst_15 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_19 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_c_21 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_22 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118_0 : Ref sig .tc := ⟨.hbm, 160, rfl⟩
abbrev main_v118_1 : Ref sig .tc := ⟨.hbm, 161, rfl⟩
abbrev main_v118_2 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142_0 : Ref sig .tc := ⟨.hbm, 186, rfl⟩
abbrev main_v142_1 : Ref sig .tc := ⟨.hbm, 187, rfl⟩
abbrev main_v142_2 : Ref sig .tc := ⟨.hbm, 188, rfl⟩
abbrev main_cst_23 : Ref sig .tc := ⟨.hbm, 189, rfl⟩
abbrev main_v143 : Ref sig .tc := ⟨.hbm, 190, rfl⟩
abbrev main_cst_24 : Ref sig .tc := ⟨.hbm, 191, rfl⟩
abbrev main_v144 : Ref sig .tc := ⟨.hbm, 192, rfl⟩
abbrev main_v145 : Ref sig .tc := ⟨.hbm, 193, rfl⟩
abbrev main_cst_25 : Ref sig .tc := ⟨.hbm, 194, rfl⟩
abbrev main_v146 : Ref sig .tc := ⟨.hbm, 195, rfl⟩
abbrev main_cst_26 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_27 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_28 : Ref sig .tc := ⟨.hbm, 207, rfl⟩
abbrev main_v156 : Ref sig .tc := ⟨.hbm, 208, rfl⟩
abbrev main_v157 : Ref sig .tc := ⟨.hbm, 209, rfl⟩
abbrev main_c_29 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_30 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169_0 : Ref sig .tc := ⟨.hbm, 223, rfl⟩
abbrev main_v169_1 : Ref sig .tc := ⟨.hbm, 224, rfl⟩
abbrev main_v169_2 : Ref sig .tc := ⟨.hbm, 225, rfl⟩
abbrev main_cst_31 : Ref sig .tc := ⟨.hbm, 226, rfl⟩
abbrev main_v170 : Ref sig .tc := ⟨.hbm, 227, rfl⟩
abbrev main_cst_32 : Ref sig .tc := ⟨.hbm, 228, rfl⟩
abbrev main_v171 : Ref sig .tc := ⟨.hbm, 229, rfl⟩
abbrev main_v172 : Ref sig .tc := ⟨.hbm, 230, rfl⟩
abbrev main_cst_33 : Ref sig .tc := ⟨.hbm, 231, rfl⟩
abbrev main_v173 : Ref sig .tc := ⟨.hbm, 232, rfl⟩
abbrev main_cst_34 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_35 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_36 : Ref sig .tc := ⟨.hbm, 244, rfl⟩
abbrev main_v183 : Ref sig .tc := ⟨.hbm, 245, rfl⟩
abbrev main_v184 : Ref sig .tc := ⟨.hbm, 246, rfl⟩
abbrev main_c_37 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_38 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196_0 : Ref sig .tc := ⟨.hbm, 260, rfl⟩
abbrev main_v196_1 : Ref sig .tc := ⟨.hbm, 261, rfl⟩
abbrev main_v196_2 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc5_stg7_0 : Ref sig .tc := ⟨.vmem, 70, rfl⟩
abbrev cc5_stg7_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg6_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg1_1 : Ref sig .tc := ⟨.vmem, 84, rfl⟩
abbrev cc7_stg2_0 : Ref sig .tc := ⟨.vmem, 85, rfl⟩
abbrev cc7_stg2_1 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg4_1 : Ref sig .tc := ⟨.vmem, 89, rfl⟩
abbrev cc7_stg5_0 : Ref sig .tc := ⟨.vmem, 90, rfl⟩
abbrev cc7_stg5_1 : Ref sig .tc := ⟨.vmem, 91, rfl⟩
abbrev cc7_stg6_0 : Ref sig .tc := ⟨.vmem, 92, rfl⟩
abbrev cc7_stg6_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg6_0 : Ref sig .tc := ⟨.vmem, 101, rfl⟩
abbrev cc8_stg6_1 : Ref sig .tc := ⟨.vmem, 102, rfl⟩
abbrev cc9_stg0_0 : Ref sig .tc := ⟨.vmem, 103, rfl⟩
abbrev cc9_stg0_1 : Ref sig .tc := ⟨.vmem, 104, rfl⟩
abbrev cc9_stg1_0 : Ref sig .tc := ⟨.vmem, 105, rfl⟩
abbrev cc9_stg1_1 : Ref sig .tc := ⟨.vmem, 106, rfl⟩
abbrev cc9_stg2_0 : Ref sig .tc := ⟨.vmem, 107, rfl⟩
abbrev cc9_stg2_1 : Ref sig .tc := ⟨.vmem, 108, rfl⟩
abbrev cc9_stg3_0 : Ref sig .tc := ⟨.vmem, 109, rfl⟩
abbrev cc9_stg4_0 : Ref sig .tc := ⟨.vmem, 110, rfl⟩
abbrev cc9_stg4_1 : Ref sig .tc := ⟨.vmem, 111, rfl⟩
abbrev cc9_stg5_0 : Ref sig .tc := ⟨.vmem, 112, rfl⟩
abbrev cc9_stg5_1 : Ref sig .tc := ⟨.vmem, 113, rfl⟩
abbrev cc9_stg6_0 : Ref sig .tc := ⟨.vmem, 114, rfl⟩
abbrev cc9_stg6_1 : Ref sig .tc := ⟨.vmem, 115, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem4_1 : DmaSem sig := 53
abbrev cc4_sem5_0 : DmaSem sig := 54
abbrev cc4_sem5_1 : DmaSem sig := 55
abbrev cc4_sem6_0 : DmaSem sig := 56
abbrev cc4_sem6_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem4_0 : DmaSem sig := 65
abbrev cc5_sem5_0 : DmaSem sig := 66
abbrev cc5_sem5_1 : DmaSem sig := 67
abbrev cc5_sem6_0 : DmaSem sig := 68
abbrev cc5_sem6_1 : DmaSem sig := 69
abbrev cc5_sem7_0 : DmaSem sig := 70
abbrev cc5_sem7_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem6_1 : DmaSem sig := 80
abbrev cc7_sem0_0 : DmaSem sig := 81
abbrev cc7_sem0_1 : DmaSem sig := 82
abbrev cc7_sem1_0 : DmaSem sig := 83
abbrev cc7_sem1_1 : DmaSem sig := 84
abbrev cc7_sem2_0 : DmaSem sig := 85
abbrev cc7_sem2_1 : DmaSem sig := 86
abbrev cc7_sem3_0 : DmaSem sig := 87
abbrev cc7_sem4_0 : DmaSem sig := 88
abbrev cc7_sem4_1 : DmaSem sig := 89
abbrev cc7_sem5_0 : DmaSem sig := 90
abbrev cc7_sem5_1 : DmaSem sig := 91
abbrev cc7_sem6_0 : DmaSem sig := 92
abbrev cc7_sem6_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem3_0 : DmaSem sig := 98
abbrev cc8_sem4_0 : DmaSem sig := 99
abbrev cc8_sem5_0 : DmaSem sig := 100
abbrev cc8_sem6_0 : DmaSem sig := 101
abbrev cc8_sem6_1 : DmaSem sig := 102
abbrev cc9_sem0_0 : DmaSem sig := 103
abbrev cc9_sem0_1 : DmaSem sig := 104
abbrev cc9_sem1_0 : DmaSem sig := 105
abbrev cc9_sem1_1 : DmaSem sig := 106
abbrev cc9_sem2_0 : DmaSem sig := 107
abbrev cc9_sem2_1 : DmaSem sig := 108
abbrev cc9_sem3_0 : DmaSem sig := 109
abbrev cc9_sem4_0 : DmaSem sig := 110
abbrev cc9_sem4_1 : DmaSem sig := 111
abbrev cc9_sem5_0 : DmaSem sig := 112
abbrev cc9_sem5_1 : DmaSem sig := 113
abbrev cc9_sem6_0 : DmaSem sig := 114
abbrev cc9_sem6_1 : DmaSem sig := 115

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x40 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x1x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x1x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x1x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x40 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x40 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S5000x40 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x40 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x40 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x40 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1x1x40 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1x1x40 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  slices_S2x40_S1x40_0_0 : S2x40.Slices ![0, 0] S1x40
  shapeCasts_S1x40_S40 : S1x40.ShapeCasts S40
  bcast_S40_S1x40_1 : S40.BroadcastsInDim S1x40 (![1] : Fin 1 → Fin S1x40.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  slices_S2x128x40_S1x128x40_0_0_0 : S2x128x40.Slices ![0, 0, 0] S1x128x40
  shapeCasts_S1x128x40_S128x40 : S1x128x40.ShapeCasts S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S40 : S5000x40.Reduces [0] S40
  shapeCasts_S40_S1x1x40 : S40.ShapeCasts S1x1x40
  inb_S1x1x40_S1x1x40_0_0_0 : ∀ a, (![0, 0, 0] : Fin 3 → Nat) a + S1x1x40.size a ≤ S1x1x40.size a
  h_S1x1x40 : 0 < S1x1x40.numel
  slices_S2x128_S1x128_1_0 : S2x128.Slices ![1, 0] S1x128
  slices_S2x40_S1x40_1_0 : S2x40.Slices ![1, 0] S1x40
  slices_S2x128x128_S1x128x128_1_0_0 : S2x128x128.Slices ![1, 0, 0] S1x128x128
  slices_S2x128x40_S1x128x40_1_0_0 : S2x128x40.Slices ![1, 0, 0] S1x128x40
  bcast_S100000x40_S1x100000x40_1_2 : S100000x40.BroadcastsInDim S1x100000x40 (![1, 2] : Fin 2 → Fin S1x100000x40.rank)
  concatenates_S1x100000x40_S1x100000x40_S2x100000x40_d0 : Shape.Concatenates [S1x100000x40, S1x100000x40] S2x100000x40 0
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S20x1x128.size a
  hwx0_6 : ∀ i : grid0.Coords, EltTy.bits .f32 = 32 ∨ (Rect.block (s := S20x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S20x1x128.size a
  hwx0_7 : ∀ i : grid0.Coords, EltTy.bits .f32 = 32 ∨ (Rect.block (s := S20x1x128) S1x1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S20x1x128.size a
  hwx2_5 : ∀ i : grid2.Coords, EltTy.bits .f32 = 32 ∨ (Rect.block (s := S20x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S20x1x128.size a
  hwx2_6 : ∀ i : grid2.Coords, EltTy.bits .f32 = 32 ∨ (Rect.block (s := S20x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x40.size a ≤ S128x40.size a
  hwx3_5 : ∀ i : grid3.Coords, EltTy.bits .f32 = 32 ∨ (Rect.block (s := S128x40) S128x40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x40.size a ≤ S100000x40.size a
  hwx3_6 : ∀ i : grid3.Coords, EltTy.bits .f32 = 32 ∨ (Rect.block (s := S100000x40) S5000x40.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S100000x40.size a
  hwx4_0 : ∀ i : grid4.Coords, EltTy.bits .f32 = 32 ∨ (Rect.block (s := S100000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S100000x40.size a
  hwx4_1 : ∀ i : grid4.Coords, EltTy.bits .f32 = 32 ∨ (Rect.block (s := S100000x40) S5000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x40.size a ≤ S100000x40.size a
  hwx4_4 : ∀ i : grid4.Coords, EltTy.bits .f32 = 32 ∨ (Rect.block (s := S100000x40) S5000x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x40.size a ≤ S20x1x40.size a
  hwx4_5 : ∀ i : grid4.Coords, EltTy.bits .f32 = 32 ∨ (Rect.block (s := S20x1x40) S1x1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x40.size a ≤ S20x1x40.size a
  hwx4_6 : ∀ i : grid4.Coords, EltTy.bits .f32 = 32 ∨ (Rect.block (s := S20x1x40) S1x1x40.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x1x128.size a ≤ S20x1x128.size a
  hwx5_6 : ∀ i : grid5.Coords, EltTy.bits .f32 = 32 ∨ (Rect.block (s := S20x1x128) S1x1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x1x128.size a ≤ S20x1x128.size a
  hwx5_7 : ∀ i : grid5.Coords, EltTy.bits .f32 = 32 ∨ (Rect.block (s := S20x1x128) S1x1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S20x1x128.size a
  hwx7_5 : ∀ i : grid7.Coords, EltTy.bits .f32 = 32 ∨ (Rect.block (s := S20x1x128) S1x1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x1x128.size a ≤ S20x1x128.size a
  hwx7_6 : ∀ i : grid7.Coords, EltTy.bits .f32 = 32 ∨ (Rect.block (s := S20x1x128) S1x1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x40.size a ≤ S128x40.size a
  hwx8_5 : ∀ i : grid8.Coords, EltTy.bits .f32 = 32 ∨ (Rect.block (s := S128x40) S128x40.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x40.size a ≤ S100000x40.size a
  hwx8_6 : ∀ i : grid8.Coords, EltTy.bits .f32 = 32 ∨ (Rect.block (s := S100000x40) S5000x40.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x40.size a ≤ S100000x40.size a
  hwx9_0 : ∀ i : grid9.Coords, EltTy.bits .f32 = 32 ∨ (Rect.block (s := S100000x40) S5000x40.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x40.size a ≤ S100000x40.size a
  hwx9_1 : ∀ i : grid9.Coords, EltTy.bits .f32 = 32 ∨ (Rect.block (s := S100000x40) S5000x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x40.size a ≤ S1x40.size a
  hwx9_3 : ∀ i : grid9.Coords, EltTy.bits .f32 = 32 ∨ (Rect.block (s := S1x40) S1x40.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x40.size a ≤ S100000x40.size a
  hwx9_4 : ∀ i : grid9.Coords, EltTy.bits .f32 = 32 ∨ (Rect.block (s := S100000x40) S5000x40.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1x1x40.size a ≤ S20x1x40.size a
  hwx9_5 : ∀ i : grid9.Coords, EltTy.bits .f32 = 32 ∨ (Rect.block (s := S20x1x40) S1x1x40.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x1x40.size a ≤ S20x1x40.size a
  hwx9_6 : ∀ i : grid9.Coords, EltTy.bits .f32 = 32 ∨ (Rect.block (s := S20x1x40) S1x1x40.size (cc9_transform_6 i) (hinb9_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v40) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v64_1) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v64_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v64_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v90) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v91_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v91_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v91_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S128x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S5000x40.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v117) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S5000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118_0) S5000x40.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v118_1) S1x1x40.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v118_2) S1x1x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v40) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v141) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v142_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v142_1) S1x1x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v142_2) S1x1x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v142_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v145) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v152) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v154) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v155) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v168) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v155) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v130) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v169_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v169_1) S1x1x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v169_2) S1x1x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v169_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v172) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v179) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v133) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v136) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v181) S128x40.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v182) S5000x40.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v195) S5000x40.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v182) S5000x40.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v27) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v139) S1x40.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v196_0) S5000x40.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v196_1) S1x1x40.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v196_2) S1x1x40.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2x128x128 : Shape := ⟨3, ![2, 128, 128]⟩
abbrev S2x128 : Shape := ⟨2, ![2, 128]⟩
abbrev S2x128x40 : Shape := ⟨3, ![2, 128, 40]⟩
abbrev S2x40 : Shape := ⟨2, ![2, 40]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩
abbrev S1x128x40 : Shape := ⟨3, ![1, 128, 40]⟩
abbrev S128x40 : Shape := ⟨2, ![128, 40]⟩
abbrev S1x40 : Shape := ⟨2, ![1, 40]⟩
abbrev S40 : Shape := ⟨1, ![40]⟩
abbrev S100000x40 : Shape := ⟨2, ![100000, 40]⟩
abbrev S1600000x40 : Shape := ⟨2, ![1600000, 40]⟩
abbrev S1x100000x40 : Shape := ⟨3, ![1, 100000, 40]⟩
abbrev S2x100000x40 : Shape := ⟨3, ![2, 100000, 40]⟩

abbrev nBuf : Space → Nat
  | .hbm => 369
  | .vmem => 0
  | .smem => 0
  | _ => 0

abbrev hbmTy0_0 (i : Nat) : BufTy := match i % 128 with
  | 0 => ⟨S100000x128, .f32⟩
  | 1 => ⟨S1600000, .f32⟩
  | 2 => ⟨S2x128x128, .f32⟩
  | 3 => ⟨S2x128, .f32⟩
  | 4 => ⟨S2x128, .f32⟩
  | 5 => ⟨S2x128, .f32⟩
  | 6 => ⟨S2x128x128, .f32⟩
  | 7 => ⟨S2x128, .f32⟩
  | 8 => ⟨S2x128, .f32⟩
  | 9 => ⟨S2x128, .f32⟩
  | 10 => ⟨S2x128x40, .f32⟩
  | 11 => ⟨S2x40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000, .f32⟩
  | 50 => ⟨S1x128x128, .f32⟩
  | 51 => ⟨S128x128, .f32⟩
  | 52 => ⟨S1x128, .f32⟩
  | 53 => ⟨S128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x1, .f32⟩
  | 2 => ⟨S1600000x128, .f32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x1, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S1x128x40, .f32⟩
  | 53 => ⟨S128x40, .f32⟩
  | 54 => ⟨S1x40, .f32⟩
  | 55 => ⟨S40, .f32⟩
  | 56 => ⟨S100000x40, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x40, .f32⟩
  | 66 => ⟨S1600000x1, .f32⟩
  | 67 => ⟨S1600000x40, .f32⟩
  | 68 => ⟨S1600000x40, .f32⟩
  | 69 => ⟨S_, .f32⟩
  | 70 => ⟨S100000x40, .f32⟩
  | 71 => ⟨S1600000x1, .i32⟩
  | 72 => ⟨S100000x40, .f32⟩
  | 73 => ⟨S100000x1, .f32⟩
  | 74 => ⟨S100000x40, .f32⟩
  | 75 => ⟨S100000x40, .f32⟩
  | 76 => ⟨S100000x40, .f32⟩
  | 77 => ⟨S1x40, .f32⟩
  | 78 => ⟨S100000x40, .f32⟩
  | 79 => ⟨S100000x40, .f32⟩
  | 80 => ⟨S1x128x128, .f32⟩
  | 81 => ⟨S128x128, .f32⟩
  | 82 => ⟨S1x128, .f32⟩
  | 83 => ⟨S128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x1, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x1, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x40, .f32⟩
  | 83 => ⟨S128x40, .f32⟩
  | 84 => ⟨S1x40, .f32⟩
  | 85 => ⟨S40, .f32⟩
  | 86 => ⟨S100000x40, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x40, .f32⟩
  | 96 => ⟨S1600000x1, .f32⟩
  | 97 => ⟨S1600000x40, .f32⟩
  | 98 => ⟨S1600000x40, .f32⟩
  | 99 => ⟨S_, .f32⟩
  | 100 => ⟨S100000x40, .f32⟩
  | 101 => ⟨S1600000x1, .i32⟩
  | 102 => ⟨S100000x40, .f32⟩
  | 103 => ⟨S100000x1, .f32⟩
  | 104 => ⟨S100000x40, .f32⟩
  | 105 => ⟨S100000x40, .f32⟩
  | 106 => ⟨S100000x40, .f32⟩
  | 107 => ⟨S1x40, .f32⟩
  | 108 => ⟨S100000x40, .f32⟩
  | 109 => ⟨S100000x40, .f32⟩
  | 110 => ⟨S1x100000x40, .f32⟩
  | 111 => ⟨S1x100000x40, .f32⟩
  | 112 => ⟨S2x100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call0_cst : Ref sig .tc := ⟨.hbm, 112, rfl⟩
abbrev main_call0_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_12 : Ref sig .tc := ⟨.hbm, 120, rfl⟩
abbrev main_v91 : Ref sig .tc := ⟨.hbm, 121, rfl⟩
abbrev main_v92 : Ref sig .tc := ⟨.hbm, 122, rfl⟩
abbrev main_c_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_15 : Ref sig .tc := ⟨.hbm, 147, rfl⟩
abbrev main_v115 : Ref sig .tc := ⟨.hbm, 148, rfl⟩
abbrev main_cst_16 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_17 : Ref sig .tc := ⟨.hbm, 156, rfl⟩
abbrev main_v122 : Ref sig .tc := ⟨.hbm, 157, rfl⟩
abbrev main_cst_18 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_19 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_call1_cst : Ref sig .tc := ⟨.hbm, 177, rfl⟩
abbrev main_call1_v0 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_c_20 : Ref sig .tc := ⟨.hbm, 185, rfl⟩
abbrev main_v146 : Ref sig .tc := ⟨.hbm, 186, rfl⟩
abbrev main_v147 : Ref sig .tc := ⟨.hbm, 187, rfl⟩
abbrev main_c_21 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_22 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_c_23 : Ref sig .tc := ⟨.hbm, 213, rfl⟩
abbrev main_v171 : Ref sig .tc := ⟨.hbm, 214, rfl⟩
abbrev main_v172 : Ref sig .tc := ⟨.hbm, 215, rfl⟩
abbrev main_c_24 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_25 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_26 : Ref sig .tc := ⟨.hbm, 240, rfl⟩
abbrev main_v195 : Ref sig .tc := ⟨.hbm, 241, rfl⟩
abbrev main_cst_27 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_28 : Ref sig .tc := ⟨.hbm, 249, rfl⟩
abbrev main_v202 : Ref sig .tc := ⟨.hbm, 250, rfl⟩
abbrev main_cst_29 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_cst_30 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_call2_cst : Ref sig .tc := ⟨.hbm, 270, rfl⟩
abbrev main_call2_v0 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_c_31 : Ref sig .tc := ⟨.hbm, 278, rfl⟩
abbrev main_v226 : Ref sig .tc := ⟨.hbm, 279, rfl⟩
abbrev main_v227 : Ref sig .tc := ⟨.hbm, 280, rfl⟩
abbrev main_c_32 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_cst_33 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_cst_34 : Ref sig .tc := ⟨.hbm, 305, rfl⟩
abbrev main_v250 : Ref sig .tc := ⟨.hbm, 306, rfl⟩
abbrev main_cst_35 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_36 : Ref sig .tc := ⟨.hbm, 314, rfl⟩
abbrev main_v257 : Ref sig .tc := ⟨.hbm, 315, rfl⟩
abbrev main_cst_37 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_cst_38 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_call3_cst : Ref sig .tc := ⟨.hbm, 335, rfl⟩
abbrev main_call3_v0 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_c_39 : Ref sig .tc := ⟨.hbm, 343, rfl⟩
abbrev main_v281 : Ref sig .tc := ⟨.hbm, 344, rfl⟩
abbrev main_v282 : Ref sig .tc := ⟨.hbm, 345, rfl⟩
abbrev main_c_40 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_cst_41 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S2x128x40_S1x128x40_0_0_0 : S2x128x40.Slices ![0, 0, 0] S1x128x40
  shapeCasts_S1x128x40_S128x40 : S1x128x40.ShapeCasts S128x40
  slices_S2x40_S1x40_0_0 : S2x40.Slices ![0, 0] S1x40
  shapeCasts_S1x40_S40 : S1x40.ShapeCasts S40
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  slices_S2x128x128_S1x128x128_1_0_0 : S2x128x128.Slices ![1, 0, 0] S1x128x128
  slices_S2x128_S1x128_1_0 : S2x128.Slices ![1, 0] S1x128
  slices_S2x128x40_S1x128x40_1_0_0 : S2x128x40.Slices ![1, 0, 0] S1x128x40
  slices_S2x40_S1x40_1_0 : S2x40.Slices ![1, 0] S1x40
  bcast_S100000x40_S1x100000x40_1_2 : S100000x40.BroadcastsInDim S1x100000x40 (![1, 2] : Fin 2 → Fin S1x100000x40.rank)
  concatenates_S1x100000x40_S1x100000x40_S2x100000x40_d0 : Shape.Concatenates [S1x100000x40, S1x100000x40] S2x100000x40 0
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibRowOps.lean ====
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-- An update lands at `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

theorem rows_window_0 (e : Fin E) (j : Fin W) : (rowsScatter N E W wf).window (ix2 e j) 0 = 0 := by
  unfold ScatterDims.window
  rw [dif_neg (by simp [ScatterDims.sKept, Shape.kept, List.mem_filter])]

theorem rows_window_1 (e : Fin E) (j : Fin W) : (rowsScatter N E W wf).window (ix2 e j) 1 = j.val := by
  unfold ScatterDims.window
  rw [dif_pos (by simp [ScatterDims.sKept, Shape.kept, List.mem_filter])]
  rfl

theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

/-- Entry (i, j) is the operand's plus the updates (e, j) of the rows e whose word, read signed, is i. -/
theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E : Nat} (wf : ScatterDims.WF ⟨1, ![N]⟩ ⟨2, ![E, 1]⟩ ⟨1, ![E]⟩ [] [0] [0] 1)

theorem vec_start (idx : IVec ⟨2, ![E, 1]⟩ 32) (e : Fin E) :
    (vecScatter N E wf).start (ix1 e) idx 0 = (idx (ix2 e 0)).toInt := by
  unfold ScatterDims.start
  rw [dif_pos (show (0 : Fin (⟨1, ![N]⟩ : Shape).rank) ∈ (vecScatter N E wf).scatterDimsToOperandDims from List.mem_singleton.mpr rfl)]
  congr 2
  funext b; refine Fin.ext ?_
  match b with
  | ⟨0, _⟩ => rfl
  | ⟨1, _⟩ => rfl

theorem vec_window (e : Fin E) : (vecScatter N E wf).window (ix1 e) 0 = 0 := by
  unfold ScatterDims.window
  rw [dif_neg (by simp [ScatterDims.sKept, Shape.kept, List.mem_filter])]

theorem vec_lands (idx : IVec ⟨2, ![E, 1]⟩ 32) (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h 0
    rw [vec_start, vec_window] at h0
    change (idx (ix2 e 0)).toInt + ((0 : ℕ) : ℤ) = (i.val : ℤ) at h0
    simpa using h0
  · intro h0 a
    obtain rfl : a = 0 := Subsingleton.elim _ _
    rw [vec_start, vec_window]
    show (idx (ix2 e 0)).toInt + ((0 : ℕ) : ℤ) = (i.val : ℤ)
    simpa using h0

theorem vec_sum (idx : IVec ⟨2, ![E, 1]⟩ 32) (upd : (⟨1, ![E]⟩ : Shape).Idx → EReal) (i : Fin N) :
    ∑ u ∈ Finset.univ.filter (fun u => (vecScatter N E wf).resultIdx? u idx = some (ix1 i)), upd u
      = ∑ e : Fin E, (if (idx (ix2 e 0)).toInt = (i.val : ℤ) then upd (ix1 e) else 0) := by
  rw [Finset.sum_filter, ← Equiv.sum_comp (idxEquiv1 (n := E)).symm]
  refine Finset.sum_congr rfl fun e _ => ?_
  show (if (vecScatter N E wf).resultIdx? (ix1 e) idx = some (ix1 i) then upd (ix1 e) else 0) = _
  simp only [vec_lands]

theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [← vec_sum wf' idx upd i]

end

def clampRow (N : Nat) (hN : 0 < N) (v : BitVec 32) : Fin N := ⟨min v.toInt.toNat (N - 1), by omega⟩

abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section
variable {N E W : Nat} (wf : GatherDims.WF ⟨2, ![N, W]⟩ ⟨2, ![E, 1]⟩ ⟨2, ![E, W]⟩ [1] [0] [] [0] [] 1 ![1, W])

theorem rows_operandIdx (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

end

/-- Row e of the result is the operand row its word names, read signed and clamped into range. -/
theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  unfold Host.gather
  rw [← rows_operandIdx wf' hN idx e j]

abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem vec_operandIdx {N E : Nat} (wf : GatherDims.WF ⟨1, ![N]⟩ ⟨2, ![E, 1]⟩ ⟨1, ![E]⟩ [] [0] [] [0] [] 1 ![1]) (hN : 0 < N)
    (idx : IVec ⟨2, ![E, 1]⟩ 32) (e : Fin E) :
    (vecGather N E wf).operandIdx (ix1 e) idx = ix1 (clampRow N hN (idx (ix2 e 0))) := by
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin (⟨1, ![N]⟩ : Shape).rank) ∈ (vecGather N E wf).startIndexMap from List.mem_singleton.mpr rfl)]
  have hsi : (vecGather N E wf).siIdx (ix1 e) ⟨List.idxOf (0 : Fin (⟨1, ![N]⟩ : Shape).rank) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem gather_vec_apply {α : Type} {N E : Nat} (hN : 0 < N) (d : GatherDims ⟨1, ![N]⟩ ⟨2, ![E, 1]⟩ ⟨1, ![E]⟩)
    (h : d.offsetDims = []) (h' : d.collapsedSliceDims = [0]) (hb : d.operandBatchingDims = [])
    (hb' : d.startIndicesBatchingDims = []) (hm : d.startIndexMap = [0]) (hv : d.indexVectorDim = 1)
    (hs : d.sliceSizes = ![1])
    (a : (⟨1, ![N]⟩ : Shape).Idx → α) (idx : IVec ⟨2, ![E, 1]⟩ 32) (e : Fin E) :
    Host.gather d a idx (ix1 e) = a (ix1 (clampRow N hN (idx (ix2 e 0)))) := by
  obtain ⟨od, cd, ob, sb, sm, iv, ss, wf'⟩ := d
  dsimp only at h h' hb hb' hm hv hs
  subst h h' hb hb' hm hv hs
  unfold Host.gather
  rw [← vec_operandIdx wf' hN idx e]

end Idealize.ShloMosaic.RowOps

end
-- ==== Proof.Spec.lean ====
import Idealize.ShloMosaic.PureOps.Ideal

noncomputable section

open scoped BigOperators

namespace Cert.GCN

open Idealize.ShloMosaic

abbrev NN : ℕ := 100000

abbrev EE : ℕ := 1600000

def IsReal (v : EReal) : Prop := ∃ r : ℝ, v = (r : EReal)

def blkRow (b : Fin 20) (r : Fin 5000) : Fin NN := ⟨b.val * 5000 + r.val, by have := b.isLt; have := r.isLt; show _ < 100000; omega⟩

section Graph

variable (dw : Fin EE → BitVec 32) (src dstR : Fin EE → Fin NN) (ea : Fin EE → EReal)

def deg (i : Fin NN) : EReal := (∑ e : Fin EE, if (dw e).toInt = (i.val : ℤ) then ea e else 0) + 1

def dinv (i : Fin NN) : EReal := Ideal.rsqrt (deg dw ea i)

def wn (e : Fin EE) : EReal := dinv dw ea (src e) * ea e * dinv dw ea (dstR e)

def sn (i : Fin NN) : EReal := dinv dw ea i * dinv dw ea i

end Graph

section Stages

variable (dw : Fin EE → BitVec 32) (src : Fin EE → Fin NN) (wn : Fin EE → EReal) (sn : Fin NN → EReal)

def agg {C : ℕ} (h : Fin NN → Fin C → EReal) (i : Fin NN) (j : Fin C) : EReal :=
  ∑ e : Fin EE, if (dw e).toInt = (i.val : ℤ) then h (src e) j * wn e else 0

def mm {R K C : ℕ} (a : Fin R → Fin K → EReal) (W : Fin K → Fin C → EReal) (i : Fin R) (j : Fin C) : EReal :=
  ∑ k : Fin K, a i k * W k j

def comb {C : ℕ} (a h : Fin NN → Fin C → EReal) (b : Fin C → EReal) (i : Fin NN) (j : Fin C) : EReal :=
  (a i j + sn i * h i j) + b j

def conv {K C : ℕ} (h : Fin NN → Fin K → EReal) (W : Fin K → Fin C → EReal) (b : Fin C → EReal) : Fin NN → Fin C → EReal :=
  comb sn (agg dw src wn (mm h W)) (mm h W) b

def fused {K C : ℕ} (a x : Fin NN → Fin K → EReal) (W : Fin K → Fin C → EReal) (b : Fin C → EReal) (i : Fin NN) (j : Fin C) : EReal :=
  (∑ k : Fin K, (a i k + sn i * x i k) * W k j) + b j

variable (n eps : EReal)

def mean {C : ℕ} (c : Fin NN → Fin C → EReal) (j : Fin C) : EReal := Ideal.div (∑ i : Fin NN, c i j) n

def var {C : ℕ} (c : Fin NN → Fin C → EReal) (j : Fin C) : EReal :=
  Ideal.div (∑ i : Fin NN, (c i j - mean n c j) * (c i j - mean n c j)) n

def blkSum {C : ℕ} (c : Fin NN → Fin C → EReal) (b : Fin 20) (j : Fin C) : EReal := ∑ r : Fin 5000, c (blkRow b r) j

def blkSq {C : ℕ} (c : Fin NN → Fin C → EReal) (b : Fin 20) (j : Fin C) : EReal := ∑ r : Fin 5000, c (blkRow b r) j * c (blkRow b r) j

def meanB {C : ℕ} (c : Fin NN → Fin C → EReal) (j : Fin C) : EReal := Ideal.div (∑ b : Fin 20, blkSum c b j) n

def varB {C : ℕ} (c : Fin NN → Fin C → EReal) (j : Fin C) : EReal :=
  max (Ideal.div (∑ b : Fin 20, blkSq c b j) n - meanB n c j * meanB n c j) 0

def bnRelu {C : ℕ} (c : Fin NN → Fin C → EReal) (mu va γ β : Fin C → EReal) (i : Fin NN) (j : Fin C) : EReal :=
  max (γ j * (c i j - mu j) * Ideal.rsqrt (va j + eps) + β j) 0

/-- The reference's order: multiply, aggregate, then mean and variance over all nodes. -/
def towerR (x : Fin NN → Fin 128 → EReal)
    (W1 : Fin 128 → Fin 128 → EReal) (b1 g1 bt1 : Fin 128 → EReal)
    (W2 : Fin 128 → Fin 128 → EReal) (b2 g2 bt2 : Fin 128 → EReal)
    (W3 : Fin 128 → Fin 40 → EReal) (b3 : Fin 40 → EReal) : Fin NN → Fin 40 → EReal :=
  let c1 := conv dw src wn sn x W1 b1
  let a1 := bnRelu eps c1 (mean n c1) (var n c1) g1 bt1
  let c2 := conv dw src wn sn a1 W2 b2
  let a2 := bnRelu eps c2 (mean n c2) (var n c2) g2 bt2
  conv dw src wn sn a2 W3 b3

/-- The kernel's order: aggregate first, multiply afterwards; statistics from per-block sums as E[c²] − E[c]², clipped. -/
def towerK (x : Fin NN → Fin 128 → EReal)
    (W1 : Fin 128 → Fin 128 → EReal) (b1 g1 bt1 : Fin 128 → EReal)
    (W2 : Fin 128 → Fin 128 → EReal) (b2 g2 bt2 : Fin 128 → EReal)
    (W3 : Fin 128 → Fin 40 → EReal) (b3 : Fin 40 → EReal) : Fin NN → Fin 40 → EReal :=
  let c1 := fused sn (agg dw src wn x) x W1 b1
  let h2 := mm (bnRelu eps c1 (meanB n c1) (varB n c1) g1 bt1) W2
  let c2 := comb sn (agg dw src wn h2) h2 b2
  let h3 := mm (bnRelu eps c2 (meanB n c2) (varB n c2) g2 bt2) W3
  comb sn (agg dw src wn h3) h3 b3

end Stages

end Cert.GCN

end
-- ==== Proof.Args.lean ====
import Idealize.ShloMosaic.Lib.ValueIdx
import proofs.«430204_j43868795961418_3_alg».proof.Proof.LibRowOps
import proofs.«430204_j43868795961418_3_alg».proof.Proof.Spec

noncomputable section

namespace Cert.GCN

open Idealize.ShloMosaic Idealize.ShloMosaic.ValueIdx Idealize.ShloMosaic.RowOps

def cur1 {α : Type} {a : ℕ} (v : (⟨1, ![a]⟩ : Shape).Idx → α) (i : Fin a) : α := v (ix1 i)

def cur2 {α : Type} {a b : ℕ} (v : (⟨2, ![a, b]⟩ : Shape).Idx → α) (i : Fin a) (j : Fin b) : α := v (ix2 i j)

def slab {α : Type} {a b : ℕ} (v : (⟨3, ![2, a, b]⟩ : Shape).Idx → α) (g : Fin 2) (i : Fin a) (j : Fin b) : α := v (ix3 g i j)

def row {α : Type} {b : ℕ} (v : (⟨2, ![2, b]⟩ : Shape).Idx → α) (g : Fin 2) (j : Fin b) : α := v (ix2 g j)

def wrapW (w : BitVec 32) : BitVec 32 := Scalar.select (IntOp.cmpi .slt w 0#32) (IntOp.addi w 100000#32) w

def dwOf (ei : (⟨2, ![2, EE]⟩ : Shape).Idx → BitVec 32) (e : Fin EE) : BitVec 32 := ei (ix2 1 e)

def srcOf (ei : (⟨2, ![2, EE]⟩ : Shape).Idx → BitVec 32) (e : Fin EE) : Fin NN := clampRow NN (by decide) (wrapW (ei (ix2 0 e)))

def dstROf (ei : (⟨2, ![2, EE]⟩ : Shape).Idx → BitVec 32) (e : Fin EE) : Fin NN := clampRow NN (by decide) (wrapW (ei (ix2 1 e)))

def nLit : EReal := Ideal.ofBits .f32 0x47C35000#32

def epsLit : EReal := Ideal.ofBits .f32 0x3727C5AC#32

def outR (x : (⟨2, ![NN, 128]⟩ : Shape).Idx → EReal) (ea : (⟨1, ![EE]⟩ : Shape).Idx → EReal)
    (W1 : (⟨3, ![2, 128, 128]⟩ : Shape).Idx → EReal) (b1 g1 bt1 : (⟨2, ![2, 128]⟩ : Shape).Idx → EReal)
    (W2 : (⟨3, ![2, 128, 128]⟩ : Shape).Idx → EReal) (b2 g2 bt2 : (⟨2, ![2, 128]⟩ : Shape).Idx → EReal)
    (W3 : (⟨3, ![2, 128, 40]⟩ : Shape).Idx → EReal) (b3 : (⟨2, ![2, 40]⟩ : Shape).Idx → EReal)
    (ei : (⟨2, ![2, EE]⟩ : Shape).Idx → BitVec 32) (g : Fin 2) : Fin NN → Fin 40 → EReal :=
  towerR (dwOf ei) (srcOf ei) (wn (dwOf ei) (srcOf ei) (dstROf ei) (cur1 ea)) (sn (dwOf ei) (cur1 ea)) nLit epsLit
    (cur2 x) (slab W1 g) (row b1 g) (row g1 g) (row bt1 g) (slab W2 g) (row b2 g) (row g2 g) (row bt2 g) (slab W3 g) (row b3 g)

def outK (x : (⟨2, ![NN, 128]⟩ : Shape).Idx → EReal) (ea : (⟨1, ![EE]⟩ : Shape).Idx → EReal)
    (W1 : (⟨3, ![2, 128, 128]⟩ : Shape).Idx → EReal) (b1 g1 bt1 : (⟨2, ![2, 128]⟩ : Shape).Idx → EReal)
    (W2 : (⟨3, ![2, 128, 128]⟩ : Shape).Idx → EReal) (b2 g2 bt2 : (⟨2, ![2, 128]⟩ : Shape).Idx → EReal)
    (W3 : (⟨3, ![2, 128, 40]⟩ : Shape).Idx → EReal) (b3 : (⟨2, ![2, 40]⟩ : Shape).Idx → EReal)
    (ei : (⟨2, ![2, EE]⟩ : Shape).Idx → BitVec 32) (g : Fin 2) : Fin NN → Fin 40 → EReal :=
  towerK (dwOf ei) (srcOf ei) (wn (dwOf ei) (srcOf ei) (dstROf ei) (cur1 ea)) (sn (dwOf ei) (cur1 ea)) nLit epsLit
    (cur2 x) (slab W1 g) (row b1 g) (row g1 g) (row bt1 g) (slab W2 g) (row b2 g) (row g2 g) (row bt2 g) (slab W3 g) (row b3 g)

end Cert.GCN

end
-- ==== Proof.Blocks.lean ====
import Idealize.ShloMosaic.Lib.Pipeline.Value
import Idealize.ShloMosaic.Lib.ValueIdx
import Idealize.ShloMosaic.Lib.ValueLayout
import Idealize.ShloMosaic.PureOps.Ideal.Laws
import proofs.«430204_j43868795961418_3_alg».proof.Proof.Args

noncomputable section

open scoped BigOperators

namespace Cert.GCN

open Idealize.ShloMosaic Idealize.ShloMosaic.ValueIdx

variable {α : Type}

theorem zeros2 : (![0, 0] : Fin 2 → ℕ) = fun _ => 0 := funext fun a => by fin_cases a <;> rfl

theorem zeros3 : (![0, 0, 0] : Fin 3 → ℕ) = fun _ => 0 := funext fun a => by fin_cases a <;> rfl

-- Two rank-3 indices with the same three coordinates are equal.
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

-- On an axis where block t of extent R starts at t · R, its entry r sits at t · R + r.
theorem row_off {b t R r : ℕ} (h : b = t) : b * R + 1 * r = t * R + r := by rw [h, Nat.one_mul]

-- On an axis the blocks do not divide, an entry keeps its coordinate.
theorem col_off {b C q : ℕ} (h : b = 0) : b * C + 1 * q = q := by rw [h, Nat.zero_mul, Nat.zero_add, Nat.one_mul]

-- On an axis of one-entry blocks, the entry of block t sits at t.
theorem unit_off {b t : ℕ} (u : Fin 1) (h : b = t) : b * 1 + 1 * u.val = t := by omega

-- Every node is row i % 5000 of block i / 5000.
theorem exists_blkRow (i : Fin NN) : ∃ b r, blkRow b r = i :=
  ⟨⟨i.val / 5000, by have : i.val < 100000 := i.isLt; omega⟩, ⟨i.val % 5000, Nat.mod_lt _ (by decide)⟩,
    Fin.ext (Nat.div_add_mod' i.val 5000)⟩

-- A column repeated along the other axis reads, at (p, q), the column's entry p.
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

-- A vector and its [1, 1, a] layout list the same entries in the same order.
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    rw [Shape.rowMajor_val_three, Shape.rowMajor_val_one]
    show i.val = (u.val * 1 + w.val) * a + i.val
    simp only [Fin.val_eq_zero, Nat.zero_mul, Nat.zero_add])

-- The sum down the rows, started from zero and laid out as [1, 1, m], is at column q the sum of that column.
theorem colsum_apply {n m : ℕ} (src : FVec Ideal ⟨2, ![n, m]⟩ .f32) (h : Shape.Reduces ⟨2, ![n, m]⟩ [0] ⟨1, ![m]⟩)
    (hφ : FKind.Formats .f32) (hacc : (0x00000000#32 : BitVec 32) = FKind.add.neutral .f32 hφ)
    (hc : (⟨1, ![m]⟩ : Shape).ShapeCasts ⟨3, ![1, 1, m]⟩) (u w : Fin 1) (q : Fin m) :
    shapeCast ⟨3, ![1, 1, m]⟩ (multiReduction (F := Ideal) .add [0] ⟨1, ![m]⟩ src 0x00000000#32 h hφ hacc) hc (ix3 u w q)
      = ∑ r : Fin n, src (ix2 r q) := by
  rw [shapeCast_a_11a_apply, Ideal.multiReduction_add_single]
  exact Finset.sum_congr rfl fun r _ => congrArg src (Shape.idx_ext₂ rfl rfl)

-- With no batch axis, the left operand's one free axis reads the result's first coordinate,
theorem lhsIdx_val_free {sl sr so : Shape} (d : DotDims sl sr so) {a : Fin sl.rank} (hb : d.lhsBatch = [])
    (hn : d.lhsNonContracting = [a]) (h : 0 < so.rank) (j : so.Idx) (k : d.contr.Idx) :
    (d.lhsIdx j k a).val = (j ⟨0, h⟩).val := by
  have hnb : a ∉ d.lhsBatch := by rw [hb]; exact List.not_mem_nil
  have hmn : a ∈ d.lhsNonContracting := by rw [hn]; exact List.mem_singleton_self a
  unfold DotDims.lhsIdx
  rw [dif_neg hnb, dif_pos hmn]
  simp only [Fin.val_cast]
  have key : ∀ (p q : ℕ) (hp : p < so.rank) (hq : q < so.rank), p = q → (j ⟨p, hp⟩).val = (j ⟨q, hq⟩).val :=
    fun p q hp hq e => by subst e; rfl
  exact key _ _ _ _ (by simp [hb, hn])

-- and the right operand's one free axis reads the second.
theorem rhsIdx_val_free {sl sr so : Shape} (d : DotDims sl sr so) {a : Fin sr.rank} {a' : Fin sl.rank}
    (hb : d.lhsBatch = []) (hn : d.lhsNonContracting = [a']) (hb' : d.rhsBatch = []) (hn' : d.rhsNonContracting = [a])
    (h : 1 < so.rank) (j : so.Idx) (k : d.contr.Idx) : (d.rhsIdx j k a).val = (j ⟨1, h⟩).val := by
  have hnb : a ∉ d.rhsBatch := by rw [hb']; exact List.not_mem_nil
  have hmn : a ∈ d.rhsNonContracting := by rw [hn']; exact List.mem_singleton_self a
  unfold DotDims.rhsIdx
  rw [dif_neg hnb, dif_pos hmn]
  simp only [Fin.val_cast]
  have key : ∀ (p q : ℕ) (hp : p < so.rank) (hq : q < so.rank), p = q → (j ⟨p, hp⟩).val = (j ⟨q, hq⟩).val :=
    fun p q hp hq e => by subst e; rfl
  exact key _ _ _ _ (by simp [hb, hn, hn'])

-- A plain matrix product onto zero is, at (p, q), the sum over the shared coordinate of the entries' products.
theorem matmul_zero_apply {R K C : ℕ} {φ₁ φ₂ : FTy} (d : DotDims ⟨2, ![R, K]⟩ ⟨2, ![K, C]⟩ ⟨2, ![R, C]⟩)
    (prec : Option ContractPrecision) (hcr : d.contr.rank = 1) (hcs : d.contr.size ⟨0, by omega⟩ = K)
    (hl : d.lhsContracting = [1]) (hr : d.rhsContracting = [0]) (hlb : d.lhsBatch = [])
    (hln : d.lhsNonContracting = [0]) (hrb : d.rhsBatch = []) (hrn : d.rhsNonContracting = [1])
    (A : FVec Ideal ⟨2, ![R, K]⟩ φ₁) (B : FVec Ideal ⟨2, ![K, C]⟩ φ₂) (p : Fin R) (q : Fin C) :
    matmul d prec A B (constant (F := Ideal) ⟨2, ![R, C]⟩ .f32 0x00000000#32) (ix2 p q)
      = ∑ k : Fin K, A (ix2 p k) * B (ix2 k q) := by
  show FloatOps.matmul _ _ A B _ (ix2 p q) = _
  rw [Ideal.matmul_constant_zero_apply, ← Equiv.sum_comp (contrEquiv1 d K hcr hcs).symm]
  refine Finset.sum_congr rfl fun k _ => ?_
  have hk := contrEquiv1_symm_val d K hcr hcs k
  rw [show d.lhsIdx (ix2 p q) ((contrEquiv1 d K hcr hcs).symm k) = ix2 p k from
      Shape.idx_ext₂ (lhsIdx_val_free d hlb hln Nat.zero_lt_two _ _) ((d.lhsIdx_val_of_single hl _ _).trans hk),
    show d.rhsIdx (ix2 p q) ((contrEquiv1 d K hcr hcs).symm k) = ix2 k q from
      Shape.idx_ext₂ ((d.rhsIdx_val_of_single hr _ _).trans hk) (rhsIdx_val_free d hlb hln hrb hrn Nat.one_lt_two _ _)]

-- Blocks that are rows 5000·b … 5000·b + 4999 of whole arrays combine, entry by entry, to the combine at those nodes.
theorem combine_of_rows {C : ℕ} (x0 x1 : FVec Ideal ⟨2, ![5000, C]⟩ .f32) (x2 : FVec Ideal ⟨2, ![5000, 1]⟩ .f32)
    (x3 : FVec Ideal ⟨2, ![1, C]⟩ .f32) (h2 : (⟨2, ![5000, 1]⟩ : Shape).Broadcasts ⟨2, ![5000, C]⟩)
    (h3 : (⟨2, ![1, C]⟩ : Shape).Broadcasts ⟨2, ![5000, C]⟩)
    (A0 A1 : (⟨2, ![NN, C]⟩ : Shape).Idx → EReal) (A2 : (⟨2, ![NN, 1]⟩ : Shape).Idx → EReal)
    (A3 : (⟨2, ![1, C]⟩ : Shape).Idx → EReal) (b : Fin 20)
    (e0 : ∀ r q, x0 (ix2 r q) = A0 (ix2 (blkRow b r) q)) (e1 : ∀ r q, x1 (ix2 r q) = A1 (ix2 (blkRow b r) q))
    (e2 : ∀ r, x2 (ix2 r (0 : Fin 1)) = A2 (ix2 (blkRow b r) (0 : Fin 1)))
    (e3 : ∀ q, x3 (ix2 (0 : Fin 1) q) = A3 (ix2 (0 : Fin 1) q)) (r : Fin 5000) (q : Fin C) :
    addf (addf x0 (mulf (broadcastTo ⟨2, ![5000, C]⟩ x2 h2) x1)) (broadcastTo ⟨2, ![5000, C]⟩ x3 h3) (ix2 r q)
      = comb (fun i => A2 (ix2 i 0)) (cur2 A0) (cur2 A1) (fun j => A3 (ix2 0 j)) (blkRow b r) q := by
  rw [addf_apply, addf_apply, mulf_apply, broadcastTo_a1_ab_apply, broadcastTo_1b_ab_apply, e0, e1, e2, e3]
  rfl

-- The same with the product by a whole matrix in between: the fused layer at those nodes.
theorem fused_of_rows {K C : ℕ} (d : DotDims ⟨2, ![5000, K]⟩ ⟨2, ![K, C]⟩ ⟨2, ![5000, C]⟩)
    (hcr : d.contr.rank = 1) (hcs : d.contr.size ⟨0, by omega⟩ = K)
    (hl : d.lhsContracting = [1]) (hr : d.rhsContracting = [0]) (hlb : d.lhsBatch = [])
    (hln : d.lhsNonContracting = [0]) (hrb : d.rhsBatch = []) (hrn : d.rhsNonContracting = [1])
    (x0 x1 : FVec Ideal ⟨2, ![5000, K]⟩ .f32) (x2 : FVec Ideal ⟨2, ![5000, 1]⟩ .f32)
    (x3 : FVec Ideal ⟨2, ![K, C]⟩ .f32) (x4 : FVec Ideal ⟨2, ![1, C]⟩ .f32)
    (h2 : (⟨2, ![5000, 1]⟩ : Shape).Broadcasts ⟨2, ![5000, K]⟩) (h4 : (⟨2, ![1, C]⟩ : Shape).Broadcasts ⟨2, ![5000, C]⟩)
    (hb : FTy.bf16.bits < FTy.f32.bits)
    (A0 A1 : (⟨2, ![NN, K]⟩ : Shape).Idx → EReal) (A2 : (⟨2, ![NN, 1]⟩ : Shape).Idx → EReal)
    (A3 : (⟨2, ![K, C]⟩ : Shape).Idx → EReal) (A4 : (⟨2, ![1, C]⟩ : Shape).Idx → EReal) (b : Fin 20)
    (e0 : ∀ r q, x0 (ix2 r q) = A0 (ix2 (blkRow b r) q)) (e1 : ∀ r q, x1 (ix2 r q) = A1 (ix2 (blkRow b r) q))
    (e2 : ∀ r, x2 (ix2 r (0 : Fin 1)) = A2 (ix2 (blkRow b r) (0 : Fin 1)))
    (e3 : ∀ k q, x3 (ix2 k q) = A3 (ix2 k q)) (e4 : ∀ q, x4 (ix2 (0 : Fin 1) q) = A4 (ix2 (0 : Fin 1) q))
    (r : Fin 5000) (q : Fin C) :
    addf (matmul d none (truncf .bf16 (addf x0 (mulf (broadcastTo ⟨2, ![5000, K]⟩ x2 h2) x1)) hb) (truncf .bf16 x3 hb)
        (constant (F := Ideal) ⟨2, ![5000, C]⟩ .f32 0x00000000#32)) (broadcastTo ⟨2, ![5000, C]⟩ x4 h4) (ix2 r q)
      = fused (fun i => A2 (ix2 i 0)) (cur2 A0) (cur2 A1) (cur2 A3) (fun j => A4 (ix2 0 j)) (blkRow b r) q := by
  rw [addf_apply, matmul_zero_apply d none hcr hcs hl hr hlb hln hrb hrn, broadcastTo_1b_ab_apply, e4]
  unfold fused cur2
  refine congrArg (· + A4 (ix2 (0 : Fin 1) q)) (Finset.sum_congr rfl fun k _ => ?_)
  rw [truncf_apply, truncf_apply, addf_apply, mulf_apply, broadcastTo_a1_ab_apply, e0, e1, e2, e3]

section
open Idealize.SL Idealize.SL.RA Idealize.ShloMosaic.Pipeline

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

-- If every point's block ends as its part of one array G, an entry lying in some point's block ends as G's.
theorem arrAt_of_emb (w : Fin cfg.W) (G : Buf Val ((cfg.win w).arr.view.loc (c.tc : Thread nD τ)))
    (hG : ∀ t, (cfg.win w).flush t = true → dat.flushed w t = ((cfg.win w).blk t).view.read Val G)
    (t : Fin cfg.N) (hf : (cfg.win w).flush t = true) (y : ((cfg.win w).xblock (cfg.grid.coords t)).Idx)
    {i : ((cfg.win w).arr.view.loc (c.tc : Thread nD τ)).2.ty.Idx} (hi : ((cfg.win w).blk t).view.emb y = i) :
    dat.arrAt w cfg.N i = G i :=
  dat.arrAt_apply_of_mem w G hG cfg.N t i t.isLt hf (hi ▸ ((cfg.win w).blk t).view.emb_mem_set y)

end

end Cert.GCN

end
-- ==== Proof.Region5.lean ====
import proofs.«430204_j43868795961418_3_alg».proof.Proof.Gen.KernelIdeal.Frame
import proofs.«430204_j43868795961418_3_alg».proof.Proof.Blocks

noncomputable section

namespace Cert.GCN.Reg5

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

def c0 (c : Dev nD) : Fin NN → Fin 128 → EReal :=
  fused (fun i => V c (Pipeline.arrRef spec5 2) (ix2 i 0)) (cur2 (V c (Pipeline.arrRef spec5 0)))
    (cur2 (V c (Pipeline.arrRef spec5 1))) (cur2 (V c (Pipeline.arrRef spec5 3)))
    (fun j => V c (Pipeline.arrRef spec5 4) (ix2 0 j))

theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 3) = t.val ∧ win5_6.index t (1 : Fin 3) = 0 ∧ win5_6.index t (2 : Fin 3) = 0
    ∧ win5_7.index t (0 : Fin 3) = t.val ∧ win5_7.index t (1 : Fin 3) = 0 ∧ win5_7.index t (2 : Fin 3) = 0 :=
  (by decide +kernel : ∀ t : Fin grid5.N, _)

def bOf (t : Fin cfg5.N) : Fin 20 := t.cast N_5

-- Row r of each row-blocked input at point t is node 5000·t + r of its array; the matrix and the bias are whole.
theorem block_row (c : Dev nD) (t : Fin cfg5.N) (r : Fin 5000) (q : Fin 128) :
    k5_pay1 (F := Ideal) (iblk5 V c 0 t) (iblk5 V c 2 t) (iblk5 V c 1 t) (iblk5 V c 3 t) (iblk5 V c 4 t) (ix2 r q)
      = c0 V c (blkRow (bOf t) r) q := by
  obtain ⟨a0, a1, b0, b1, d0, d1, e0, e1, f0, f1, -⟩ := idx_facts t
  unfold k5_pay1
  simp only [shapeCast_self]
  refine fused_of_rows _ rfl rfl rfl rfl rfl rfl rfl rfl _ _ _ _ _ _ _ _ _ _ _ _ _ (bOf t)
    (fun _ _ => ?_) (fun _ _ => ?_) (fun _ => ?_) (fun _ _ => ?_) (fun _ => ?_) r q
  · exact congrArg (V c (Pipeline.arrRef spec5 0)) (Shape.idx_ext₂ (row_off a0) (col_off a1))
  · exact congrArg (V c (Pipeline.arrRef spec5 1)) (Shape.idx_ext₂ (row_off b0) (col_off b1))
  · exact congrArg (V c (Pipeline.arrRef spec5 2)) (Shape.idx_ext₂ (row_off d0) (col_off d1))
  · exact congrArg (V c (Pipeline.arrRef spec5 3)) (Shape.idx_ext₂ (col_off e0) (col_off e1))
  · exact congrArg (V c (Pipeline.arrRef spec5 4)) (Shape.idx_ext₂ (col_off f0) (col_off f1))

theorem emb5 (t : Fin cfg5.N) (r : Fin 5000) (q : Fin 128) :
    ((cfg5.win 5).blk t).view.emb (ix2 r q) = (ix2 (blkRow (bOf t) r) q : S100000x128.Idx) := by
  obtain ⟨-, -, -, -, -, -, -, -, -, -, e0, e1, -⟩ := idx_facts t
  exact Shape.idx_ext₂ (row_off e0) (col_off e1)

theorem emb6 (t : Fin cfg5.N) (u w : Fin 1) (q : Fin 128) :
    ((cfg5.win 6).blk t).view.emb (ix3 u w q) = (ix3 (bOf t) (0 : Fin 1) q : S20x1x128.Idx) := by
  obtain ⟨-, -, -, -, -, -, -, -, -, -, -, -, e0, e1, e2, -⟩ := idx_facts t
  exact idx_ext₃ (unit_off u e0) (unit_off w e1) (col_off e2)

theorem emb7 (t : Fin cfg5.N) (u w : Fin 1) (q : Fin 128) :
    ((cfg5.win 7).blk t).view.emb (ix3 u w q) = (ix3 (bOf t) (0 : Fin 1) q : S20x1x128.Idx) := by
  obtain ⟨-, -, -, -, -, -, -, -, -, -, -, -, -, -, -, e0, e1, e2⟩ := idx_facts t
  exact idx_ext₃ (unit_off u e0) (unit_off w e1) (col_off e2)

theorem outs (x0 x1 : Vec Ideal S5000x128 .f32) (x2 : Vec Ideal S5000x1 .f32) (x3 : Vec Ideal S128x128 .f32)
    (x4 : Vec Ideal S1x128 .f32) :
    out5_5 x0 x1 x2 x3 x4 = k5_pay1 x0 x2 x1 x3 x4 ∧ out5_6 x0 x1 x2 x3 x4 = k5_pay2 x0 x2 x1 x3 x4
      ∧ out5_7 x0 x1 x2 x3 x4 = k5_pay3 x0 x2 x1 x3 x4 := by
  unfold out5_5 out5_6 out5_7
  rw [View.canon_unit_zero zeros2, View.canon_unit_zero zeros3, View.canon_unit_zero zeros3, View.ld_unit_zero zeros2 _ x0,
    View.ld_unit_zero zeros2 _ x1, View.ld_unit_zero zeros2 _ x2, View.ld_unit_zero zeros2 _ x3, View.ld_unit_zero zeros2 _ x4]
  exact ⟨rfl, rfl, rfl⟩

theorem out_c (c : Dev nD) (i : Fin NN) (j : Fin 128) :
    (dat5 (F := Ideal) V c).arrAt 5 cfg5.N (ix2 i j) = c0 V c i j := by
  obtain ⟨b, r, rfl⟩ := exists_blkRow i
  refine arrAt_of_emb (dat5 (F := Ideal) V c) 5 (fun k : S100000x128.Idx => c0 V c (k 0) (k 1)) (fun t _ => ?_)
    (b.cast N_5.symm) (flush5_5 _) _ (emb5 _ r j)
  show (cfg5.win 5).cut _ ((dat5 (F := Ideal) V c).after 5 t) = _
  rw [after5_5, (outs _ _ _ _ _).1]
  refine funext fun (y : S5000x128.Idx) => ?_
  obtain ⟨p, q, rfl⟩ : ∃ p q, y = ix2 p q := ⟨y 0, y 1, eq_ix2 y⟩
  rw [View.read_apply, emb5 t p q, cast_eq]
  exact block_row V c t p q

theorem out_sum (c : Dev nD) (b : Fin 20) (j : Fin 128) :
    (dat5 (F := Ideal) V c).arrAt 6 cfg5.N (ix3 b 0 j) = blkSum (c0 V c) b j := by
  refine arrAt_of_emb (dat5 (F := Ideal) V c) 6 (fun k : S20x1x128.Idx => blkSum (c0 V c) (k 0) (k 2)) (fun t _ => ?_)
    (b.cast N_5.symm) (flush5_6 _) _ (emb6 _ 0 0 j)
  show (cfg5.win 6).cut _ ((dat5 (F := Ideal) V c).after 6 t) = _
  rw [after5_6, (outs _ _ _ _ _).2.1]
  refine funext fun (y : S1x1x128.Idx) => ?_
  obtain ⟨u, w, q, rfl⟩ : ∃ u w q, y = ix3 u w q := ⟨y 0, y 1, y 2, eq_ix3 y⟩
  rw [View.read_apply, emb6 t u w q, cast_eq]
  unfold blkSum
  exact (colsum_apply _ _ _ _ _ u w q).trans (Finset.sum_congr rfl fun r _ => block_row V c t r q)

theorem out_sq (c : Dev nD) (b : Fin 20) (j : Fin 128) :
    (dat5 (F := Ideal) V c).arrAt 7 cfg5.N (ix3 b 0 j) = blkSq (c0 V c) b j := by
  refine arrAt_of_emb (dat5 (F := Ideal) V c) 7 (fun k : S20x1x128.Idx => blkSq (c0 V c) (k 0) (k 2)) (fun t _ => ?_)
    (b.cast N_5.symm) (flush5_7 _) _ (emb7 _ 0 0 j)
  show (cfg5.win 7).cut _ ((dat5 (F := Ideal) V c).after 7 t) = _
  rw [after5_7, (outs _ _ _ _ _).2.2]
  refine funext fun (y : S1x1x128.Idx) => ?_
  obtain ⟨u, w, q, rfl⟩ : ∃ u w q, y = ix3 u w q := ⟨y 0, y 1, y 2, eq_ix3 y⟩
  rw [View.read_apply, emb7 t u w q, cast_eq]
  unfold blkSq
  exact (colsum_apply _ _ _ _ _ u w q).trans (Finset.sum_congr rfl fun r _ =>
    congrArg₂ (· * ·) (block_row V c t r q) (block_row V c t r q))

end Cert.GCN.Reg5

end
-- ==== Proof.NormMul.lean ====
import Idealize.ShloMosaic.Lib.Pipeline.Value
import Idealize.ShloMosaic.Lib.ValueIdx
import Idealize.ShloMosaic.Lib.ValueLayout
import Idealize.ShloMosaic.PureOps.Ideal.Laws
import proofs.«430204_j43868795961418_3_alg».proof.Proof.Args

noncomputable section

open scoped BigOperators

namespace Cert.GCN.NormMul

open Idealize.ShloMosaic Idealize.ShloMosaic.ValueIdx

theorem hz : (![0, 0] : Fin 2 → Nat) = fun _ => 0 := funext fun a => by fin_cases a <;> rfl

-- A block at index zero on every axis sits in its array where its own coordinates say.
theorem emb_of_index_zero {sig : RefSig} {G : Pipeline.Grid} (w : Pipeline.Window sig G) (t : Fin G.N) (h : ∀ a, w.index t a = 0)
    (y : (w.xblock (G.coords t)).Idx) (z : w.shape.Idx) (hz : ∀ a, (z a).val = (y a).val) : (w.rect t).emb y = z :=
  funext fun a => Fin.ext ((w.rect_emb_val_of_index_zero t a (h a) y).trans (hz a).symm)

-- Rows times columns onto the zero block: the contraction index is its one coordinate.
theorem matmul_at {R K C : ℕ} {φ₁ φ₂ : FTy} (D : DotDims ⟨2, ![R, K]⟩ ⟨2, ![K, C]⟩ ⟨2, ![R, C]⟩) (hD : D = .plain R K C)
    (a : FVec Ideal ⟨2, ![R, K]⟩ φ₁) (w : FVec Ideal ⟨2, ![K, C]⟩ φ₂) (p : Fin R) (q : Fin C) :
    matmul D none a w (constant ⟨2, ![R, C]⟩ .f32 0x00000000#32) (ix2 p q) = ∑ k : Fin K, a (ix2 p k) * w (ix2 k q) := by
  subst hD
  simp only [matmul]
  rw [Ideal.matmul_constant_zero_apply, ← Equiv.sum_comp (contrEquiv1 (.plain R K C) K rfl rfl).symm]
  refine Finset.sum_congr rfl fun k _ => ?_
  have hk := contrEquiv1_symm_val (.plain R K C) K rfl rfl k
  rw [show (DotDims.plain R K C).lhsIdx (ix2 p q) ((contrEquiv1 (.plain R K C) K rfl rfl).symm k) = ix2 p k from
      Shape.idx_ext₂ rfl hk,
    show (DotDims.plain R K C).rhsIdx (ix2 p q) ((contrEquiv1 (.plain R K C) K rfl rfl).symm k) = ix2 k q from
      Shape.idx_ext₂ hk rfl]

-- Each layer reads entry by entry and a repeated row reads its one row, so the product's left factor at (p, k) is the clipped normalised entry.
theorem normMul_at {R K C C' : ℕ} {D : DotDims ⟨2, ![R, K]⟩ ⟨2, ![K, C]⟩ ⟨2, ![R, C]⟩} (hD : D = .plain R K C)
    {hb : (⟨2, ![1, K]⟩ : Shape).Broadcasts ⟨2, ![R, K]⟩} {h1 : (⟨2, ![1, K]⟩ : Shape).ShapeCasts ⟨2, ![1, K]⟩}
    {hR : (⟨2, ![R, K]⟩ : Shape).ShapeCasts ⟨2, ![R, K]⟩} {hK : (⟨2, ![K, C]⟩ : Shape).ShapeCasts ⟨2, ![K, C]⟩}
    {hlt : FTy.bits .bf16 < FTy.bits .f32}
    {va ga : FVec Ideal ⟨2, ![1, K]⟩ .f32} {cc : FVec Ideal ⟨2, ![R, K]⟩ .f32} {mu be : FVec Ideal ⟨2, ![1, K]⟩ .f32}
    {W : FVec Ideal ⟨2, ![K, C]⟩ .f32} {a : Fin NN → Fin K → EReal} {m v g b : Fin K → EReal} {W' : Fin K → Fin C' → EReal}
    {p : Fin R} {q : Fin C} {r : Fin NN} {q' : Fin C'}
    (hcc : ∀ k, cc (ix2 p k) = a r k) (hmu : ∀ k, mu (ix2 0 k) = m k) (hva : ∀ k, va (ix2 0 k) = v k)
    (hga : ∀ k, ga (ix2 0 k) = g k) (hbe : ∀ k, be (ix2 0 k) = b k) (hW : ∀ k, W (ix2 k q) = W' k q') :
    matmul D none
        (truncf .bf16 (maximumf (addf (mulf (mulf (broadcastTo _ (shapeCast _ ga h1) hb)
            (subf (shapeCast _ cc hR) (broadcastTo _ (shapeCast _ mu h1) hb)))
          (broadcastTo _ (rsqrt (addf (shapeCast _ va h1) (broadcast _ (Scalar.ofBits .f32 0x3727C5AC#32)))) hb))
          (broadcastTo _ (shapeCast _ be h1) hb)) (broadcast _ (Scalar.ofBits .f32 0x00000000#32))) hlt)
        (truncf .bf16 (shapeCast _ W hK) hlt) (constant _ .f32 0x00000000#32) (ix2 p q)
      = mm (bnRelu epsLit a m v g b) W' r q' := by
  rw [matmul_at D hD]
  unfold mm bnRelu
  refine Finset.sum_congr rfl fun k _ => ?_
  simp only [truncf_apply, maximumf_apply, addf_apply, mulf_apply, subf_apply, broadcast_apply, shapeCast_self,
    broadcastTo_1b_ab_apply, show ∀ (x : FVec Ideal ⟨2, ![1, K]⟩ .f32) i, rsqrt x i = Ideal.rsqrt (x i) from fun _ _ => rfl]
  rw [show FloatOps.ofBits (F := Ideal) .f32 0x00000000#32 = (0 : EReal) from Ideal.ofBits_zero_f32,
    hcc, hmu, hva, hga, hbe, hW]
  rfl

end Cert.GCN.NormMul

end
-- ==== Proof.Region6.lean ====
import proofs.«430204_j43868795961418_3_alg».proof.Proof.Gen.KernelIdeal.Frame
import proofs.«430204_j43868795961418_3_alg».proof.Proof.NormMul

noncomputable section

namespace Cert.GCN.Reg6

open Cert.KernelIdeal Cert.KernelIdeal.Gen Idealize.ShloMosaic Idealize.ShloMosaic.TcCoe Idealize.ShloMosaic.ValueIdx Cert.GCN.NormMul

variable (V : (c : Dev nD) → (b : Ref sig .tc) → Buf (Elt Ideal) ((c : Thread nD τ).loc b))

def res (c : Dev nD) : S100000x128.Idx → EReal := fun y =>
  mm (bnRelu epsLit (cur2 (V c (Pipeline.arrRef spec6 0)))
      (fun k => V c (Pipeline.arrRef spec6 1) (ix2 0 k)) (fun k => V c (Pipeline.arrRef spec6 2) (ix2 0 k))
      (fun k => V c (Pipeline.arrRef spec6 3) (ix2 0 k)) (fun k => V c (Pipeline.arrRef spec6 4) (ix2 0 k)))
    (cur2 (V c (Pipeline.arrRef spec6 5))) (y 0) (y 1)

theorem idx_facts : ∀ t : Fin cfg6.N,
    (win6_0.index t (0 : Fin 2) = t.val ∧ win6_0.index t (1 : Fin 2) = 0)
    ∧ (∀ a, win6_1.index t a = 0) ∧ (∀ a, win6_2.index t a = 0) ∧ (∀ a, win6_3.index t a = 0)
    ∧ (∀ a, win6_4.index t a = 0) ∧ (∀ a, win6_5.index t a = 0)
    ∧ win6_6.index t (0 : Fin 2) = t.val ∧ win6_6.index t (1 : Fin 2) = 0 :=
  (by decide +kernel : ∀ t : Fin grid6.N, _)

theorem blk0 (c : Dev nD) (t : Fin cfg6.N) (p : Fin 5000) (k : Fin 128) (r : Fin 100000) (hr : r.val = t.val * 5000 + p.val) :
    (iblk6 V c 0 t : Vec Ideal S5000x128 .f32) (ix2 p k) = V c (Pipeline.arrRef spec6 0) (ix2 r k) :=
  congrArg (V c _) (Shape.idx_ext₂ (by show win6_0.index t (0 : Fin 2) * 5000 + 1 * p.val = r.val; rw [(idx_facts t).1.1, hr]; omega)
    (by show win6_0.index t (1 : Fin 2) * 128 + 1 * k.val = k.val; rw [(idx_facts t).1.2]; omega))

theorem blk1 (c : Dev nD) (t : Fin cfg6.N) (k : Fin 128) :
    (iblk6 V c 1 t : Vec Ideal S1x128 .f32) (ix2 0 k) = V c (Pipeline.arrRef spec6 1) (ix2 0 k) :=
  congrArg (V c _) (emb_of_index_zero win6_1 t (idx_facts t).2.1 _ _ fun _ => rfl)

theorem blk2 (c : Dev nD) (t : Fin cfg6.N) (k : Fin 128) :
    (iblk6 V c 2 t : Vec Ideal S1x128 .f32) (ix2 0 k) = V c (Pipeline.arrRef spec6 2) (ix2 0 k) :=
  congrArg (V c _) (emb_of_index_zero win6_2 t (idx_facts t).2.2.1 _ _ fun _ => rfl)

theorem blk3 (c : Dev nD) (t : Fin cfg6.N) (k : Fin 128) :
    (iblk6 V c 3 t : Vec Ideal S1x128 .f32) (ix2 0 k) = V c (Pipeline.arrRef spec6 3) (ix2 0 k) :=
  congrArg (V c _) (emb_of_index_zero win6_3 t (idx_facts t).2.2.2.1 _ _ fun _ => rfl)

theorem blk4 (c : Dev nD) (t : Fin cfg6.N) (k : Fin 128) :
    (iblk6 V c 4 t : Vec Ideal S1x128 .f32) (ix2 0 k) = V c (Pipeline.arrRef spec6 4) (ix2 0 k) :=
  congrArg (V c _) (emb_of_index_zero win6_4 t (idx_facts t).2.2.2.2.1 _ _ fun _ => rfl)

theorem blk5 (c : Dev nD) (t : Fin cfg6.N) (k : Fin 128) (q : Fin 128) :
    (iblk6 V c 5 t : Vec Ideal S128x128 .f32) (ix2 k q) = V c (Pipeline.arrRef spec6 5) (ix2 k q) :=
  congrArg (V c _) (emb_of_index_zero win6_5 t (idx_facts t).2.2.2.2.2.1 _ _ fun _ => rfl)

-- Row p of point t's blocks is row 5000·t + p of the arrays and the rows and the matrix are whole, so the stored block is the block of the result.
theorem flushed_eq (c : Dev nD) (t : Fin cfg6.N) :
    (dat6 (F := Ideal) V c).flushed 6 t = ((cfg6.win 6).blk t).view.read (Elt Ideal) (res V c) := by
  show (cfg6.win 6).cut (grid6.coords t) ((dat6 (F := Ideal) V c).after 6 t) = _
  rw [after6_6]
  unfold out6_6
  rw [View.canon_unit_zero hz]
  simp only [View.ld_unit_zero (S := S5000x128) hz, View.ld_unit_zero (S := S1x128) hz, View.ld_unit_zero (S := S128x128) hz]
  obtain ⟨-, -, -, -, -, -, e60, e61⟩ := idx_facts t
  funext y
  obtain ⟨p, q, rfl⟩ : ∃ p q, y = ix2 p q := ⟨y 0, y 1, eq_ix2 y⟩
  have he : ((cfg6.win 6).blk t).view.emb (ix2 p q) = ix2 (((cfg6.win 6).blk t).view.emb (ix2 p q) 0) q := Shape.idx_ext₂ rfl
    (by show win6_6.index t (1 : Fin 2) * 128 + 1 * q.val = q.val; rw [e61]; omega)
  show _ = res V c _
  rw [he]
  unfold k6_pay1
  exact normMul_at rfl (fun k => blk0 V c t p k _ (by show win6_6.index t (0 : Fin 2) * 5000 + 1 * p.val = _; rw [e60]; omega))
    (blk1 V c t) (blk2 V c t) (blk3 V c t) (blk4 V c t) (fun k => blk5 V c t k q)

-- Row r of the result lies in the block of point r / 5000, at row r % 5000.
theorem cover (i : S100000x128.Idx) :
    ∃ t : Fin cfg6.N, (cfg6.win 6).flush t = true ∧ i ∈ ((cfg6.win 6).blk t).view.set := by
  have h0 : (i 0).val < 100000 := (i 0).isLt
  obtain ⟨t, ht⟩ : ∃ t : Fin cfg6.N, t.val = (i 0).val / 5000 :=
    ⟨⟨(i 0).val / 5000, by rw [show cfg6.N = 20 from N_6]; omega⟩, rfl⟩
  obtain ⟨-, -, -, -, -, -, e60, e61⟩ := idx_facts t
  have h : ((cfg6.win 6).blk t).view.emb (ix2 ⟨(i 0).val % 5000, Nat.mod_lt _ (by decide)⟩ (i 1)) = i := Shape.idx_ext₂
    (by show win6_6.index t (0 : Fin 2) * 5000 + 1 * ((i 0).val % 5000) = (i 0).val; rw [e60, ht]; omega)
    (by show win6_6.index t (1 : Fin 2) * 128 + 1 * (i 1).val = (i 1).val; rw [e61]; omega)
  exact ⟨t, flush6_6 t, h ▸ View.emb_mem_set _ _⟩

theorem out_h (c : Dev nD) (i : Fin NN) (j : Fin 128) :
    (dat6 (F := Ideal) V c).arrAt 6 cfg6.N (ix2 i j)
      = mm (bnRelu epsLit (cur2 (V c (Pipeline.arrRef spec6 0)))
          (fun k => V c (Pipeline.arrRef spec6 1) (ix2 0 k)) (fun k => V c (Pipeline.arrRef spec6 2) (ix2 0 k))
          (fun k => V c (Pipeline.arrRef spec6 3) (ix2 0 k)) (fun k => V c (Pipeline.arrRef spec6 4) (ix2 0 k)))
        (cur2 (V c (Pipeline.arrRef spec6 5))) i j :=
  congrFun ((dat6 (F := Ideal) V c).arrAt_eq_of_cover 6 (res V c) (fun t _ => flushed_eq V c t) cover) (ix2 i j)

end Cert.GCN.Reg6

end
-- ==== Proof.Region7.lean ====
import proofs.«430204_j43868795961418_3_alg».proof.Proof.Gen.KernelIdeal.Frame
import proofs.«430204_j43868795961418_3_alg».proof.Proof.Blocks

noncomputable section

namespace Cert.GCN.Reg7

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

def c2 (c : Dev nD) : Fin NN → Fin 128 → EReal :=
  comb (fun i => V c (Pipeline.arrRef spec7 2) (ix2 i 0)) (cur2 (V c (Pipeline.arrRef spec7 0)))
    (cur2 (V c (Pipeline.arrRef spec7 1))) (fun j => V c (Pipeline.arrRef spec7 3) (ix2 0 j))

theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 3) = t.val ∧ win7_5.index t (1 : Fin 3) = 0 ∧ win7_5.index t (2 : Fin 3) = 0
    ∧ win7_6.index t (0 : Fin 3) = t.val ∧ win7_6.index t (1 : Fin 3) = 0 ∧ win7_6.index t (2 : Fin 3) = 0 :=
  (by decide +kernel : ∀ t : Fin grid7.N, _)

def bOf (t : Fin cfg7.N) : Fin 20 := t.cast N_7

-- Row r of each block at point t is node 5000·t + r of its array, so the stored row is the combine there.
theorem block_row (c : Dev nD) (t : Fin cfg7.N) (r : Fin 5000) (q : Fin 128) :
    k7_pay1 (F := Ideal) (iblk7 V c 0 t) (iblk7 V c 2 t) (iblk7 V c 1 t) (iblk7 V c 3 t) (ix2 r q)
      = c2 V c (blkRow (bOf t) r) q := by
  obtain ⟨a0, a1, b0, b1, d0, d1, e0, e1, -⟩ := idx_facts t
  unfold k7_pay1
  simp only [shapeCast_self]
  refine combine_of_rows _ _ _ _ _ _ _ _ _ _ (bOf t) (fun _ _ => ?_) (fun _ _ => ?_) (fun _ => ?_) (fun _ => ?_) r q
  · exact congrArg (V c (Pipeline.arrRef spec7 0)) (Shape.idx_ext₂ (row_off a0) (col_off a1))
  · exact congrArg (V c (Pipeline.arrRef spec7 1)) (Shape.idx_ext₂ (row_off b0) (col_off b1))
  · exact congrArg (V c (Pipeline.arrRef spec7 2)) (Shape.idx_ext₂ (row_off d0) (col_off d1))
  · exact congrArg (V c (Pipeline.arrRef spec7 3)) (Shape.idx_ext₂ (col_off e0) (col_off e1))

theorem emb4 (t : Fin cfg7.N) (r : Fin 5000) (q : Fin 128) :
    ((cfg7.win 4).blk t).view.emb (ix2 r q) = (ix2 (blkRow (bOf t) r) q : S100000x128.Idx) :=
  Shape.idx_ext₂ (row_off (idx_facts t).2.2.2.2.2.2.2.2.1) (col_off (idx_facts t).2.2.2.2.2.2.2.2.2.1)

theorem emb5 (t : Fin cfg7.N) (u w : Fin 1) (q : Fin 128) :
    ((cfg7.win 5).blk t).view.emb (ix3 u w q) = (ix3 (bOf t) (0 : Fin 1) q : S20x1x128.Idx) := by
  obtain ⟨-, -, -, -, -, -, -, -, -, -, e0, e1, e2, -⟩ := idx_facts t
  exact idx_ext₃ (unit_off u e0) (unit_off w e1) (col_off e2)

theorem emb6 (t : Fin cfg7.N) (u w : Fin 1) (q : Fin 128) :
    ((cfg7.win 6).blk t).view.emb (ix3 u w q) = (ix3 (bOf t) (0 : Fin 1) q : S20x1x128.Idx) := by
  obtain ⟨-, -, -, -, -, -, -, -, -, -, -, -, -, e0, e1, e2⟩ := idx_facts t
  exact idx_ext₃ (unit_off u e0) (unit_off w e1) (col_off e2)

theorem outs (x0 x1 : Vec Ideal S5000x128 .f32) (x2 : Vec Ideal S5000x1 .f32) (x3 : Vec Ideal S1x128 .f32) :
    out7_4 x0 x1 x2 x3 = k7_pay1 x0 x2 x1 x3 ∧ out7_5 x0 x1 x2 x3 = k7_pay2 x0 x2 x1 x3
      ∧ out7_6 x0 x1 x2 x3 = k7_pay3 x0 x2 x1 x3 := by
  unfold out7_4 out7_5 out7_6
  rw [View.canon_unit_zero zeros2, View.canon_unit_zero zeros3, View.canon_unit_zero zeros3, View.ld_unit_zero zeros2 _ x0,
    View.ld_unit_zero zeros2 _ x1, View.ld_unit_zero zeros2 _ x2, View.ld_unit_zero zeros2 _ x3]
  exact ⟨rfl, rfl, rfl⟩

theorem out_c (c : Dev nD) (i : Fin NN) (j : Fin 128) :
    (dat7 (F := Ideal) V c).arrAt 4 cfg7.N (ix2 i j) = c2 V c i j := by
  obtain ⟨b, r, rfl⟩ := exists_blkRow i
  refine arrAt_of_emb (dat7 (F := Ideal) V c) 4 (fun k : S100000x128.Idx => c2 V c (k 0) (k 1)) (fun t _ => ?_)
    (b.cast N_7.symm) (flush7_4 _) _ (emb4 _ r j)
  show (cfg7.win 4).cut _ ((dat7 (F := Ideal) V c).after 4 t) = _
  rw [after7_4, (outs _ _ _ _).1]
  refine funext fun (y : S5000x128.Idx) => ?_
  obtain ⟨p, q, rfl⟩ : ∃ p q, y = ix2 p q := ⟨y 0, y 1, eq_ix2 y⟩
  rw [View.read_apply, emb4 t p q, cast_eq]
  exact block_row V c t p q

theorem out_sum (c : Dev nD) (b : Fin 20) (j : Fin 128) :
    (dat7 (F := Ideal) V c).arrAt 5 cfg7.N (ix3 b 0 j) = blkSum (c2 V c) b j := by
  refine arrAt_of_emb (dat7 (F := Ideal) V c) 5 (fun k : S20x1x128.Idx => blkSum (c2 V c) (k 0) (k 2)) (fun t _ => ?_)
    (b.cast N_7.symm) (flush7_5 _) _ (emb5 _ 0 0 j)
  show (cfg7.win 5).cut _ ((dat7 (F := Ideal) V c).after 5 t) = _
  rw [after7_5, (outs _ _ _ _).2.1]
  refine funext fun (y : S1x1x128.Idx) => ?_
  obtain ⟨u, w, q, rfl⟩ : ∃ u w q, y = ix3 u w q := ⟨y 0, y 1, y 2, eq_ix3 y⟩
  rw [View.read_apply, emb5 t u w q, cast_eq]
  unfold blkSum
  exact (colsum_apply _ _ _ _ _ u w q).trans (Finset.sum_congr rfl fun r _ => block_row V c t r q)

theorem out_sq (c : Dev nD) (b : Fin 20) (j : Fin 128) :
    (dat7 (F := Ideal) V c).arrAt 6 cfg7.N (ix3 b 0 j) = blkSq (c2 V c) b j := by
  refine arrAt_of_emb (dat7 (F := Ideal) V c) 6 (fun k : S20x1x128.Idx => blkSq (c2 V c) (k 0) (k 2)) (fun t _ => ?_)
    (b.cast N_7.symm) (flush7_6 _) _ (emb6 _ 0 0 j)
  show (cfg7.win 6).cut _ ((dat7 (F := Ideal) V c).after 6 t) = _
  rw [after7_6, (outs _ _ _ _).2.2]
  refine funext fun (y : S1x1x128.Idx) => ?_
  obtain ⟨u, w, q, rfl⟩ : ∃ u w q, y = ix3 u w q := ⟨y 0, y 1, y 2, eq_ix3 y⟩
  rw [View.read_apply, emb6 t u w q, cast_eq]
  unfold blkSq
  exact (colsum_apply _ _ _ _ _ u w q).trans (Finset.sum_congr rfl fun r _ =>
    congrArg₂ (· * ·) (block_row V c t r q) (block_row V c t r q))

end Cert.GCN.Reg7

end
-- ==== Proof.Region9.lean ====
import proofs.«430204_j43868795961418_3_alg».proof.Proof.Gen.KernelIdeal.Frame
import proofs.«430204_j43868795961418_3_alg».proof.Proof.Blocks

noncomputable section

namespace Cert.GCN.Reg9

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

def c4 (c : Dev nD) : Fin NN → Fin 40 → EReal :=
  comb (fun i => V c (Pipeline.arrRef spec9 2) (ix2 i 0)) (cur2 (V c (Pipeline.arrRef spec9 0)))
    (cur2 (V c (Pipeline.arrRef spec9 1))) (fun j => V c (Pipeline.arrRef spec9 3) (ix2 0 j))

theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

def bOf (t : Fin cfg9.N) : Fin 20 := t.cast N_9

-- Row r of each block at point t is node 5000·t + r of its array, so the stored row is the combine there.
theorem block_row (c : Dev nD) (t : Fin cfg9.N) (r : Fin 5000) (q : Fin 40) :
    k9_pay1 (F := Ideal) (iblk9 V c 0 t) (iblk9 V c 2 t) (iblk9 V c 1 t) (iblk9 V c 3 t) (ix2 r q)
      = c4 V c (blkRow (bOf t) r) q := by
  obtain ⟨a0, a1, b0, b1, d0, d1, e0, e1, -⟩ := idx_facts t
  unfold k9_pay1
  simp only [shapeCast_self]
  refine combine_of_rows _ _ _ _ _ _ _ _ _ _ (bOf t) (fun _ _ => ?_) (fun _ _ => ?_) (fun _ => ?_) (fun _ => ?_) r q
  · exact congrArg (V c (Pipeline.arrRef spec9 0)) (Shape.idx_ext₂ (row_off a0) (col_off a1))
  · exact congrArg (V c (Pipeline.arrRef spec9 1)) (Shape.idx_ext₂ (row_off b0) (col_off b1))
  · exact congrArg (V c (Pipeline.arrRef spec9 2)) (Shape.idx_ext₂ (row_off d0) (col_off d1))
  · exact congrArg (V c (Pipeline.arrRef spec9 3)) (Shape.idx_ext₂ (col_off e0) (col_off e1))

theorem emb4 (t : Fin cfg9.N) (r : Fin 5000) (q : Fin 40) :
    ((cfg9.win 4).blk t).view.emb (ix2 r q) = (ix2 (blkRow (bOf t) r) q : S100000x40.Idx) :=
  Shape.idx_ext₂ (row_off (idx_facts t).2.2.2.2.2.2.2.2.1) (col_off (idx_facts t).2.2.2.2.2.2.2.2.2)

theorem out_c (c : Dev nD) (i : Fin NN) (j : Fin 40) :
    (dat9 (F := Ideal) V c).arrAt 4 cfg9.N (ix2 i j)
      = comb (fun i => V c (Pipeline.arrRef spec9 2) (ix2 i 0)) (cur2 (V c (Pipeline.arrRef spec9 0)))
          (cur2 (V c (Pipeline.arrRef spec9 1))) (fun j => V c (Pipeline.arrRef spec9 3) (ix2 0 j)) i j := by
  obtain ⟨b, r, rfl⟩ := exists_blkRow i
  refine arrAt_of_emb (dat9 (F := Ideal) V c) 4 (fun k : S100000x40.Idx => c4 V c (k 0) (k 1)) (fun t _ => ?_)
    (b.cast N_9.symm) (flush9_4 _) _ (emb4 _ r j)
  show (cfg9.win 4).cut _ ((dat9 (F := Ideal) V c).after 4 t) = _
  rw [after9_4]
  unfold out9_4
  rw [View.canon_unit_zero zeros2]
  simp only [View.ld_unit_zero (S := S5000x40) zeros2, View.ld_unit_zero (S := S5000x1) zeros2,
    View.ld_unit_zero (S := S1x40) zeros2]
  refine funext fun (y : S5000x40.Idx) => ?_
  obtain ⟨p, q, rfl⟩ : ∃ p q, y = ix2 p q := ⟨y 0, y 1, eq_ix2 y⟩
  rw [View.read_apply, emb4 t p q, cast_eq]
  exact block_row V c t p q

end Cert.GCN.Reg9

end
-- ==== Proof.Region8.lean ====
import proofs.«430204_j43868795961418_3_alg».proof.Proof.Gen.KernelIdeal.Frame
import proofs.«430204_j43868795961418_3_alg».proof.Proof.NormMul

noncomputable section

namespace Cert.GCN.Reg8

open Cert.KernelIdeal Cert.KernelIdeal.Gen Idealize.ShloMosaic Idealize.ShloMosaic.TcCoe Idealize.ShloMosaic.ValueIdx Cert.GCN.NormMul

variable (V : (c : Dev nD) → (b : Ref sig .tc) → Buf (Elt Ideal) ((c : Thread nD τ).loc b))

def res (c : Dev nD) : S100000x40.Idx → EReal := fun y =>
  mm (bnRelu epsLit (cur2 (V c (Pipeline.arrRef spec8 0)))
      (fun k => V c (Pipeline.arrRef spec8 1) (ix2 0 k)) (fun k => V c (Pipeline.arrRef spec8 2) (ix2 0 k))
      (fun k => V c (Pipeline.arrRef spec8 3) (ix2 0 k)) (fun k => V c (Pipeline.arrRef spec8 4) (ix2 0 k)))
    (cur2 (V c (Pipeline.arrRef spec8 5))) (y 0) (y 1)

theorem idx_facts : ∀ t : Fin cfg8.N,
    (win8_0.index t (0 : Fin 2) = t.val ∧ win8_0.index t (1 : Fin 2) = 0)
    ∧ (∀ a, win8_1.index t a = 0) ∧ (∀ a, win8_2.index t a = 0) ∧ (∀ a, win8_3.index t a = 0)
    ∧ (∀ a, win8_4.index t a = 0) ∧ (∀ a, win8_5.index t a = 0)
    ∧ win8_6.index t (0 : Fin 2) = t.val ∧ win8_6.index t (1 : Fin 2) = 0 :=
  (by decide +kernel : ∀ t : Fin grid8.N, _)

theorem blk0 (c : Dev nD) (t : Fin cfg8.N) (p : Fin 5000) (k : Fin 128) (r : Fin 100000) (hr : r.val = t.val * 5000 + p.val) :
    (iblk8 V c 0 t : Vec Ideal S5000x128 .f32) (ix2 p k) = V c (Pipeline.arrRef spec8 0) (ix2 r k) :=
  congrArg (V c _) (Shape.idx_ext₂ (by show win8_0.index t (0 : Fin 2) * 5000 + 1 * p.val = r.val; rw [(idx_facts t).1.1, hr]; omega)
    (by show win8_0.index t (1 : Fin 2) * 128 + 1 * k.val = k.val; rw [(idx_facts t).1.2]; omega))

theorem blk1 (c : Dev nD) (t : Fin cfg8.N) (k : Fin 128) :
    (iblk8 V c 1 t : Vec Ideal S1x128 .f32) (ix2 0 k) = V c (Pipeline.arrRef spec8 1) (ix2 0 k) :=
  congrArg (V c _) (emb_of_index_zero win8_1 t (idx_facts t).2.1 _ _ fun _ => rfl)

theorem blk2 (c : Dev nD) (t : Fin cfg8.N) (k : Fin 128) :
    (iblk8 V c 2 t : Vec Ideal S1x128 .f32) (ix2 0 k) = V c (Pipeline.arrRef spec8 2) (ix2 0 k) :=
  congrArg (V c _) (emb_of_index_zero win8_2 t (idx_facts t).2.2.1 _ _ fun _ => rfl)

theorem blk3 (c : Dev nD) (t : Fin cfg8.N) (k : Fin 128) :
    (iblk8 V c 3 t : Vec Ideal S1x128 .f32) (ix2 0 k) = V c (Pipeline.arrRef spec8 3) (ix2 0 k) :=
  congrArg (V c _) (emb_of_index_zero win8_3 t (idx_facts t).2.2.2.1 _ _ fun _ => rfl)

theorem blk4 (c : Dev nD) (t : Fin cfg8.N) (k : Fin 128) :
    (iblk8 V c 4 t : Vec Ideal S1x128 .f32) (ix2 0 k) = V c (Pipeline.arrRef spec8 4) (ix2 0 k) :=
  congrArg (V c _) (emb_of_index_zero win8_4 t (idx_facts t).2.2.2.2.1 _ _ fun _ => rfl)

theorem blk5 (c : Dev nD) (t : Fin cfg8.N) (k : Fin 128) (q : Fin 40) :
    (iblk8 V c 5 t : Vec Ideal S128x40 .f32) (ix2 k q) = V c (Pipeline.arrRef spec8 5) (ix2 k q) :=
  congrArg (V c _) (emb_of_index_zero win8_5 t (idx_facts t).2.2.2.2.2.1 _ _ fun _ => rfl)

-- Row p of point t's blocks is row 5000·t + p of the arrays and the rows and the matrix are whole, so the stored block is the block of the result.
theorem flushed_eq (c : Dev nD) (t : Fin cfg8.N) :
    (dat8 (F := Ideal) V c).flushed 6 t = ((cfg8.win 6).blk t).view.read (Elt Ideal) (res V c) := by
  show (cfg8.win 6).cut (grid8.coords t) ((dat8 (F := Ideal) V c).after 6 t) = _
  rw [after8_6]
  unfold out8_6
  rw [View.canon_unit_zero hz]
  simp only [View.ld_unit_zero (S := S5000x128) hz, View.ld_unit_zero (S := S1x128) hz, View.ld_unit_zero (S := S128x40) hz]
  obtain ⟨-, -, -, -, -, -, e60, e61⟩ := idx_facts t
  funext y
  obtain ⟨p, q, rfl⟩ : ∃ p q, y = ix2 p q := ⟨y 0, y 1, eq_ix2 y⟩
  have he : ((cfg8.win 6).blk t).view.emb (ix2 p q) = ix2 (((cfg8.win 6).blk t).view.emb (ix2 p q) 0) q := Shape.idx_ext₂ rfl
    (by show win8_6.index t (1 : Fin 2) * 40 + 1 * q.val = q.val; rw [e61]; omega)
  show _ = res V c _
  rw [he]
  unfold k8_pay1
  exact normMul_at rfl (fun k => blk0 V c t p k _ (by show win8_6.index t (0 : Fin 2) * 5000 + 1 * p.val = _; rw [e60]; omega))
    (blk1 V c t) (blk2 V c t) (blk3 V c t) (blk4 V c t) (fun k => blk5 V c t k q)

-- Row r of the result lies in the block of point r / 5000, at row r % 5000.
theorem cover (i : S100000x40.Idx) :
    ∃ t : Fin cfg8.N, (cfg8.win 6).flush t = true ∧ i ∈ ((cfg8.win 6).blk t).view.set := by
  have h0 : (i 0).val < 100000 := (i 0).isLt
  obtain ⟨t, ht⟩ : ∃ t : Fin cfg8.N, t.val = (i 0).val / 5000 :=
    ⟨⟨(i 0).val / 5000, by rw [show cfg8.N = 20 from N_8]; omega⟩, rfl⟩
  obtain ⟨-, -, -, -, -, -, e60, e61⟩ := idx_facts t
  have h : ((cfg8.win 6).blk t).view.emb (ix2 ⟨(i 0).val % 5000, Nat.mod_lt _ (by decide)⟩ (i 1)) = i := Shape.idx_ext₂
    (by show win8_6.index t (0 : Fin 2) * 5000 + 1 * ((i 0).val % 5000) = (i 0).val; rw [e60, ht]; omega)
    (by show win8_6.index t (1 : Fin 2) * 40 + 1 * (i 1).val = (i 1).val; rw [e61]; omega)
  exact ⟨t, flush8_6 t, h ▸ View.emb_mem_set _ _⟩

theorem out_h (c : Dev nD) (i : Fin NN) (j : Fin 40) :
    (dat8 (F := Ideal) V c).arrAt 6 cfg8.N (ix2 i j)
      = mm (bnRelu epsLit (cur2 (V c (Pipeline.arrRef spec8 0)))
          (fun k => V c (Pipeline.arrRef spec8 1) (ix2 0 k)) (fun k => V c (Pipeline.arrRef spec8 2) (ix2 0 k))
          (fun k => V c (Pipeline.arrRef spec8 3) (ix2 0 k)) (fun k => V c (Pipeline.arrRef spec8 4) (ix2 0 k)))
        (cur2 (V c (Pipeline.arrRef spec8 5))) i j :=
  congrFun ((dat8 (F := Ideal) V c).arrAt_eq_of_cover 6 (res V c) (fun t _ => flushed_eq V c t) cover) (ix2 i j)

end Cert.GCN.Reg8

end
-- ==== Proof.Region0.lean ====
import proofs.«430204_j43868795961418_3_alg».proof.Proof.Gen.KernelIdeal.Frame
import proofs.«430204_j43868795961418_3_alg».proof.Proof.Blocks

noncomputable section

namespace Cert.GCN.Reg0

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

def c0 (c : Dev nD) : Fin NN → Fin 128 → EReal :=
  fused (fun i => V c (Pipeline.arrRef spec0 2) (ix2 i 0)) (cur2 (V c (Pipeline.arrRef spec0 0)))
    (cur2 (V c (Pipeline.arrRef spec0 1))) (cur2 (V c (Pipeline.arrRef spec0 3)))
    (fun j => V c (Pipeline.arrRef spec0 4) (ix2 0 j))

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

def bOf (t : Fin cfg0.N) : Fin 20 := t.cast N_0

-- Row r of each row-blocked input at point t is node 5000·t + r of its array; the matrix and the bias are whole.
theorem block_row (c : Dev nD) (t : Fin cfg0.N) (r : Fin 5000) (q : Fin 128) :
    k0_pay1 (F := Ideal) (iblk0 V c 0 t) (iblk0 V c 2 t) (iblk0 V c 1 t) (iblk0 V c 3 t) (iblk0 V c 4 t) (ix2 r q)
      = c0 V c (blkRow (bOf t) r) q := by
  obtain ⟨a0, a1, b0, b1, d0, d1, e0, e1, f0, f1, -⟩ := idx_facts t
  unfold k0_pay1
  simp only [shapeCast_self]
  refine fused_of_rows _ rfl rfl rfl rfl rfl rfl rfl rfl _ _ _ _ _ _ _ _ _ _ _ _ _ (bOf t)
    (fun _ _ => ?_) (fun _ _ => ?_) (fun _ => ?_) (fun _ _ => ?_) (fun _ => ?_) r q
  · exact congrArg (V c (Pipeline.arrRef spec0 0)) (Shape.idx_ext₂ (row_off a0) (col_off a1))
  · exact congrArg (V c (Pipeline.arrRef spec0 1)) (Shape.idx_ext₂ (row_off b0) (col_off b1))
  · exact congrArg (V c (Pipeline.arrRef spec0 2)) (Shape.idx_ext₂ (row_off d0) (col_off d1))
  · exact congrArg (V c (Pipeline.arrRef spec0 3)) (Shape.idx_ext₂ (col_off e0) (col_off e1))
  · exact congrArg (V c (Pipeline.arrRef spec0 4)) (Shape.idx_ext₂ (col_off f0) (col_off f1))

theorem emb5 (t : Fin cfg0.N) (r : Fin 5000) (q : Fin 128) :
    ((cfg0.win 5).blk t).view.emb (ix2 r q) = (ix2 (blkRow (bOf t) r) q : S100000x128.Idx) := by
  obtain ⟨-, -, -, -, -, -, -, -, -, -, e0, e1, -⟩ := idx_facts t
  exact Shape.idx_ext₂ (row_off e0) (col_off e1)

theorem emb6 (t : Fin cfg0.N) (u w : Fin 1) (q : Fin 128) :
    ((cfg0.win 6).blk t).view.emb (ix3 u w q) = (ix3 (bOf t) (0 : Fin 1) q : S20x1x128.Idx) := by
  obtain ⟨-, -, -, -, -, -, -, -, -, -, -, -, e0, e1, e2, -⟩ := idx_facts t
  exact idx_ext₃ (unit_off u e0) (unit_off w e1) (col_off e2)

theorem emb7 (t : Fin cfg0.N) (u w : Fin 1) (q : Fin 128) :
    ((cfg0.win 7).blk t).view.emb (ix3 u w q) = (ix3 (bOf t) (0 : Fin 1) q : S20x1x128.Idx) := by
  obtain ⟨-, -, -, -, -, -, -, -, -, -, -, -, -, -, -, e0, e1, e2⟩ := idx_facts t
  exact idx_ext₃ (unit_off u e0) (unit_off w e1) (col_off e2)

theorem outs (x0 x1 : Vec Ideal S5000x128 .f32) (x2 : Vec Ideal S5000x1 .f32) (x3 : Vec Ideal S128x128 .f32)
    (x4 : Vec Ideal S1x128 .f32) :
    out0_5 x0 x1 x2 x3 x4 = k0_pay1 x0 x2 x1 x3 x4 ∧ out0_6 x0 x1 x2 x3 x4 = k0_pay2 x0 x2 x1 x3 x4
      ∧ out0_7 x0 x1 x2 x3 x4 = k0_pay3 x0 x2 x1 x3 x4 := by
  unfold out0_5 out0_6 out0_7
  rw [View.canon_unit_zero zeros2, View.canon_unit_zero zeros3, View.canon_unit_zero zeros3, View.ld_unit_zero zeros2 _ x0,
    View.ld_unit_zero zeros2 _ x1, View.ld_unit_zero zeros2 _ x2, View.ld_unit_zero zeros2 _ x3, View.ld_unit_zero zeros2 _ x4]
  exact ⟨rfl, rfl, rfl⟩

theorem out_c (c : Dev nD) (i : Fin NN) (j : Fin 128) :
    (dat0 (F := Ideal) V c).arrAt 5 cfg0.N (ix2 i j) = c0 V c i j := by
  obtain ⟨b, r, rfl⟩ := exists_blkRow i
  refine arrAt_of_emb (dat0 (F := Ideal) V c) 5 (fun k : S100000x128.Idx => c0 V c (k 0) (k 1)) (fun t _ => ?_)
    (b.cast N_0.symm) (flush0_5 _) _ (emb5 _ r j)
  show (cfg0.win 5).cut _ ((dat0 (F := Ideal) V c).after 5 t) = _
  rw [after0_5, (outs _ _ _ _ _).1]
  refine funext fun (y : S5000x128.Idx) => ?_
  obtain ⟨p, q, rfl⟩ : ∃ p q, y = ix2 p q := ⟨y 0, y 1, eq_ix2 y⟩
  rw [View.read_apply, emb5 t p q, cast_eq]
  exact block_row V c t p q

theorem out_sum (c : Dev nD) (b : Fin 20) (j : Fin 128) :
    (dat0 (F := Ideal) V c).arrAt 6 cfg0.N (ix3 b 0 j) = blkSum (c0 V c) b j := by
  refine arrAt_of_emb (dat0 (F := Ideal) V c) 6 (fun k : S20x1x128.Idx => blkSum (c0 V c) (k 0) (k 2)) (fun t _ => ?_)
    (b.cast N_0.symm) (flush0_6 _) _ (emb6 _ 0 0 j)
  show (cfg0.win 6).cut _ ((dat0 (F := Ideal) V c).after 6 t) = _
  rw [after0_6, (outs _ _ _ _ _).2.1]
  refine funext fun (y : S1x1x128.Idx) => ?_
  obtain ⟨u, w, q, rfl⟩ : ∃ u w q, y = ix3 u w q := ⟨y 0, y 1, y 2, eq_ix3 y⟩
  rw [View.read_apply, emb6 t u w q, cast_eq]
  unfold blkSum
  exact (colsum_apply _ _ _ _ _ u w q).trans (Finset.sum_congr rfl fun r _ => block_row V c t r q)

theorem out_sq (c : Dev nD) (b : Fin 20) (j : Fin 128) :
    (dat0 (F := Ideal) V c).arrAt 7 cfg0.N (ix3 b 0 j) = blkSq (c0 V c) b j := by
  refine arrAt_of_emb (dat0 (F := Ideal) V c) 7 (fun k : S20x1x128.Idx => blkSq (c0 V c) (k 0) (k 2)) (fun t _ => ?_)
    (b.cast N_0.symm) (flush0_7 _) _ (emb7 _ 0 0 j)
  show (cfg0.win 7).cut _ ((dat0 (F := Ideal) V c).after 7 t) = _
  rw [after0_7, (outs _ _ _ _ _).2.2]
  refine funext fun (y : S1x1x128.Idx) => ?_
  obtain ⟨u, w, q, rfl⟩ : ∃ u w q, y = ix3 u w q := ⟨y 0, y 1, y 2, eq_ix3 y⟩
  rw [View.read_apply, emb7 t u w q, cast_eq]
  unfold blkSq
  exact (colsum_apply _ _ _ _ _ u w q).trans (Finset.sum_congr rfl fun r _ =>
    congrArg₂ (· * ·) (block_row V c t r q) (block_row V c t r q))

end Cert.GCN.Reg0

end
-- ==== Proof.Region1.lean ====
import proofs.«430204_j43868795961418_3_alg».proof.Proof.Gen.KernelIdeal.Frame
import proofs.«430204_j43868795961418_3_alg».proof.Proof.NormMul

noncomputable section

namespace Cert.GCN.Reg1

open Cert.KernelIdeal Cert.KernelIdeal.Gen Idealize.ShloMosaic Idealize.ShloMosaic.TcCoe Idealize.ShloMosaic.ValueIdx Cert.GCN.NormMul

variable (V : (c : Dev nD) → (b : Ref sig .tc) → Buf (Elt Ideal) ((c : Thread nD τ).loc b))

def res (c : Dev nD) : S100000x128.Idx → EReal := fun y =>
  mm (bnRelu epsLit (cur2 (V c (Pipeline.arrRef spec1 0)))
      (fun k => V c (Pipeline.arrRef spec1 1) (ix2 0 k)) (fun k => V c (Pipeline.arrRef spec1 2) (ix2 0 k))
      (fun k => V c (Pipeline.arrRef spec1 3) (ix2 0 k)) (fun k => V c (Pipeline.arrRef spec1 4) (ix2 0 k)))
    (cur2 (V c (Pipeline.arrRef spec1 5))) (y 0) (y 1)

theorem idx_facts : ∀ t : Fin cfg1.N,
    (win1_0.index t (0 : Fin 2) = t.val ∧ win1_0.index t (1 : Fin 2) = 0)
    ∧ (∀ a, win1_1.index t a = 0) ∧ (∀ a, win1_2.index t a = 0) ∧ (∀ a, win1_3.index t a = 0)
    ∧ (∀ a, win1_4.index t a = 0) ∧ (∀ a, win1_5.index t a = 0)
    ∧ win1_6.index t (0 : Fin 2) = t.val ∧ win1_6.index t (1 : Fin 2) = 0 :=
  (by decide +kernel : ∀ t : Fin grid1.N, _)

theorem blk0 (c : Dev nD) (t : Fin cfg1.N) (p : Fin 5000) (k : Fin 128) (r : Fin 100000) (hr : r.val = t.val * 5000 + p.val) :
    (iblk1 V c 0 t : Vec Ideal S5000x128 .f32) (ix2 p k) = V c (Pipeline.arrRef spec1 0) (ix2 r k) :=
  congrArg (V c _) (Shape.idx_ext₂ (by show win1_0.index t (0 : Fin 2) * 5000 + 1 * p.val = r.val; rw [(idx_facts t).1.1, hr]; omega)
    (by show win1_0.index t (1 : Fin 2) * 128 + 1 * k.val = k.val; rw [(idx_facts t).1.2]; omega))

theorem blk1 (c : Dev nD) (t : Fin cfg1.N) (k : Fin 128) :
    (iblk1 V c 1 t : Vec Ideal S1x128 .f32) (ix2 0 k) = V c (Pipeline.arrRef spec1 1) (ix2 0 k) :=
  congrArg (V c _) (emb_of_index_zero win1_1 t (idx_facts t).2.1 _ _ fun _ => rfl)

theorem blk2 (c : Dev nD) (t : Fin cfg1.N) (k : Fin 128) :
    (iblk1 V c 2 t : Vec Ideal S1x128 .f32) (ix2 0 k) = V c (Pipeline.arrRef spec1 2) (ix2 0 k) :=
  congrArg (V c _) (emb_of_index_zero win1_2 t (idx_facts t).2.2.1 _ _ fun _ => rfl)

theorem blk3 (c : Dev nD) (t : Fin cfg1.N) (k : Fin 128) :
    (iblk1 V c 3 t : Vec Ideal S1x128 .f32) (ix2 0 k) = V c (Pipeline.arrRef spec1 3) (ix2 0 k) :=
  congrArg (V c _) (emb_of_index_zero win1_3 t (idx_facts t).2.2.2.1 _ _ fun _ => rfl)

theorem blk4 (c : Dev nD) (t : Fin cfg1.N) (k : Fin 128) :
    (iblk1 V c 4 t : Vec Ideal S1x128 .f32) (ix2 0 k) = V c (Pipeline.arrRef spec1 4) (ix2 0 k) :=
  congrArg (V c _) (emb_of_index_zero win1_4 t (idx_facts t).2.2.2.2.1 _ _ fun _ => rfl)

theorem blk5 (c : Dev nD) (t : Fin cfg1.N) (k : Fin 128) (q : Fin 128) :
    (iblk1 V c 5 t : Vec Ideal S128x128 .f32) (ix2 k q) = V c (Pipeline.arrRef spec1 5) (ix2 k q) :=
  congrArg (V c _) (emb_of_index_zero win1_5 t (idx_facts t).2.2.2.2.2.1 _ _ fun _ => rfl)

-- Row p of point t's blocks is row 5000·t + p of the arrays and the rows and the matrix are whole, so the stored block is the block of the result.
theorem flushed_eq (c : Dev nD) (t : Fin cfg1.N) :
    (dat1 (F := Ideal) V c).flushed 6 t = ((cfg1.win 6).blk t).view.read (Elt Ideal) (res V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S1x128) hz, View.ld_unit_zero (S := S128x128) hz]
  obtain ⟨-, -, -, -, -, -, e60, e61⟩ := idx_facts t
  funext y
  obtain ⟨p, q, rfl⟩ : ∃ p q, y = ix2 p q := ⟨y 0, y 1, eq_ix2 y⟩
  have he : ((cfg1.win 6).blk t).view.emb (ix2 p q) = ix2 (((cfg1.win 6).blk t).view.emb (ix2 p q) 0) q := Shape.idx_ext₂ rfl
    (by show win1_6.index t (1 : Fin 2) * 128 + 1 * q.val = q.val; rw [e61]; omega)
  show _ = res V c _
  rw [he]
  unfold k1_pay1
  exact normMul_at rfl (fun k => blk0 V c t p k _ (by show win1_6.index t (0 : Fin 2) * 5000 + 1 * p.val = _; rw [e60]; omega))
    (blk1 V c t) (blk2 V c t) (blk3 V c t) (blk4 V c t) (fun k => blk5 V c t k q)

-- Row r of the result lies in the block of point r / 5000, at row r % 5000.
theorem cover (i : S100000x128.Idx) :
    ∃ t : Fin cfg1.N, (cfg1.win 6).flush t = true ∧ i ∈ ((cfg1.win 6).blk t).view.set := by
  have h0 : (i 0).val < 100000 := (i 0).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e60, e61⟩ := idx_facts t
  have h : ((cfg1.win 6).blk t).view.emb (ix2 ⟨(i 0).val % 5000, Nat.mod_lt _ (by decide)⟩ (i 1)) = i := Shape.idx_ext₂
    (by show win1_6.index t (0 : Fin 2) * 5000 + 1 * ((i 0).val % 5000) = (i 0).val; rw [e60, ht]; omega)
    (by show win1_6.index t (1 : Fin 2) * 128 + 1 * (i 1).val = (i 1).val; rw [e61]; omega)
  exact ⟨t, flush1_6 t, h ▸ View.emb_mem_set _ _⟩

theorem out_h (c : Dev nD) (i : Fin NN) (j : Fin 128) :
    (dat1 (F := Ideal) V c).arrAt 6 cfg1.N (ix2 i j)
      = mm (bnRelu epsLit (cur2 (V c (Pipeline.arrRef spec1 0)))
          (fun k => V c (Pipeline.arrRef spec1 1) (ix2 0 k)) (fun k => V c (Pipeline.arrRef spec1 2) (ix2 0 k))
          (fun k => V c (Pipeline.arrRef spec1 3) (ix2 0 k)) (fun k => V c (Pipeline.arrRef spec1 4) (ix2 0 k)))
        (cur2 (V c (Pipeline.arrRef spec1 5))) i j :=
  congrFun ((dat1 (F := Ideal) V c).arrAt_eq_of_cover 6 (res V c) (fun t _ => flushed_eq V c t) cover) (ix2 i j)

end Cert.GCN.Reg1

end
-- ==== Proof.Region2.lean ====
import proofs.«430204_j43868795961418_3_alg».proof.Proof.Gen.KernelIdeal.Frame
import proofs.«430204_j43868795961418_3_alg».proof.Proof.Blocks

noncomputable section

namespace Cert.GCN.Reg2

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

def c2 (c : Dev nD) : Fin NN → Fin 128 → EReal :=
  comb (fun i => V c (Pipeline.arrRef spec2 2) (ix2 i 0)) (cur2 (V c (Pipeline.arrRef spec2 0)))
    (cur2 (V c (Pipeline.arrRef spec2 1))) (fun j => V c (Pipeline.arrRef spec2 3) (ix2 0 j))

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0
    ∧ win2_6.index t (0 : Fin 3) = t.val ∧ win2_6.index t (1 : Fin 3) = 0 ∧ win2_6.index t (2 : Fin 3) = 0 :=
  (by decide +kernel : ∀ t : Fin grid2.N, _)

def bOf (t : Fin cfg2.N) : Fin 20 := t.cast N_2

-- Row r of each block at point t is node 5000·t + r of its array, so the stored row is the combine there.
theorem block_row (c : Dev nD) (t : Fin cfg2.N) (r : Fin 5000) (q : Fin 128) :
    k2_pay1 (F := Ideal) (iblk2 V c 0 t) (iblk2 V c 2 t) (iblk2 V c 1 t) (iblk2 V c 3 t) (ix2 r q)
      = c2 V c (blkRow (bOf t) r) q := by
  obtain ⟨a0, a1, b0, b1, d0, d1, e0, e1, -⟩ := idx_facts t
  unfold k2_pay1
  simp only [shapeCast_self]
  refine combine_of_rows _ _ _ _ _ _ _ _ _ _ (bOf t) (fun _ _ => ?_) (fun _ _ => ?_) (fun _ => ?_) (fun _ => ?_) r q
  · exact congrArg (V c (Pipeline.arrRef spec2 0)) (Shape.idx_ext₂ (row_off a0) (col_off a1))
  · exact congrArg (V c (Pipeline.arrRef spec2 1)) (Shape.idx_ext₂ (row_off b0) (col_off b1))
  · exact congrArg (V c (Pipeline.arrRef spec2 2)) (Shape.idx_ext₂ (row_off d0) (col_off d1))
  · exact congrArg (V c (Pipeline.arrRef spec2 3)) (Shape.idx_ext₂ (col_off e0) (col_off e1))

theorem emb4 (t : Fin cfg2.N) (r : Fin 5000) (q : Fin 128) :
    ((cfg2.win 4).blk t).view.emb (ix2 r q) = (ix2 (blkRow (bOf t) r) q : S100000x128.Idx) :=
  Shape.idx_ext₂ (row_off (idx_facts t).2.2.2.2.2.2.2.2.1) (col_off (idx_facts t).2.2.2.2.2.2.2.2.2.1)

theorem emb5 (t : Fin cfg2.N) (u w : Fin 1) (q : Fin 128) :
    ((cfg2.win 5).blk t).view.emb (ix3 u w q) = (ix3 (bOf t) (0 : Fin 1) q : S20x1x128.Idx) := by
  obtain ⟨-, -, -, -, -, -, -, -, -, -, e0, e1, e2, -⟩ := idx_facts t
  exact idx_ext₃ (unit_off u e0) (unit_off w e1) (col_off e2)

theorem emb6 (t : Fin cfg2.N) (u w : Fin 1) (q : Fin 128) :
    ((cfg2.win 6).blk t).view.emb (ix3 u w q) = (ix3 (bOf t) (0 : Fin 1) q : S20x1x128.Idx) := by
  obtain ⟨-, -, -, -, -, -, -, -, -, -, -, -, -, e0, e1, e2⟩ := idx_facts t
  exact idx_ext₃ (unit_off u e0) (unit_off w e1) (col_off e2)

theorem outs (x0 x1 : Vec Ideal S5000x128 .f32) (x2 : Vec Ideal S5000x1 .f32) (x3 : Vec Ideal S1x128 .f32) :
    out2_4 x0 x1 x2 x3 = k2_pay1 x0 x2 x1 x3 ∧ out2_5 x0 x1 x2 x3 = k2_pay2 x0 x2 x1 x3
      ∧ out2_6 x0 x1 x2 x3 = k2_pay3 x0 x2 x1 x3 := by
  unfold out2_4 out2_5 out2_6
  rw [View.canon_unit_zero zeros2, View.canon_unit_zero zeros3, View.canon_unit_zero zeros3, View.ld_unit_zero zeros2 _ x0,
    View.ld_unit_zero zeros2 _ x1, View.ld_unit_zero zeros2 _ x2, View.ld_unit_zero zeros2 _ x3]
  exact ⟨rfl, rfl, rfl⟩

theorem out_c (c : Dev nD) (i : Fin NN) (j : Fin 128) :
    (dat2 (F := Ideal) V c).arrAt 4 cfg2.N (ix2 i j) = c2 V c i j := by
  obtain ⟨b, r, rfl⟩ := exists_blkRow i
  refine arrAt_of_emb (dat2 (F := Ideal) V c) 4 (fun k : S100000x128.Idx => c2 V c (k 0) (k 1)) (fun t _ => ?_)
    (b.cast N_2.symm) (flush2_4 _) _ (emb4 _ r j)
  show (cfg2.win 4).cut _ ((dat2 (F := Ideal) V c).after 4 t) = _
  rw [after2_4, (outs _ _ _ _).1]
  refine funext fun (y : S5000x128.Idx) => ?_
  obtain ⟨p, q, rfl⟩ : ∃ p q, y = ix2 p q := ⟨y 0, y 1, eq_ix2 y⟩
  rw [View.read_apply, emb4 t p q, cast_eq]
  exact block_row V c t p q

theorem out_sum (c : Dev nD) (b : Fin 20) (j : Fin 128) :
    (dat2 (F := Ideal) V c).arrAt 5 cfg2.N (ix3 b 0 j) = blkSum (c2 V c) b j := by
  refine arrAt_of_emb (dat2 (F := Ideal) V c) 5 (fun k : S20x1x128.Idx => blkSum (c2 V c) (k 0) (k 2)) (fun t _ => ?_)
    (b.cast N_2.symm) (flush2_5 _) _ (emb5 _ 0 0 j)
  show (cfg2.win 5).cut _ ((dat2 (F := Ideal) V c).after 5 t) = _
  rw [after2_5, (outs _ _ _ _).2.1]
  refine funext fun (y : S1x1x128.Idx) => ?_
  obtain ⟨u, w, q, rfl⟩ : ∃ u w q, y = ix3 u w q := ⟨y 0, y 1, y 2, eq_ix3 y⟩
  rw [View.read_apply, emb5 t u w q, cast_eq]
  unfold blkSum
  exact (colsum_apply _ _ _ _ _ u w q).trans (Finset.sum_congr rfl fun r _ => block_row V c t r q)

theorem out_sq (c : Dev nD) (b : Fin 20) (j : Fin 128) :
    (dat2 (F := Ideal) V c).arrAt 6 cfg2.N (ix3 b 0 j) = blkSq (c2 V c) b j := by
  refine arrAt_of_emb (dat2 (F := Ideal) V c) 6 (fun k : S20x1x128.Idx => blkSq (c2 V c) (k 0) (k 2)) (fun t _ => ?_)
    (b.cast N_2.symm) (flush2_6 _) _ (emb6 _ 0 0 j)
  show (cfg2.win 6).cut _ ((dat2 (F := Ideal) V c).after 6 t) = _
  rw [after2_6, (outs _ _ _ _).2.2]
  refine funext fun (y : S1x1x128.Idx) => ?_
  obtain ⟨u, w, q, rfl⟩ : ∃ u w q, y = ix3 u w q := ⟨y 0, y 1, y 2, eq_ix3 y⟩
  rw [View.read_apply, emb6 t u w q, cast_eq]
  unfold blkSq
  exact (colsum_apply _ _ _ _ _ u w q).trans (Finset.sum_congr rfl fun r _ =>
    congrArg₂ (· * ·) (block_row V c t r q) (block_row V c t r q))

end Cert.GCN.Reg2

end
-- ==== Proof.Region3.lean ====
import proofs.«430204_j43868795961418_3_alg».proof.Proof.Gen.KernelIdeal.Frame
import proofs.«430204_j43868795961418_3_alg».proof.Proof.NormMul

noncomputable section

namespace Cert.GCN.Reg3

open Cert.KernelIdeal Cert.KernelIdeal.Gen Idealize.ShloMosaic Idealize.ShloMosaic.TcCoe Idealize.ShloMosaic.ValueIdx Cert.GCN.NormMul

variable (V : (c : Dev nD) → (b : Ref sig .tc) → Buf (Elt Ideal) ((c : Thread nD τ).loc b))

def res (c : Dev nD) : S100000x40.Idx → EReal := fun y =>
  mm (bnRelu epsLit (cur2 (V c (Pipeline.arrRef spec3 0)))
      (fun k => V c (Pipeline.arrRef spec3 1) (ix2 0 k)) (fun k => V c (Pipeline.arrRef spec3 2) (ix2 0 k))
      (fun k => V c (Pipeline.arrRef spec3 3) (ix2 0 k)) (fun k => V c (Pipeline.arrRef spec3 4) (ix2 0 k)))
    (cur2 (V c (Pipeline.arrRef spec3 5))) (y 0) (y 1)

theorem idx_facts : ∀ t : Fin cfg3.N,
    (win3_0.index t (0 : Fin 2) = t.val ∧ win3_0.index t (1 : Fin 2) = 0)
    ∧ (∀ a, win3_1.index t a = 0) ∧ (∀ a, win3_2.index t a = 0) ∧ (∀ a, win3_3.index t a = 0)
    ∧ (∀ a, win3_4.index t a = 0) ∧ (∀ a, win3_5.index t a = 0)
    ∧ win3_6.index t (0 : Fin 2) = t.val ∧ win3_6.index t (1 : Fin 2) = 0 :=
  (by decide +kernel : ∀ t : Fin grid3.N, _)

theorem blk0 (c : Dev nD) (t : Fin cfg3.N) (p : Fin 5000) (k : Fin 128) (r : Fin 100000) (hr : r.val = t.val * 5000 + p.val) :
    (iblk3 V c 0 t : Vec Ideal S5000x128 .f32) (ix2 p k) = V c (Pipeline.arrRef spec3 0) (ix2 r k) :=
  congrArg (V c _) (Shape.idx_ext₂ (by show win3_0.index t (0 : Fin 2) * 5000 + 1 * p.val = r.val; rw [(idx_facts t).1.1, hr]; omega)
    (by show win3_0.index t (1 : Fin 2) * 128 + 1 * k.val = k.val; rw [(idx_facts t).1.2]; omega))

theorem blk1 (c : Dev nD) (t : Fin cfg3.N) (k : Fin 128) :
    (iblk3 V c 1 t : Vec Ideal S1x128 .f32) (ix2 0 k) = V c (Pipeline.arrRef spec3 1) (ix2 0 k) :=
  congrArg (V c _) (emb_of_index_zero win3_1 t (idx_facts t).2.1 _ _ fun _ => rfl)

theorem blk2 (c : Dev nD) (t : Fin cfg3.N) (k : Fin 128) :
    (iblk3 V c 2 t : Vec Ideal S1x128 .f32) (ix2 0 k) = V c (Pipeline.arrRef spec3 2) (ix2 0 k) :=
  congrArg (V c _) (emb_of_index_zero win3_2 t (idx_facts t).2.2.1 _ _ fun _ => rfl)

theorem blk3 (c : Dev nD) (t : Fin cfg3.N) (k : Fin 128) :
    (iblk3 V c 3 t : Vec Ideal S1x128 .f32) (ix2 0 k) = V c (Pipeline.arrRef spec3 3) (ix2 0 k) :=
  congrArg (V c _) (emb_of_index_zero win3_3 t (idx_facts t).2.2.2.1 _ _ fun _ => rfl)

theorem blk4 (c : Dev nD) (t : Fin cfg3.N) (k : Fin 128) :
    (iblk3 V c 4 t : Vec Ideal S1x128 .f32) (ix2 0 k) = V c (Pipeline.arrRef spec3 4) (ix2 0 k) :=
  congrArg (V c _) (emb_of_index_zero win3_4 t (idx_facts t).2.2.2.2.1 _ _ fun _ => rfl)

theorem blk5 (c : Dev nD) (t : Fin cfg3.N) (k : Fin 128) (q : Fin 40) :
    (iblk3 V c 5 t : Vec Ideal S128x40 .f32) (ix2 k q) = V c (Pipeline.arrRef spec3 5) (ix2 k q) :=
  congrArg (V c _) (emb_of_index_zero win3_5 t (idx_facts t).2.2.2.2.2.1 _ _ fun _ => rfl)

-- Row p of point t's blocks is row 5000·t + p of the arrays and the rows and the matrix are whole, so the stored block is the block of the result.
theorem flushed_eq (c : Dev nD) (t : Fin cfg3.N) :
    (dat3 (F := Ideal) V c).flushed 6 t = ((cfg3.win 6).blk t).view.read (Elt Ideal) (res V c) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz, View.ld_unit_zero (S := S128x40) hz]
  obtain ⟨-, -, -, -, -, -, e60, e61⟩ := idx_facts t
  funext y
  obtain ⟨p, q, rfl⟩ : ∃ p q, y = ix2 p q := ⟨y 0, y 1, eq_ix2 y⟩
  have he : ((cfg3.win 6).blk t).view.emb (ix2 p q) = ix2 (((cfg3.win 6).blk t).view.emb (ix2 p q) 0) q := Shape.idx_ext₂ rfl
    (by show win3_6.index t (1 : Fin 2) * 40 + 1 * q.val = q.val; rw [e61]; omega)
  show _ = res V c _
  rw [he]
  unfold k3_pay1
  exact normMul_at rfl (fun k => blk0 V c t p k _ (by show win3_6.index t (0 : Fin 2) * 5000 + 1 * p.val = _; rw [e60]; omega))
    (blk1 V c t) (blk2 V c t) (blk3 V c t) (blk4 V c t) (fun k => blk5 V c t k q)

-- Row r of the result lies in the block of point r / 5000, at row r % 5000.
theorem cover (i : S100000x40.Idx) :
    ∃ t : Fin cfg3.N, (cfg3.win 6).flush t = true ∧ i ∈ ((cfg3.win 6).blk t).view.set := by
  have h0 : (i 0).val < 100000 := (i 0).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, e60, e61⟩ := idx_facts t
  have h : ((cfg3.win 6).blk t).view.emb (ix2 ⟨(i 0).val % 5000, Nat.mod_lt _ (by decide)⟩ (i 1)) = i := Shape.idx_ext₂
    (by show win3_6.index t (0 : Fin 2) * 5000 + 1 * ((i 0).val % 5000) = (i 0).val; rw [e60, ht]; omega)
    (by show win3_6.index t (1 : Fin 2) * 40 + 1 * (i 1).val = (i 1).val; rw [e61]; omega)
  exact ⟨t, flush3_6 t, h ▸ View.emb_mem_set _ _⟩

theorem out_h (c : Dev nD) (i : Fin NN) (j : Fin 40) :
    (dat3 (F := Ideal) V c).arrAt 6 cfg3.N (ix2 i j)
      = mm (bnRelu epsLit (cur2 (V c (Pipeline.arrRef spec3 0)))
          (fun k => V c (Pipeline.arrRef spec3 1) (ix2 0 k)) (fun k => V c (Pipeline.arrRef spec3 2) (ix2 0 k))
          (fun k => V c (Pipeline.arrRef spec3 3) (ix2 0 k)) (fun k => V c (Pipeline.arrRef spec3 4) (ix2 0 k)))
        (cur2 (V c (Pipeline.arrRef spec3 5))) i j :=
  congrFun ((dat3 (F := Ideal) V c).arrAt_eq_of_cover 6 (res V c) (fun t _ => flushed_eq V c t) cover) (ix2 i j)

end Cert.GCN.Reg3

end
-- ==== Proof.Region4.lean ====
import proofs.«430204_j43868795961418_3_alg».proof.Proof.Gen.KernelIdeal.Frame
import proofs.«430204_j43868795961418_3_alg».proof.Proof.Blocks

noncomputable section

namespace Cert.GCN.Reg4

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

def c4 (c : Dev nD) : Fin NN → Fin 40 → EReal :=
  comb (fun i => V c (Pipeline.arrRef spec4 2) (ix2 i 0)) (cur2 (V c (Pipeline.arrRef spec4 0)))
    (cur2 (V c (Pipeline.arrRef spec4 1))) (fun j => V c (Pipeline.arrRef spec4 3) (ix2 0 j))

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

def bOf (t : Fin cfg4.N) : Fin 20 := t.cast N_4

-- Row r of each block at point t is node 5000·t + r of its array, so the stored row is the combine there.
theorem block_row (c : Dev nD) (t : Fin cfg4.N) (r : Fin 5000) (q : Fin 40) :
    k4_pay1 (F := Ideal) (iblk4 V c 0 t) (iblk4 V c 2 t) (iblk4 V c 1 t) (iblk4 V c 3 t) (ix2 r q)
      = c4 V c (blkRow (bOf t) r) q := by
  obtain ⟨a0, a1, b0, b1, d0, d1, e0, e1, -⟩ := idx_facts t
  unfold k4_pay1
  simp only [shapeCast_self]
  refine combine_of_rows _ _ _ _ _ _ _ _ _ _ (bOf t) (fun _ _ => ?_) (fun _ _ => ?_) (fun _ => ?_) (fun _ => ?_) r q
  · exact congrArg (V c (Pipeline.arrRef spec4 0)) (Shape.idx_ext₂ (row_off a0) (col_off a1))
  · exact congrArg (V c (Pipeline.arrRef spec4 1)) (Shape.idx_ext₂ (row_off b0) (col_off b1))
  · exact congrArg (V c (Pipeline.arrRef spec4 2)) (Shape.idx_ext₂ (row_off d0) (col_off d1))
  · exact congrArg (V c (Pipeline.arrRef spec4 3)) (Shape.idx_ext₂ (col_off e0) (col_off e1))

theorem emb4 (t : Fin cfg4.N) (r : Fin 5000) (q : Fin 40) :
    ((cfg4.win 4).blk t).view.emb (ix2 r q) = (ix2 (blkRow (bOf t) r) q : S100000x40.Idx) :=
  Shape.idx_ext₂ (row_off (idx_facts t).2.2.2.2.2.2.2.2.1) (col_off (idx_facts t).2.2.2.2.2.2.2.2.2)

theorem out_c (c : Dev nD) (i : Fin NN) (j : Fin 40) :
    (dat4 (F := Ideal) V c).arrAt 4 cfg4.N (ix2 i j)
      = comb (fun i => V c (Pipeline.arrRef spec4 2) (ix2 i 0)) (cur2 (V c (Pipeline.arrRef spec4 0)))
          (cur2 (V c (Pipeline.arrRef spec4 1))) (fun j => V c (Pipeline.arrRef spec4 3) (ix2 0 j)) i j := by
  obtain ⟨b, r, rfl⟩ := exists_blkRow i
  refine arrAt_of_emb (dat4 (F := Ideal) V c) 4 (fun k : S100000x40.Idx => c4 V c (k 0) (k 1)) (fun t _ => ?_)
    (b.cast N_4.symm) (flush4_4 _) _ (emb4 _ r j)
  show (cfg4.win 4).cut _ ((dat4 (F := Ideal) V c).after 4 t) = _
  rw [after4_4]
  unfold out4_4
  rw [View.canon_unit_zero zeros2]
  simp only [View.ld_unit_zero (S := S5000x40) zeros2, View.ld_unit_zero (S := S5000x1) zeros2,
    View.ld_unit_zero (S := S1x40) zeros2]
  refine funext fun (y : S5000x40.Idx) => ?_
  obtain ⟨p, q, rfl⟩ : ∃ p q, y = ix2 p q := ⟨y 0, y 1, eq_ix2 y⟩
  rw [View.read_apply, emb4 t p q, cast_eq]
  exact block_row V c t p q

end Cert.GCN.Reg4

end
-- ==== Proof.KTower0.lean ====
import proofs.«430204_j43868795961418_3_alg».proof.Proof.Gen.KernelIdeal.Frame
import proofs.«430204_j43868795961418_3_alg».proof.Proof.Args
import proofs.«430204_j43868795961418_3_alg».proof.Proof.LibRowOps
import proofs.«430204_j43868795961418_3_alg».proof.Proof.Region0
import proofs.«430204_j43868795961418_3_alg».proof.Proof.Region1
import proofs.«430204_j43868795961418_3_alg».proof.Proof.Region2
import proofs.«430204_j43868795961418_3_alg».proof.Proof.Region3
import proofs.«430204_j43868795961418_3_alg».proof.Proof.Region4
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
namespace Cert.GCN.KT0

open Cert.KernelIdeal Cert.KernelIdeal.Gen
open Idealize.ShloMosaic Idealize.ShloMosaic.TcCoe Idealize.ShloMosaic.ValueIdx Idealize.ShloMosaic.RowOps

section Layout
variable {α : Type}

theorem col_read {n : ℕ} (hn : n ≠ 1) (hb : (⟨1, ![n]⟩ : Shape).BroadcastsInDim ⟨2, ![n, 1]⟩ (![0] : Fin 1 → Fin 2))
    (w : (⟨1, ![n]⟩ : Shape).Idx → α) (e : Fin n) (z : Fin 1) :
    broadcastInDim ⟨2, ![n, 1]⟩ ![0] hb w (ix2 e z) = w (ix1 e) :=
  broadcastInDim_apply _ hb _ (ix2 e z) (ix1 e) (by
    intro a
    match a with
    | ⟨0, _⟩ => show e.val = if n = 1 then 0 else e.val; rw [if_neg hn])

theorem spread_read {n C : ℕ} (hn : n ≠ 1) (hb : (⟨2, ![n, 1]⟩ : Shape).BroadcastsInDim ⟨2, ![n, C]⟩ (![0, 1] : Fin 2 → Fin 2))
    (w : (⟨2, ![n, 1]⟩ : Shape).Idx → α) (e : Fin n) (k : Fin C) :
    broadcastInDim ⟨2, ![n, C]⟩ ![0, 1] hb w (ix2 e k) = w (ix2 e (0 : Fin 1)) :=
  broadcastInDim_apply _ hb _ (ix2 e k) (ix2 e (0 : Fin 1)) (by
    intro a
    match a with
    | ⟨0, _⟩ => show e.val = if n = 1 then 0 else e.val; rw [if_neg hn]
    | ⟨1, _⟩ => show (0 : ℕ) = if (1 : ℕ) = 1 then 0 else k.val; rw [if_pos rfl])

theorem slice_row_read {C : ℕ} (o : ℕ) (g : Fin 2) (hg : g.val = o)
    (hsl : (⟨2, ![2, C]⟩ : Shape).Slices ![o, 0] ⟨2, ![1, C]⟩) (hsc : (⟨2, ![1, C]⟩ : Shape).ShapeCasts ⟨1, ![C]⟩)
    (p : (⟨2, ![2, C]⟩ : Shape).Idx → α) (j : Fin C) :
    shapeCast ⟨1, ![C]⟩ (extractStridedSlice ⟨2, ![1, C]⟩ ![o, 0] p hsl) hsc (ix1 j) = p (ix2 g j) := by
  refine (shapeCast_1a_a_apply _ hsc j).trans ?_
  exact extractStridedSlice_apply _ p hsl (ix2 (0 : Fin 1) j) (ix2 g j) (by
    intro a
    match a with
    | ⟨0, _⟩ => show g.val = o + 0; omega
    | ⟨1, _⟩ => show j.val = 0 + j.val; omega)

theorem rowpar_read {C : ℕ} (hC : C ≠ 1) (o : ℕ) (g : Fin 2) (hg : g.val = o)
    (hsl : (⟨2, ![2, C]⟩ : Shape).Slices ![o, 0] ⟨2, ![1, C]⟩) (hsc : (⟨2, ![1, C]⟩ : Shape).ShapeCasts ⟨1, ![C]⟩)
    (hb : (⟨1, ![C]⟩ : Shape).BroadcastsInDim ⟨2, ![1, C]⟩ (![1] : Fin 1 → Fin 2))
    (p : (⟨2, ![2, C]⟩ : Shape).Idx → α) (j : Fin C) :
    broadcastInDim ⟨2, ![1, C]⟩ ![1] hb (shapeCast ⟨1, ![C]⟩ (extractStridedSlice ⟨2, ![1, C]⟩ ![o, 0] p hsl) hsc)
        (ix2 (0 : Fin 1) j) = p (ix2 g j) := by
  refine (broadcastInDim_apply _ hb _ (ix2 (0 : Fin 1) j) (ix1 j) (by
    intro a
    match a with
    | ⟨0, _⟩ => show j.val = if C = 1 then 0 else j.val; rw [if_neg hC])).trans ?_
  exact slice_row_read o g hg hsl hsc p j

theorem slab_read {a b : ℕ} (o : ℕ) (g : Fin 2) (hg : g.val = o)
    (hsl : (⟨3, ![2, a, b]⟩ : Shape).Slices ![o, 0, 0] ⟨3, ![1, a, b]⟩)
    (hsc : (⟨3, ![1, a, b]⟩ : Shape).ShapeCasts ⟨2, ![a, b]⟩)
    (p : (⟨3, ![2, a, b]⟩ : Shape).Idx → α) (k : Fin a) (j : Fin b) :
    shapeCast ⟨2, ![a, b]⟩ (extractStridedSlice ⟨3, ![1, a, b]⟩ ![o, 0, 0] p hsl) hsc (ix2 k j) = p (ix3 g k j) := by
  refine (shapeCast_1ab_ab_apply _ hsc k j).trans ?_
  exact extractStridedSlice_apply _ p hsl (ix3 (0 : Fin 1) k j) (ix3 g k j) (by
    intro c
    match c with
    | ⟨0, _⟩ => show g.val = o + 0; omega
    | ⟨1, _⟩ => show k.val = 0 + k.val; omega
    | ⟨2, _⟩ => show j.val = 0 + j.val; omega)

end Layout

theorem wrapcol_read (hb : (⟨1, ![1600000]⟩ : Shape).BroadcastsInDim ⟨2, ![1600000, 1]⟩ (![0] : Fin 1 → Fin 2))
    (hz : (⟨0, ![]⟩ : Shape).BroadcastsInDim ⟨1, ![1600000]⟩ (![] : Fin 0 → Fin 1))
    (w : IVec ⟨1, ![1600000]⟩ 32) (e : Fin 1600000) (z : Fin 1) :
    broadcastInDim ⟨2, ![1600000, 1]⟩ ![0] hb
        (select (cmpi .slt w (broadcastInDim ⟨1, ![1600000]⟩ ![] hz (constantI ⟨0, ![]⟩ 32 0#32)))
          (addi w (broadcastInDim ⟨1, ![1600000]⟩ ![] hz (constantI ⟨0, ![]⟩ 32 100000#32))) w) (ix2 e z)
      = wrapW (w (ix1 e)) :=
  (col_read (by decide) hb _ e z).trans rfl

theorem ofBits_one : Ideal.ofBits .f32 0x3F800000#32 = 1 := by
  simp [Ideal.ofBits, Ideal.ieee, -EReal.coe_mul]; norm_num

theorem hostRsqrt_read {s : Shape} (x : FVec Ideal s .f32) (j : s.Idx) : Host.rsqrt x j = Ideal.rsqrt (x j) := rfl

section Graph

variable (dv : ScatterDims ⟨1, ![100000]⟩ ⟨2, ![1600000, 1]⟩ ⟨1, ![1600000]⟩)
  (hv1 : dv.updateWindowDims = []) (hv2 : dv.insertedWindowDims = [0]) (hv3 : dv.scatterDimsToOperandDims = [0])
  (hv4 : dv.indexVectorDim = 1)
  (gv : GatherDims ⟨1, ![100000]⟩ ⟨2, ![1600000, 1]⟩ ⟨1, ![1600000]⟩)
  (hg1 : gv.offsetDims = []) (hg2 : gv.collapsedSliceDims = [0]) (hg3 : gv.operandBatchingDims = [])
  (hg4 : gv.startIndicesBatchingDims = []) (hg5 : gv.startIndexMap = [0]) (hg6 : gv.indexVectorDim = 1)
  (hg7 : gv.sliceSizes = ![1])
  (hcol : (⟨1, ![1600000]⟩ : Shape).BroadcastsInDim ⟨2, ![1600000, 1]⟩ (![0] : Fin 1 → Fin 2))
  (hzE : (⟨0, ![]⟩ : Shape).BroadcastsInDim ⟨1, ![1600000]⟩ (![] : Fin 0 → Fin 1))
  (hzN : (⟨0, ![]⟩ : Shape).BroadcastsInDim ⟨1, ![100000]⟩ (![] : Fin 0 → Fin 1))

include hv1 hv2 hv3 hv4 in

theorem deg_read (dw : IVec ⟨1, ![1600000]⟩ 32) (ea : FVec Ideal ⟨1, ![1600000]⟩ .f32) (i : Fin 100000) :
    addf (Host.scatterAdd dv (broadcastInDim ⟨1, ![100000]⟩ ![] hzN (constant (F := Ideal) ⟨0, ![]⟩ .f32 0x00000000#32))
        (broadcastInDim ⟨2, ![1600000, 1]⟩ ![0] hcol dw) ea)
      (broadcastInDim ⟨1, ![100000]⟩ ![] hzN (constant (F := Ideal) ⟨0, ![]⟩ .f32 0x3F800000#32)) (ix1 i)
      = (∑ e : Fin 1600000, if (dw (ix1 e)).toInt = (i.val : ℤ) then ea (ix1 e) else 0) + 1 := by
  rw [addf_apply, hostScatterAdd_eq, scatterAdd_vec_apply dv hv1 hv2 hv3 hv4]
  show (Ideal.ofBits .f32 0x00000000#32 + _) + Ideal.ofBits .f32 0x3F800000#32 = _
  rw [Ideal.ofBits_zero_f32, zero_add, ofBits_one]
  exact congrArg (fun s : EReal => s + 1) (Finset.sum_congr rfl fun e _ => by rw [col_read (by decide) hcol dw e 0])

include hg1 hg2 hg3 hg4 hg5 hg6 hg7 in

theorem gathervec_read {α : Type} (v : (⟨1, ![100000]⟩ : Shape).Idx → α) (w : IVec ⟨1, ![1600000]⟩ 32) (e : Fin 1600000) :
    Host.gather gv v (broadcastInDim ⟨2, ![1600000, 1]⟩ ![0] hcol
        (select (cmpi .slt w (broadcastInDim ⟨1, ![1600000]⟩ ![] hzE (constantI ⟨0, ![]⟩ 32 0#32)))
          (addi w (broadcastInDim ⟨1, ![1600000]⟩ ![] hzE (constantI ⟨0, ![]⟩ 32 100000#32))) w)) (ix1 e)
      = v (ix1 (clampRow 100000 (by decide) (wrapW (w (ix1 e))))) := by
  rw [gather_vec_apply (by decide) gv hg1 hg2 hg3 hg4 hg5 hg6 hg7, wrapcol_read hcol hzE w e 0]

end Graph

section Agg

variable {C : ℕ}
  (ds : ScatterDims ⟨2, ![100000, C]⟩ ⟨2, ![1600000, 1]⟩ ⟨2, ![1600000, C]⟩)
  (hs1 : ds.updateWindowDims = [1]) (hs2 : ds.insertedWindowDims = [0]) (hs3 : ds.scatterDimsToOperandDims = [0])
  (hs4 : ds.indexVectorDim = 1)
  (gr : GatherDims ⟨2, ![100000, C]⟩ ⟨2, ![1600000, 1]⟩ ⟨2, ![1600000, C]⟩)
  (hr1 : gr.offsetDims = [1]) (hr2 : gr.collapsedSliceDims = [0]) (hr3 : gr.operandBatchingDims = [])
  (hr4 : gr.startIndicesBatchingDims = []) (hr5 : gr.startIndexMap = [0]) (hr6 : gr.indexVectorDim = 1)
  (hr7 : gr.sliceSizes = ![1, C])
  (hcol : (⟨1, ![1600000]⟩ : Shape).BroadcastsInDim ⟨2, ![1600000, 1]⟩ (![0] : Fin 1 → Fin 2))
  (hzE : (⟨0, ![]⟩ : Shape).BroadcastsInDim ⟨1, ![1600000]⟩ (![] : Fin 0 → Fin 1))
  (hzNC : (⟨0, ![]⟩ : Shape).BroadcastsInDim ⟨2, ![100000, C]⟩ (![] : Fin 0 → Fin 2))
  (hsp : (⟨2, ![1600000, 1]⟩ : Shape).BroadcastsInDim ⟨2, ![1600000, C]⟩ (![0, 1] : Fin 2 → Fin 2))

include hs1 hs2 hs3 hs4 hr1 hr2 hr3 hr4 hr5 hr6 hr7 in
theorem agg_read (wnv : FVec Ideal ⟨1, ![1600000]⟩ .f32) (sw dw : IVec ⟨1, ![1600000]⟩ 32)
    (h : FVec Ideal ⟨2, ![100000, C]⟩ .f32) (i : Fin 100000) (k : Fin C) :
    Host.scatterAdd ds (broadcastInDim ⟨2, ![100000, C]⟩ ![] hzNC (constant (F := Ideal) ⟨0, ![]⟩ .f32 0x00000000#32))
        (broadcastInDim ⟨2, ![1600000, 1]⟩ ![0] hcol dw)
        (mulf (Host.gather gr h (broadcastInDim ⟨2, ![1600000, 1]⟩ ![0] hcol
            (select (cmpi .slt sw (broadcastInDim ⟨1, ![1600000]⟩ ![] hzE (constantI ⟨0, ![]⟩ 32 0#32)))
              (addi sw (broadcastInDim ⟨1, ![1600000]⟩ ![] hzE (constantI ⟨0, ![]⟩ 32 100000#32))) sw)))
          (broadcastInDim ⟨2, ![1600000, C]⟩ ![0, 1] hsp (broadcastInDim ⟨2, ![1600000, 1]⟩ ![0] hcol wnv))) (ix2 i k)
      = ∑ e : Fin 1600000, if (dw (ix1 e)).toInt = (i.val : ℤ)
          then h (ix2 (clampRow 100000 (by decide) (wrapW (sw (ix1 e)))) k) * wnv (ix1 e) else 0 := by
  rw [hostScatterAdd_eq, scatterAdd_rows_apply ds hs1 hs2 hs3 hs4]
  show Ideal.ofBits .f32 0x00000000#32 + _ = _
  rw [Ideal.ofBits_zero_f32, zero_add]
  refine Finset.sum_congr rfl fun e _ => ?_
  rw [col_read (by decide) hcol dw e 0, mulf_apply, gather_rows_apply (by decide) gr hr1 hr2 hr3 hr4 hr5 hr6 hr7,
    wrapcol_read hcol hzE sw e 0, spread_read (by decide) hsp _ e k, col_read (by decide) hcol wnv e 0]

end Agg

section Stats

variable (hred : (⟨3, ![20, 1, 128]⟩ : Shape).ReducesTo [0] ⟨2, ![1, 128]⟩) (hu : 0 < (⟨0, ![]⟩ : Shape).numel)
  (hz : (⟨0, ![]⟩ : Shape).BroadcastsInDim ⟨2, ![1, 128]⟩ (![] : Fin 0 → Fin 2))

theorem blocks_read (X : FVec Ideal ⟨3, ![20, 1, 128]⟩ .f32) (j : Fin 128) :
    Host.reduceAdd X (constant (F := Ideal) ⟨0, ![]⟩ .f32 0x00000000#32) hred hu (ix2 (0 : Fin 1) j)
      = ∑ b : Fin 20, X (ix3 b (0 : Fin 1) j) := by
  have h : (⟨3, ![20, 1, 128]⟩ : Shape).Reduces [0] ⟨2, ![1, 128]⟩ := by decide
  show Ideal.hostReduceAdd hred X (Ideal.ofBits .f32 0x00000000#32) (ix2 (0 : Fin 1) j) = _
  rw [Ideal.hostReduceAdd_single hred h, Ideal.ofBits_zero_f32, zero_add]
  show ∑ b : Fin 20, X (h.lift (ix2 (0 : Fin 1) j) b) = _
  refine Finset.sum_congr rfl fun b _ => congrArg X ?_
  funext c
  apply Fin.ext
  match c with
  | ⟨0, _⟩ => rfl
  | ⟨1, _⟩ => rfl
  | ⟨2, _⟩ => rfl

theorem mean_read (nb : BitVec 32) (X : FVec Ideal ⟨3, ![20, 1, 128]⟩ .f32) (j : Fin 128) :
    Host.divf (Host.reduceAdd X (constant (F := Ideal) ⟨0, ![]⟩ .f32 0x00000000#32) hred hu)
        (broadcastInDim ⟨2, ![1, 128]⟩ ![] hz (constant (F := Ideal) ⟨0, ![]⟩ .f32 nb)) (ix2 (0 : Fin 1) j)
      = Ideal.div (∑ b : Fin 20, X (ix3 b (0 : Fin 1) j)) (Ideal.ofBits .f32 nb) := by
  show Ideal.div (Host.reduceAdd X (constant (F := Ideal) ⟨0, ![]⟩ .f32 0x00000000#32) hred hu (ix2 (0 : Fin 1) j)) (Ideal.ofBits .f32 nb) = _
  rw [blocks_read hred hu X j]

theorem var_read (nb : BitVec 32) (Q : FVec Ideal ⟨3, ![20, 1, 128]⟩ .f32) (M : FVec Ideal ⟨2, ![1, 128]⟩ .f32) (j : Fin 128) :
    maximumf (subf (Host.divf (Host.reduceAdd Q (constant (F := Ideal) ⟨0, ![]⟩ .f32 0x00000000#32) hred hu)
          (broadcastInDim ⟨2, ![1, 128]⟩ ![] hz (constant (F := Ideal) ⟨0, ![]⟩ .f32 nb))) (mulf M M))
        (broadcastInDim ⟨2, ![1, 128]⟩ ![] hz (constant (F := Ideal) ⟨0, ![]⟩ .f32 0x00000000#32)) (ix2 (0 : Fin 1) j)
      = max (Ideal.div (∑ b : Fin 20, Q (ix3 b (0 : Fin 1) j)) (Ideal.ofBits .f32 nb)
          - M (ix2 (0 : Fin 1) j) * M (ix2 (0 : Fin 1) j)) 0 := by
  rw [maximumf_apply, subf_apply, mulf_apply, mean_read hred hu hz nb Q j]
  show max _ (Ideal.ofBits .f32 0x00000000#32) = _
  rw [Ideal.ofBits_zero_f32]

end Stats

section Congr

theorem fused_congr {K C : ℕ} {s s' : Fin NN → EReal} {a a' x x' : Fin NN → Fin K → EReal} {W W' : Fin K → Fin C → EReal}
    {b b' : Fin C → EReal} (hs : ∀ i, s i = s' i) (ha : ∀ i k, a i k = a' i k) (hx : ∀ i k, x i k = x' i k)
    (hW : ∀ k j, W k j = W' k j) (hb : ∀ j, b j = b' j) : fused s a x W b = fused s' a' x' W' b' := by
  obtain rfl : s = s' := funext hs
  obtain rfl : a = a' := funext fun i => funext (ha i)
  obtain rfl : x = x' := funext fun i => funext (hx i)
  obtain rfl : W = W' := funext fun k => funext (hW k)
  obtain rfl : b = b' := funext hb
  rfl

theorem comb_congr {C : ℕ} {s s' : Fin NN → EReal} {a a' h h' : Fin NN → Fin C → EReal} {b b' : Fin C → EReal}
    (hs : ∀ i, s i = s' i) (ha : ∀ i k, a i k = a' i k) (hh : ∀ i k, h i k = h' i k) (hb : ∀ j, b j = b' j) :
    comb s a h b = comb s' a' h' b' := by
  obtain rfl : s = s' := funext hs
  obtain rfl : a = a' := funext fun i => funext (ha i)
  obtain rfl : h = h' := funext fun i => funext (hh i)
  obtain rfl : b = b' := funext hb
  rfl

theorem mm_bn_congr {K C : ℕ} {eps : EReal} {c c' : Fin NN → Fin K → EReal} {mu mu' va va' g g' bt bt' : Fin K → EReal}
    {W W' : Fin K → Fin C → EReal} (hc : ∀ i k, c i k = c' i k) (hmu : ∀ k, mu k = mu' k) (hva : ∀ k, va k = va' k)
    (hg : ∀ k, g k = g' k) (hbt : ∀ k, bt k = bt' k) (hW : ∀ k j, W k j = W' k j) :
    mm (bnRelu eps c mu va g bt) W = mm (bnRelu eps c' mu' va' g' bt') W' := by
  obtain rfl : c = c' := funext fun i => funext (hc i)
  obtain rfl : mu = mu' := funext hmu
  obtain rfl : va = va' := funext hva
  obtain rfl : g = g' := funext hg
  obtain rfl : bt = bt' := funext hbt
  obtain rfl : W = W' := funext fun k => funext (hW k)
  rfl

end Congr

section Terms

def srcWords (ei : IVec S2x1600000 32) : IVec S1600000 32 :=
  shapeCast S1600000 (extractStridedSlice S1x1600000 ![0, 0] ei slices_S2x1600000_S1x1600000_0_0) shapeCasts_S1x1600000_S1600000

def dstWords (ei : IVec S2x1600000 32) : IVec S1600000 32 :=
  shapeCast S1600000 (extractStridedSlice S1x1600000 ![1, 0] ei slices_S2x1600000_S1x1600000_1_0) shapeCasts_S1x1600000_S1600000

def oneCol {α : Type} (w : S1600000.Idx → α) : S1600000x1.Idx → α :=
  broadcastInDim S1600000x1 ![0] bcast_S1600000_S1600000x1_0 w

def wrapCol (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

def degT (ei : IVec S2x1600000 32) (ea : FVec Ideal S1600000 .f32) : FVec Ideal S100000 .f32 :=
  addf (Host.scatterAdd scatter_S100000_S1600000x1_S1600000_n_0_0_1
      (broadcastInDim S100000 ![] bcast_S_S100000 (constant (F := Ideal) S_ .f32 0x00000000#32)) (oneCol (dstWords ei)) ea)
    (broadcastInDim S100000 ![] bcast_S_S100000 (constant (F := Ideal) S_ .f32 0x3F800000#32))

def dinvT (ei : IVec S2x1600000 32) (ea : FVec Ideal S1600000 .f32) : FVec Ideal S100000 .f32 := Host.rsqrt (degT ei ea)

def wnT (ei : IVec S2x1600000 32) (ea : FVec Ideal S1600000 .f32) : FVec Ideal S1600000 .f32 :=
  mulf (mulf (Host.gather gather_S100000_S1600000x1_S1600000_n_0_n_n_0_1_1 (dinvT ei ea) (wrapCol (srcWords ei))) ea)
    (Host.gather gather_S100000_S1600000x1_S1600000_n_0_n_n_0_1_1 (dinvT ei ea) (wrapCol (dstWords ei)))

def snT (ei : IVec S2x1600000 32) (ea : FVec Ideal S1600000 .f32) : FVec Ideal S100000x1 .f32 :=
  broadcastInDim S100000x1 ![0] bcast_S100000_S100000x1_0 (mulf (dinvT ei ea) (dinvT ei ea))

def aggT128 (wnv : FVec Ideal S1600000 .f32) (sw dw : IVec S1600000 32) (h : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32)) (oneCol dw)
    (mulf (Host.gather gather_S100000x128_S1600000x1_S1600000x128_1_0_n_n_0_1_1128 h (wrapCol sw))
      (broadcastInDim S1600000x128 ![0, 1] bcast_S1600000x1_S1600000x128_0_1 (oneCol wnv)))

def aggT40 (wnv : FVec Ideal S1600000 .f32) (sw dw : IVec S1600000 32) (h : FVec Ideal S100000x40 .f32) :
    FVec Ideal S100000x40 .f32 :=
  Host.scatterAdd scatter_S100000x40_S1600000x1_S1600000x40_1_0_0_1
    (broadcastInDim S100000x40 ![] bcast_S_S100000x40 (constant (F := Ideal) S_ .f32 0x00000000#32)) (oneCol dw)
    (mulf (Host.gather gather_S100000x40_S1600000x1_S1600000x40_1_0_n_n_0_1_140 h (wrapCol sw))
      (broadcastInDim S1600000x40 ![0, 1] bcast_S1600000x1_S1600000x40_0_1 (oneCol wnv)))

def meanT (X : FVec Ideal S20x1x128 .f32) : FVec Ideal S1x128 .f32 :=
  Host.divf (Host.reduceAdd X (constant (F := Ideal) S_ .f32 0x00000000#32) reducesTo_S20x1x128_S1x128_d0 h_S_)
    (broadcastInDim S1x128 ![] bcast_S_S1x128 (constant (F := Ideal) S_ .f32 0x47C35000#32))

def varT (X Q : FVec Ideal S20x1x128 .f32) : FVec Ideal S1x128 .f32 :=
  maximumf (subf (Host.divf (Host.reduceAdd Q (constant (F := Ideal) S_ .f32 0x00000000#32) reducesTo_S20x1x128_S1x128_d0 h_S_)
        (broadcastInDim S1x128 ![] bcast_S_S1x128 (constant (F := Ideal) S_ .f32 0x47C35000#32))) (mulf (meanT X) (meanT X)))
    (broadcastInDim S1x128 ![] bcast_S_S1x128 (constant (F := Ideal) S_ .f32 0x00000000#32))

def rowT128 (p : FVec Ideal S2x128 .f32) : FVec Ideal S1x128 .f32 :=
  broadcastInDim S1x128 ![1] bcast_S128_S1x128_1
    (shapeCast S128 (extractStridedSlice S1x128 ![0, 0] p slices_S2x128_S1x128_0_0) shapeCasts_S1x128_S128)

def rowT40 (p : FVec Ideal S2x40 .f32) : FVec Ideal S1x40 .f32 :=
  broadcastInDim S1x40 ![1] bcast_S40_S1x40_1
    (shapeCast S40 (extractStridedSlice S1x40 ![0, 0] p slices_S2x40_S1x40_0_0) shapeCasts_S1x40_S40)

def slabT128 (p : FVec Ideal S2x128x128 .f32) : FVec Ideal S128x128 .f32 :=
  shapeCast S128x128 (extractStridedSlice S1x128x128 ![0, 0, 0] p slices_S2x128x128_S1x128x128_0_0_0) shapeCasts_S1x128x128_S128x128

def slabT40 (p : FVec Ideal S2x128x40 .f32) : FVec Ideal S128x40 .f32 :=
  shapeCast S128x40 (extractStridedSlice S1x128x40 ![0, 0, 0] p slices_S2x128x40_S1x128x40_0_0_0) shapeCasts_S1x128x40_S128x40

end Terms

section TermReads

theorem srcWords_apply (ei : IVec S2x1600000 32) (e : Fin EE) : srcWords ei (ix1 e) = ei (ix2 0 e) :=
  slice_row_read 0 0 rfl slices_S2x1600000_S1x1600000_0_0 shapeCasts_S1x1600000_S1600000 ei e

theorem dstWords_apply (ei : IVec S2x1600000 32) (e : Fin EE) : dstWords ei (ix1 e) = ei (ix2 1 e) :=
  slice_row_read 1 1 rfl slices_S2x1600000_S1x1600000_1_0 shapeCasts_S1x1600000_S1600000 ei e

theorem degT_apply (ei : IVec S2x1600000 32) (ea : FVec Ideal S1600000 .f32) (i : Fin NN) :
    degT ei ea (ix1 i) = deg (dwOf ei) (cur1 ea) i := by
  refine (deg_read (dv := scatter_S100000_S1600000x1_S1600000_n_0_0_1) (hv1 := rfl) (hv2 := rfl) (hv3 := rfl) (hv4 := rfl)
    (hcol := bcast_S1600000_S1600000x1_0) (hzN := bcast_S_S100000) (dstWords ei) ea i).trans ?_
  show (∑ e : Fin EE, if (dstWords ei (ix1 e)).toInt = (i.val : ℤ) then ea (ix1 e) else 0) + 1
    = (∑ e : Fin EE, if (ei (ix2 1 e)).toInt = (i.val : ℤ) then ea (ix1 e) else 0) + 1
  exact congrArg (fun s : EReal => s + 1) (Finset.sum_congr rfl fun e _ => by rw [dstWords_apply])

theorem dinvT_apply (ei : IVec S2x1600000 32) (ea : FVec Ideal S1600000 .f32) (i : Fin NN) :
    dinvT ei ea (ix1 i) = dinv (dwOf ei) (cur1 ea) i := by
  unfold dinvT dinv
  rw [hostRsqrt_read, degT_apply]

theorem wnT_apply (ei : IVec S2x1600000 32) (ea : FVec Ideal S1600000 .f32) (e : Fin EE) :
    wnT ei ea (ix1 e) = wn (dwOf ei) (srcOf ei) (dstROf ei) (cur1 ea) e := by
  show _ = dinv (dwOf ei) (cur1 ea) (clampRow NN (by decide) (wrapW (ei (ix2 0 e)))) * ea (ix1 e)
    * dinv (dwOf ei) (cur1 ea) (clampRow NN (by decide) (wrapW (ei (ix2 1 e))))
  unfold wnT wrapCol
  rw [mulf_apply, mulf_apply,
    gathervec_read (gv := gather_S100000_S1600000x1_S1600000_n_0_n_n_0_1_1) (hg1 := rfl) (hg2 := rfl) (hg3 := rfl) (hg4 := rfl)
      (hg5 := rfl) (hg6 := rfl) (hg7 := rfl) (hcol := bcast_S1600000_S1600000x1_0) (hzE := bcast_S_S1600000) (dinvT ei ea) (srcWords ei) e,
    gathervec_read (gv := gather_S100000_S1600000x1_S1600000_n_0_n_n_0_1_1) (hg1 := rfl) (hg2 := rfl) (hg3 := rfl) (hg4 := rfl)
      (hg5 := rfl) (hg6 := rfl) (hg7 := rfl) (hcol := bcast_S1600000_S1600000x1_0) (hzE := bcast_S_S1600000) (dinvT ei ea) (dstWords ei) e,
    srcWords_apply, dstWords_apply, dinvT_apply, dinvT_apply]

theorem snT_apply (ei : IVec S2x1600000 32) (ea : FVec Ideal S1600000 .f32) (i : Fin NN) :
    snT ei ea (ix2 i 0) = sn (dwOf ei) (cur1 ea) i := by
  show _ = dinv (dwOf ei) (cur1 ea) i * dinv (dwOf ei) (cur1 ea) i
  unfold snT
  rw [col_read (by decide) bcast_S100000_S100000x1_0 _ i 0, mulf_apply, dinvT_apply]

theorem aggT128_apply (wnv : FVec Ideal S1600000 .f32) (sw dw : IVec S1600000 32) (h : FVec Ideal S100000x128 .f32)
    (i : Fin NN) (k : Fin 128) :
    aggT128 wnv sw dw h (ix2 i k) = ∑ e : Fin EE, if (dw (ix1 e)).toInt = (i.val : ℤ)
      then h (ix2 (clampRow NN (by decide) (wrapW (sw (ix1 e)))) k) * wnv (ix1 e) else 0 :=
  agg_read (ds := scatter_S100000x128_S1600000x1_S1600000x128_1_0_0_1) (hs1 := rfl) (hs2 := rfl) (hs3 := rfl) (hs4 := rfl)
    (gr := gather_S100000x128_S1600000x1_S1600000x128_1_0_n_n_0_1_1128) (hr1 := rfl) (hr2 := rfl) (hr3 := rfl) (hr4 := rfl)
    (hr5 := rfl) (hr6 := rfl) (hr7 := rfl) (hcol := bcast_S1600000_S1600000x1_0) (hzE := bcast_S_S1600000)
    (hzNC := bcast_S_S100000x128) (hsp := bcast_S1600000x1_S1600000x128_0_1) wnv sw dw h i k

theorem aggT40_apply (wnv : FVec Ideal S1600000 .f32) (sw dw : IVec S1600000 32) (h : FVec Ideal S100000x40 .f32)
    (i : Fin NN) (k : Fin 40) :
    aggT40 wnv sw dw h (ix2 i k) = ∑ e : Fin EE, if (dw (ix1 e)).toInt = (i.val : ℤ)
      then h (ix2 (clampRow NN (by decide) (wrapW (sw (ix1 e)))) k) * wnv (ix1 e) else 0 :=
  agg_read (ds := scatter_S100000x40_S1600000x1_S1600000x40_1_0_0_1) (hs1 := rfl) (hs2 := rfl) (hs3 := rfl) (hs4 := rfl)
    (gr := gather_S100000x40_S1600000x1_S1600000x40_1_0_n_n_0_1_140) (hr1 := rfl) (hr2 := rfl) (hr3 := rfl) (hr4 := rfl)
    (hr5 := rfl) (hr6 := rfl) (hr7 := rfl) (hcol := bcast_S1600000_S1600000x1_0) (hzE := bcast_S_S1600000)
    (hzNC := bcast_S_S100000x40) (hsp := bcast_S1600000x1_S1600000x40_0_1) wnv sw dw h i k

theorem meanT_apply (X : FVec Ideal S20x1x128 .f32) (j : Fin 128) :
    meanT X (ix2 0 j) = Ideal.div (∑ b : Fin 20, X (ix3 b 0 j)) nLit :=
  mean_read reducesTo_S20x1x128_S1x128_d0 h_S_ bcast_S_S1x128 0x47C35000#32 X j

theorem varT_apply (X Q : FVec Ideal S20x1x128 .f32) (j : Fin 128) :
    varT X Q (ix2 0 j) = max (Ideal.div (∑ b : Fin 20, Q (ix3 b 0 j)) nLit - meanT X (ix2 0 j) * meanT X (ix2 0 j)) 0 :=
  var_read reducesTo_S20x1x128_S1x128_d0 h_S_ bcast_S_S1x128 0x47C35000#32 Q (meanT X) j

theorem meanT_eq (X : FVec Ideal S20x1x128 .f32) (cc : Fin NN → Fin 128 → EReal)
    (hX : ∀ b j, X (ix3 b 0 j) = blkSum cc b j) (j : Fin 128) : meanT X (ix2 0 j) = meanB nLit cc j := by
  show _ = Ideal.div (∑ b : Fin 20, blkSum cc b j) nLit
  rw [meanT_apply]
  exact congrArg (fun s : EReal => Ideal.div s nLit) (Finset.sum_congr rfl fun b _ => hX b j)

theorem varT_eq (X Q : FVec Ideal S20x1x128 .f32) (cc : Fin NN → Fin 128 → EReal)
    (hX : ∀ b j, X (ix3 b 0 j) = blkSum cc b j) (hQ : ∀ b j, Q (ix3 b 0 j) = blkSq cc b j) (j : Fin 128) :
    varT X Q (ix2 0 j) = varB nLit cc j := by
  show _ = max (Ideal.div (∑ b : Fin 20, blkSq cc b j) nLit - meanB nLit cc j * meanB nLit cc j) 0
  rw [varT_apply, meanT_eq X cc hX j]
  exact congrArg (fun s : EReal => max (Ideal.div s nLit - meanB nLit cc j * meanB nLit cc j) 0)
    (Finset.sum_congr rfl fun b _ => hQ b j)

theorem rowT128_apply (p : FVec Ideal S2x128 .f32) (j : Fin 128) : rowT128 p (ix2 0 j) = row p 0 j :=
  rowpar_read (by decide) 0 0 rfl slices_S2x128_S1x128_0_0 shapeCasts_S1x128_S128 bcast_S128_S1x128_1 p j

theorem rowT40_apply (p : FVec Ideal S2x40 .f32) (j : Fin 40) : rowT40 p (ix2 0 j) = row p 0 j :=
  rowpar_read (by decide) 0 0 rfl slices_S2x40_S1x40_0_0 shapeCasts_S1x40_S40 bcast_S40_S1x40_1 p j

theorem slabT128_apply (p : FVec Ideal S2x128x128 .f32) (k j : Fin 128) : slabT128 p (ix2 k j) = slab p 0 k j :=
  slab_read 0 0 rfl slices_S2x128x128_S1x128x128_0_0_0 shapeCasts_S1x128x128_S128x128 p k j

theorem slabT40_apply (p : FVec Ideal S2x128x40 .f32) (k : Fin 128) (j : Fin 40) : slabT40 p (ix2 k j) = slab p 0 k j :=
  slab_read 0 0 rfl slices_S2x128x40_S1x128x40_0_0_0 shapeCasts_S1x128x40_S128x40 p k j

theorem agg_eq_of {C : ℕ} (dw : Fin EE → BitVec 32) (src : Fin EE → Fin NN) (wnv : Fin EE → EReal) (h : Fin NN → Fin C → EReal)
    (dw' sw' : IVec S1600000 32) (wn' : FVec Ideal S1600000 .f32) (h' : (⟨2, ![100000, C]⟩ : Shape).Idx → EReal)
    (hdw : ∀ e, dw' (ix1 e) = dw e) (hsrc : ∀ e, clampRow NN (by decide) (wrapW (sw' (ix1 e))) = src e)
    (hwn : ∀ e, wn' (ix1 e) = wnv e) (hh : ∀ i k, h' (ix2 i k) = h i k) (i : Fin NN) (k : Fin C) :
    (∑ e : Fin EE, if (dw' (ix1 e)).toInt = (i.val : ℤ)
        then h' (ix2 (clampRow NN (by decide) (wrapW (sw' (ix1 e)))) k) * wn' (ix1 e) else 0) = agg dw src wnv h i k := by
  unfold agg
  refine Finset.sum_congr rfl fun e _ => ?_
  rw [hdw, hsrc, hwn, hh]

end TermReads

section HostKeep

abbrev wr0 : List (Ref sig .tc) :=
  [main_v0, main_v1, main_v2, main_v3, main_cst, main_v4, main_v5, main_v6, main_cst_0, main_v7, main_v8, main_v9, main_c,
   main_v10, main_v11, main_c_1, main_v12, main_v13, main_v14, main_v15, main_v16, main_v17, main_c_2, main_v18, main_v19,
   main_c_3, main_v20, main_v21, main_v22, main_v23, main_v24, main_v25, main_v26, main_v27, main_c_4, main_v28, main_v29,
   main_c_5, main_v30, main_v31, main_v32, main_v33, main_v34, main_v35, main_v36, main_v37, main_cst_6, main_v38, main_v39,
   main_v40, main_v41, main_v42, main_v43, main_v44, main_v45, main_v46, main_v47, main_v48, main_v49, main_v50, main_v51,
   main_v52, main_v53, main_v54, main_v55, main_v56, main_v57, main_v58, main_v59, main_v60, main_v61, main_v62, main_v63]

abbrev wr1 : List (Ref sig .tc) :=
  [main_cst_7, main_v65, main_cst_8, main_v66, main_v67, main_cst_9, main_v68, main_cst_10, main_v69, main_v70, main_v71,
   main_v72, main_cst_11, main_v73, main_v74, main_v75, main_v76]

abbrev wr2 : List (Ref sig .tc) :=
  [main_c_12, main_v78, main_v79, main_c_13, main_v80, main_v81, main_v82, main_v83, main_v84, main_v85, main_v86, main_v87,
   main_cst_14, main_v88, main_v89, main_v90]

abbrev wr3 : List (Ref sig .tc) :=
  [main_cst_15, main_v92, main_cst_16, main_v93, main_v94, main_cst_17, main_v95, main_cst_18, main_v96, main_v97, main_v98,
   main_v99, main_cst_19, main_v100, main_v101, main_v102, main_v103]

abbrev wr4 : List (Ref sig .tc) :=
  [main_c_20, main_v105, main_v106, main_c_21, main_v107, main_v108, main_v109, main_v110, main_v111, main_v112, main_v113,
   main_v114, main_cst_22, main_v115, main_v116, main_v117]

set_option maxHeartbeats 1600000 in
theorem host0_keep (V : Valuation τ sig (Elt Ideal)) (b : Ref sig .tc) (hb : b ∉ wr0) :
    StableHlo.after hostOps0 V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

theorem host1_keep (V : Valuation τ sig (Elt Ideal)) (b : Ref sig .tc) (hb : b ∉ wr1) :
    StableHlo.after hostOps1 V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

theorem host2_keep (V : Valuation τ sig (Elt Ideal)) (b : Ref sig .tc) (hb : b ∉ wr2) :
    StableHlo.after hostOps2 V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

theorem host3_keep (V : Valuation τ sig (Elt Ideal)) (b : Ref sig .tc) (hb : b ∉ wr3) :
    StableHlo.after hostOps3 V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

theorem host4_keep (V : Valuation τ sig (Elt Ideal)) (b : Ref sig .tc) (hb : b ∉ wr4) :
    StableHlo.after hostOps4 V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

end HostKeep

variable (m : (ℓ : Loc nD τ sig) → Buf (Elt Ideal) ℓ) (ρ : Dev nD → PrngReg) (c : Dev nD)

set_option quotPrecheck false
local notation "A0" => (m ((c.tc : Thread nD τ).loc main_arg0))
local notation "A1" => (m ((c.tc : Thread nD τ).loc main_arg1))
local notation "A2" => (m ((c.tc : Thread nD τ).loc main_arg2))
local notation "A3" => (m ((c.tc : Thread nD τ).loc main_arg3))
local notation "A4" => (m ((c.tc : Thread nD τ).loc main_arg4))
local notation "A5" => (m ((c.tc : Thread nD τ).loc main_arg5))
local notation "A6" => (m ((c.tc : Thread nD τ).loc main_arg6))
local notation "A7" => (m ((c.tc : Thread nD τ).loc main_arg7))
local notation "A8" => (m ((c.tc : Thread nD τ).loc main_arg8))
local notation "A9" => (m ((c.tc : Thread nD τ).loc main_arg9))
local notation "A10" => (m ((c.tc : Thread nD τ).loc main_arg10))
local notation "A11" => (m ((c.tc : Thread nD τ).loc main_arg11))
local notation "A12" => (m ((c.tc : Thread nD τ).loc main_arg12))

local notation "DW" => dwOf (m ((c.tc : Thread nD τ).loc main_arg12))
local notation "SRC" => srcOf (m ((c.tc : Thread nD τ).loc main_arg12))
local notation "WN" => wn (dwOf (m ((c.tc : Thread nD τ).loc main_arg12))) (srcOf (m ((c.tc : Thread nD τ).loc main_arg12))) (dstROf (m ((c.tc : Thread nD τ).loc main_arg12))) (cur1 (m ((c.tc : Thread nD τ).loc main_arg1)))
local notation "SN" => sn (dwOf (m ((c.tc : Thread nD τ).loc main_arg12))) (cur1 (m ((c.tc : Thread nD τ).loc main_arg1)))

section Carry

theorem keep3 (b : Ref sig .tc) (h : b ∉ wr1) :
    W3 (F := Ideal) m ρ c (Proc.devRef .tc b) = W2 (F := Ideal) m ρ c (Proc.devRef .tc b) := host1_keep _ b h
theorem keep5 (b : Ref sig .tc) (h : b ∉ wr2) :
    W5 (F := Ideal) m ρ c (Proc.devRef .tc b) = W4 (F := Ideal) m ρ c (Proc.devRef .tc b) := host2_keep _ b h
theorem keep7 (b : Ref sig .tc) (h : b ∉ wr3) :
    W7 (F := Ideal) m ρ c (Proc.devRef .tc b) = W6 (F := Ideal) m ρ c (Proc.devRef .tc b) := host3_keep _ b h
theorem keep9 (b : Ref sig .tc) (h : b ∉ wr4) :
    W9 (F := Ideal) m ρ c (Proc.devRef .tc b) = W8 (F := Ideal) m ρ c (Proc.devRef .tc b) := host4_keep _ b h

theorem in0_0 : W2 (F := Ideal) m ρ c (Proc.devRef .tc main_v40) = W1 (F := Ideal) m ρ c (Proc.devRef .tc main_v40) :=
  (W2_arr m ρ c 0).trans (((dat0 (V1 m ρ) c).arrAt_in 0 rfl _).trans (A_eq0 (V1 m ρ) c 0))
theorem in0_1 : W2 (F := Ideal) m ρ c (Proc.devRef .tc main_arg0) = W1 (F := Ideal) m ρ c (Proc.devRef .tc main_arg0) :=
  (W2_arr m ρ c 1).trans (((dat0 (V1 m ρ) c).arrAt_in 1 rfl _).trans (A_eq0 (V1 m ρ) c 1))
theorem in0_2 : W2 (F := Ideal) m ρ c (Proc.devRef .tc main_v27) = W1 (F := Ideal) m ρ c (Proc.devRef .tc main_v27) :=
  (W2_arr m ρ c 2).trans (((dat0 (V1 m ρ) c).arrAt_in 2 rfl _).trans (A_eq0 (V1 m ρ) c 2))
theorem in2_2 : W6 (F := Ideal) m ρ c (Proc.devRef .tc main_v27) = W5 (F := Ideal) m ρ c (Proc.devRef .tc main_v27) :=
  (W6_arr m ρ c 2).trans (((dat2 (V5 m ρ) c).arrAt_in 2 rfl _).trans (A_eq2 (V5 m ρ) c 2))
theorem in4_2 : W10 (F := Ideal) m ρ c (Proc.devRef .tc main_v27) = W9 (F := Ideal) m ρ c (Proc.devRef .tc main_v27) :=
  (W10_arr m ρ c 2).trans (((dat4 (V9 m ρ) c).arrAt_in 2 rfl _).trans (A_eq4 (V9 m ρ) c 2))

variable (b : Ref sig .tc)
  (r0 : W2 (F := Ideal) m ρ c (Proc.devRef .tc b) = W1 (F := Ideal) m ρ c (Proc.devRef .tc b)) (h1 : b ∉ wr1)
  (r1 : W4 (F := Ideal) m ρ c (Proc.devRef .tc b) = W3 (F := Ideal) m ρ c (Proc.devRef .tc b)) (h2 : b ∉ wr2)
  (r2 : W6 (F := Ideal) m ρ c (Proc.devRef .tc b) = W5 (F := Ideal) m ρ c (Proc.devRef .tc b)) (h3 : b ∉ wr3)
  (r3 : W8 (F := Ideal) m ρ c (Proc.devRef .tc b) = W7 (F := Ideal) m ρ c (Proc.devRef .tc b)) (h4 : b ∉ wr4)
  (r4 : W10 (F := Ideal) m ρ c (Proc.devRef .tc b) = W9 (F := Ideal) m ρ c (Proc.devRef .tc b))

include r0 h1 in
theorem to3 : W3 (F := Ideal) m ρ c (Proc.devRef .tc b) = W1 (F := Ideal) m ρ c (Proc.devRef .tc b) :=
  (keep3 m ρ c b h1).trans r0
include r0 h1 r1 in
theorem to4 : W4 (F := Ideal) m ρ c (Proc.devRef .tc b) = W1 (F := Ideal) m ρ c (Proc.devRef .tc b) :=
  r1.trans (to3 m ρ c b r0 h1)
include r0 h1 r1 h2 in
theorem to5 : W5 (F := Ideal) m ρ c (Proc.devRef .tc b) = W1 (F := Ideal) m ρ c (Proc.devRef .tc b) :=
  (keep5 m ρ c b h2).trans (to4 m ρ c b r0 h1 r1)
include r0 h1 r1 h2 r2 in
theorem to6 : W6 (F := Ideal) m ρ c (Proc.devRef .tc b) = W1 (F := Ideal) m ρ c (Proc.devRef .tc b) :=
  r2.trans (to5 m ρ c b r0 h1 r1 h2)
include r0 h1 r1 h2 r2 h3 in
theorem to7 : W7 (F := Ideal) m ρ c (Proc.devRef .tc b) = W1 (F := Ideal) m ρ c (Proc.devRef .tc b) :=
  (keep7 m ρ c b h3).trans (to6 m ρ c b r0 h1 r1 h2 r2)
include r0 h1 r1 h2 r2 h3 r3 in
theorem to8 : W8 (F := Ideal) m ρ c (Proc.devRef .tc b) = W1 (F := Ideal) m ρ c (Proc.devRef .tc b) :=
  r3.trans (to7 m ρ c b r0 h1 r1 h2 r2 h3)
include r0 h1 r1 h2 r2 h3 r3 h4 in
theorem to9 : W9 (F := Ideal) m ρ c (Proc.devRef .tc b) = W1 (F := Ideal) m ρ c (Proc.devRef .tc b) :=
  (keep9 m ρ c b h4).trans (to8 m ρ c b r0 h1 r1 h2 r2 h3 r3)
include r0 h1 r1 h2 r2 h3 r3 h4 r4 in
theorem to10 : W10 (F := Ideal) m ρ c (Proc.devRef .tc b) = W1 (F := Ideal) m ρ c (Proc.devRef .tc b) :=
  r4.trans (to9 m ρ c b r0 h1 r1 h2 r2 h3 r3 h4)

end Carry

structure Plain (b : Ref sig .tc) : Prop where
  n0 : ∀ w, Pipeline.arrRef spec0 w ≠ b
  h1 : b ∉ wr1
  n1 : ∀ w, Pipeline.arrRef spec1 w ≠ b
  h2 : b ∉ wr2
  n2 : ∀ w, Pipeline.arrRef spec2 w ≠ b
  h3 : b ∉ wr3
  n3 : ∀ w, Pipeline.arrRef spec3 w ≠ b
  h4 : b ∉ wr4
  n4 : ∀ w, Pipeline.arrRef spec4 w ≠ b

section PlainCarry
variable {b : Ref sig .tc} (p : Plain b)
include p

theorem Plain.at4 : W4 (F := Ideal) m ρ c (Proc.devRef .tc b) = W1 (F := Ideal) m ρ c (Proc.devRef .tc b) :=
  to4 m ρ c b (W2_of_ne m ρ c b p.n0) p.h1 (W4_of_ne m ρ c b p.n1)
theorem Plain.at6 : W6 (F := Ideal) m ρ c (Proc.devRef .tc b) = W1 (F := Ideal) m ρ c (Proc.devRef .tc b) :=
  to6 m ρ c b (W2_of_ne m ρ c b p.n0) p.h1 (W4_of_ne m ρ c b p.n1) p.h2 (W6_of_ne m ρ c b p.n2)
theorem Plain.at8 : W8 (F := Ideal) m ρ c (Proc.devRef .tc b) = W1 (F := Ideal) m ρ c (Proc.devRef .tc b) :=
  to8 m ρ c b (W2_of_ne m ρ c b p.n0) p.h1 (W4_of_ne m ρ c b p.n1) p.h2 (W6_of_ne m ρ c b p.n2) p.h3 (W8_of_ne m ρ c b p.n3)
theorem Plain.at10 : W10 (F := Ideal) m ρ c (Proc.devRef .tc b) = W1 (F := Ideal) m ρ c (Proc.devRef .tc b) :=
  to10 m ρ c b (W2_of_ne m ρ c b p.n0) p.h1 (W4_of_ne m ρ c b p.n1) p.h2 (W6_of_ne m ρ c b p.n2) p.h3 (W8_of_ne m ρ c b p.n3)
    p.h4 (W10_of_ne m ρ c b p.n4)

end PlainCarry

theorem plain_v1 : Plain main_v1 := ⟨by decide, by decide, by decide, by decide, by decide, by decide, by decide, by decide, by decide⟩
theorem plain_v3 : Plain main_v3 := ⟨by decide, by decide, by decide, by decide, by decide, by decide, by decide, by decide, by decide⟩
theorem plain_v25 : Plain main_v25 := ⟨by decide, by decide, by decide, by decide, by decide, by decide, by decide, by decide, by decide⟩
theorem plain_arg1 : Plain main_arg1 := ⟨by decide, by decide, by decide, by decide, by decide, by decide, by decide, by decide, by decide⟩
theorem plain_arg2 : Plain main_arg2 := ⟨by decide, by decide, by decide, by decide, by decide, by decide, by decide, by decide, by decide⟩
theorem plain_arg3 : Plain main_arg3 := ⟨by decide, by decide, by decide, by decide, by decide, by decide, by decide, by decide, by decide⟩
theorem plain_arg4 : Plain main_arg4 := ⟨by decide, by decide, by decide, by decide, by decide, by decide, by decide, by decide, by decide⟩
theorem plain_arg5 : Plain main_arg5 := ⟨by decide, by decide, by decide, by decide, by decide, by decide, by decide, by decide, by decide⟩
theorem plain_arg6 : Plain main_arg6 := ⟨by decide, by decide, by decide, by decide, by decide, by decide, by decide, by decide, by decide⟩
theorem plain_arg7 : Plain main_arg7 := ⟨by decide, by decide, by decide, by decide, by decide, by decide, by decide, by decide, by decide⟩
theorem plain_arg8 : Plain main_arg8 := ⟨by decide, by decide, by decide, by decide, by decide, by decide, by decide, by decide, by decide⟩
theorem plain_arg9 : Plain main_arg9 := ⟨by decide, by decide, by decide, by decide, by decide, by decide, by decide, by decide, by decide⟩
theorem plain_arg10 : Plain main_arg10 := ⟨by decide, by decide, by decide, by decide, by decide, by decide, by decide, by decide, by decide⟩
theorem plain_arg11 : Plain main_arg11 := ⟨by decide, by decide, by decide, by decide, by decide, by decide, by decide, by decide, by decide⟩
theorem plain_arg12 : Plain main_arg12 := ⟨by decide, by decide, by decide, by decide, by decide, by decide, by decide, by decide, by decide⟩

section Stretch0

set_option maxHeartbeats 1600000 in
theorem W1_v1 : W1 (F := Ideal) m ρ c (Proc.devRef .tc main_v1) = srcWords A12 := by
  show StableHlo.after hostOps0 _ (Proc.devRef .tc main_v1) = _
  after_results_simp; rfl

set_option maxHeartbeats 1600000 in
theorem W1_v3 : W1 (F := Ideal) m ρ c (Proc.devRef .tc main_v3) = dstWords A12 := by
  show StableHlo.after hostOps0 _ (Proc.devRef .tc main_v3) = _
  after_results_simp; rfl

set_option maxHeartbeats 1600000 in
theorem W1_v25 : W1 (F := Ideal) m ρ c (Proc.devRef .tc main_v25) = wnT A12 A1 := by
  show StableHlo.after hostOps0 _ (Proc.devRef .tc main_v25) = _
  after_results_simp; rfl

set_option maxHeartbeats 1600000 in
theorem W1_v27 : W1 (F := Ideal) m ρ c (Proc.devRef .tc main_v27) = snT A12 A1 := by
  show StableHlo.after hostOps0 _ (Proc.devRef .tc main_v27) = _
  after_results_simp; rfl

set_option maxHeartbeats 1600000 in
theorem W1_v40 : W1 (F := Ideal) m ρ c (Proc.devRef .tc main_v40)
    = aggT128 (wnT A12 A1) (srcWords A12) (dstWords A12) A0 := by
  show StableHlo.after hostOps0 _ (Proc.devRef .tc main_v40) = _
  after_results_simp; rfl

set_option maxHeartbeats 1600000 in
theorem W1_v43 : W1 (F := Ideal) m ρ c (Proc.devRef .tc main_v43) = rowT128 A3 := by
  show StableHlo.after hostOps0 _ (Proc.devRef .tc main_v43) = _
  after_results_simp; rfl

set_option maxHeartbeats 1600000 in
theorem W1_v46 : W1 (F := Ideal) m ρ c (Proc.devRef .tc main_v46) = rowT128 A4 := by
  show StableHlo.after hostOps0 _ (Proc.devRef .tc main_v46) = _
  after_results_simp; rfl

set_option maxHeartbeats 1600000 in
theorem W1_v49 : W1 (F := Ideal) m ρ c (Proc.devRef .tc main_v49) = rowT128 A5 := by
  show StableHlo.after hostOps0 _ (Proc.devRef .tc main_v49) = _
  after_results_simp; rfl

set_option maxHeartbeats 1600000 in
theorem W1_v52 : W1 (F := Ideal) m ρ c (Proc.devRef .tc main_v52) = rowT128 A7 := by
  show StableHlo.after hostOps0 _ (Proc.devRef .tc main_v52) = _
  after_results_simp; rfl

set_option maxHeartbeats 1600000 in
theorem W1_v55 : W1 (F := Ideal) m ρ c (Proc.devRef .tc main_v55) = rowT128 A8 := by
  show StableHlo.after hostOps0 _ (Proc.devRef .tc main_v55) = _
  after_results_simp; rfl

set_option maxHeartbeats 1600000 in
theorem W1_v58 : W1 (F := Ideal) m ρ c (Proc.devRef .tc main_v58) = rowT128 A9 := by
  show StableHlo.after hostOps0 _ (Proc.devRef .tc main_v58) = _
  after_results_simp; rfl

set_option maxHeartbeats 1600000 in
theorem W1_v61 : W1 (F := Ideal) m ρ c (Proc.devRef .tc main_v61) = rowT40 A11 := by
  show StableHlo.after hostOps0 _ (Proc.devRef .tc main_v61) = _
  after_results_simp; rfl

set_option maxHeartbeats 1600000 in
theorem W1_v63 : W1 (F := Ideal) m ρ c (Proc.devRef .tc main_v63) = slabT128 A2 := by
  show StableHlo.after hostOps0 _ (Proc.devRef .tc main_v63) = _
  after_results_simp; rfl

theorem arg0_W1 : W1 (F := Ideal) m ρ c (Proc.devRef .tc main_arg0) = A0 := host0_keep _ main_arg0 (by decide)
theorem arg1_W1 : W1 (F := Ideal) m ρ c (Proc.devRef .tc main_arg1) = A1 := host0_keep _ main_arg1 (by decide)
theorem arg2_W1 : W1 (F := Ideal) m ρ c (Proc.devRef .tc main_arg2) = A2 := host0_keep _ main_arg2 (by decide)
theorem arg3_W1 : W1 (F := Ideal) m ρ c (Proc.devRef .tc main_arg3) = A3 := host0_keep _ main_arg3 (by decide)
theorem arg4_W1 : W1 (F := Ideal) m ρ c (Proc.devRef .tc main_arg4) = A4 := host0_keep _ main_arg4 (by decide)
theorem arg5_W1 : W1 (F := Ideal) m ρ c (Proc.devRef .tc main_arg5) = A5 := host0_keep _ main_arg5 (by decide)
theorem arg6_W1 : W1 (F := Ideal) m ρ c (Proc.devRef .tc main_arg6) = A6 := host0_keep _ main_arg6 (by decide)
theorem arg7_W1 : W1 (F := Ideal) m ρ c (Proc.devRef .tc main_arg7) = A7 := host0_keep _ main_arg7 (by decide)
theorem arg8_W1 : W1 (F := Ideal) m ρ c (Proc.devRef .tc main_arg8) = A8 := host0_keep _ main_arg8 (by decide)
theorem arg9_W1 : W1 (F := Ideal) m ρ c (Proc.devRef .tc main_arg9) = A9 := host0_keep _ main_arg9 (by decide)
theorem arg10_W1 : W1 (F := Ideal) m ρ c (Proc.devRef .tc main_arg10) = A10 := host0_keep _ main_arg10 (by decide)
theorem arg11_W1 : W1 (F := Ideal) m ρ c (Proc.devRef .tc main_arg11) = A11 := host0_keep _ main_arg11 (by decide)
theorem arg12_W1 : W1 (F := Ideal) m ρ c (Proc.devRef .tc main_arg12) = A12 := host0_keep _ main_arg12 (by decide)

theorem v3_apply (e : Fin EE) : W1 (F := Ideal) m ρ c (Proc.devRef .tc main_v3) (ix1 e) = dwOf A12 e := by
  show _ = A12 (ix2 1 e)
  rw [W1_v3, dstWords_apply]

theorem v1_apply (e : Fin EE) : W1 (F := Ideal) m ρ c (Proc.devRef .tc main_v1) (ix1 e) = A12 (ix2 0 e) := by
  rw [W1_v1, srcWords_apply]

theorem v25_apply (e : Fin EE) : W1 (F := Ideal) m ρ c (Proc.devRef .tc main_v25) (ix1 e)
    = wn (dwOf A12) (srcOf A12) (dstROf A12) (cur1 A1) e := by
  rw [W1_v25]; exact wnT_apply _ _ e

theorem v27_apply (i : Fin NN) : W1 (F := Ideal) m ρ c (Proc.devRef .tc main_v27) (ix2 i 0) = sn (dwOf A12) (cur1 A1) i := by
  rw [W1_v27]; exact snT_apply _ _ i

theorem v40_apply (i : Fin NN) (k : Fin 128) : W1 (F := Ideal) m ρ c (Proc.devRef .tc main_v40) (ix2 i k)
    = agg (dwOf A12) (srcOf A12) (wn (dwOf A12) (srcOf A12) (dstROf A12) (cur1 A1)) (cur2 A0) i k := by
  rw [W1_v40, aggT128_apply]
  exact agg_eq_of DW SRC WN (cur2 A0) (dstWords A12) (srcWords A12) (wnT A12 A1) A0 (fun e => dstWords_apply _ e)
    (fun e => by rw [srcWords_apply]; rfl) (fun e => wnT_apply _ _ e) (fun _ _ => rfl) i k

theorem v43_apply (j : Fin 128) : W1 (F := Ideal) m ρ c (Proc.devRef .tc main_v43) (ix2 0 j) = row A3 0 j := by
  rw [W1_v43]; exact rowT128_apply _ j
theorem v46_apply (j : Fin 128) : W1 (F := Ideal) m ρ c (Proc.devRef .tc main_v46) (ix2 0 j) = row A4 0 j := by
  rw [W1_v46]; exact rowT128_apply _ j
theorem v49_apply (j : Fin 128) : W1 (F := Ideal) m ρ c (Proc.devRef .tc main_v49) (ix2 0 j) = row A5 0 j := by
  rw [W1_v49]; exact rowT128_apply _ j
theorem v52_apply (j : Fin 128) : W1 (F := Ideal) m ρ c (Proc.devRef .tc main_v52) (ix2 0 j) = row A7 0 j := by
  rw [W1_v52]; exact rowT128_apply _ j
theorem v55_apply (j : Fin 128) : W1 (F := Ideal) m ρ c (Proc.devRef .tc main_v55) (ix2 0 j) = row A8 0 j := by
  rw [W1_v55]; exact rowT128_apply _ j
theorem v58_apply (j : Fin 128) : W1 (F := Ideal) m ρ c (Proc.devRef .tc main_v58) (ix2 0 j) = row A9 0 j := by
  rw [W1_v58]; exact rowT128_apply _ j
theorem v61_apply (j : Fin 40) : W1 (F := Ideal) m ρ c (Proc.devRef .tc main_v61) (ix2 0 j) = row A11 0 j := by
  rw [W1_v61]; exact rowT40_apply _ j
theorem v63_apply (k j : Fin 128) : W1 (F := Ideal) m ρ c (Proc.devRef .tc main_v63) (ix2 k j) = slab A2 0 k j := by
  rw [W1_v63]; exact slabT128_apply _ k j

end Stretch0

section Tower

def c1 : Fin NN → Fin 128 → EReal := fused SN (agg DW SRC WN (cur2 A0)) (cur2 A0) (slab A2 0) (row A3 0)

def h2 : Fin NN → Fin 128 → EReal :=
  mm (bnRelu epsLit (c1 m c) (meanB nLit (c1 m c)) (varB nLit (c1 m c)) (row A4 0) (row A5 0)) (slab A6 0)

def c2 : Fin NN → Fin 128 → EReal := comb SN (agg DW SRC WN (h2 m c)) (h2 m c) (row A7 0)

def h3 : Fin NN → Fin 40 → EReal :=
  mm (bnRelu epsLit (c2 m c) (meanB nLit (c2 m c)) (varB nLit (c2 m c)) (row A8 0) (row A9 0)) (slab A10 0)

theorem reg0_c0 : Reg0.c0 (V1 m ρ) c = c1 m c :=
  fused_congr (fun i => v27_apply m ρ c i) (fun i k => v40_apply m ρ c i k) (fun i k => congrFun (arg0_W1 m ρ c) (ix2 i k))
    (fun k j => v63_apply m ρ c k j) (fun j => v43_apply m ρ c j)

theorem W2_v64_0 (i : Fin NN) (j : Fin 128) :
    W2 (F := Ideal) m ρ c (Proc.devRef .tc main_v64_0) (ix2 i j) = c1 m c i j :=
  (congrFun (W2_arr m ρ c 5) (ix2 i j)).trans ((Reg0.out_c (V1 m ρ) c i j).trans (congrFun (congrFun (reg0_c0 m ρ c) i) j))

theorem W2_v64_1 (b : Fin 20) (j : Fin 128) :
    W2 (F := Ideal) m ρ c (Proc.devRef .tc main_v64_1) (ix3 b 0 j) = blkSum (c1 m c) b j :=
  (congrFun (W2_arr m ρ c 6) (ix3 b 0 j)).trans ((Reg0.out_sum (V1 m ρ) c b j).trans (by rw [reg0_c0]))

theorem W2_v64_2 (b : Fin 20) (j : Fin 128) :
    W2 (F := Ideal) m ρ c (Proc.devRef .tc main_v64_2) (ix3 b 0 j) = blkSq (c1 m c) b j :=
  (congrFun (W2_arr m ρ c 7) (ix3 b 0 j)).trans ((Reg0.out_sq (V1 m ρ) c b j).trans (by rw [reg0_c0]))

set_option maxHeartbeats 1600000 in
theorem W3_v67_eq : W3 (F := Ideal) m ρ c (Proc.devRef .tc main_v67)
    = meanT (W2 (F := Ideal) m ρ c (Proc.devRef .tc main_v64_1)) := by
  show StableHlo.after hostOps1 _ (Proc.devRef .tc main_v67) = _
  after_results_simp; rfl

set_option maxHeartbeats 1600000 in
theorem W3_v74_eq : W3 (F := Ideal) m ρ c (Proc.devRef .tc main_v74)
    = varT (W2 (F := Ideal) m ρ c (Proc.devRef .tc main_v64_1)) (W2 (F := Ideal) m ρ c (Proc.devRef .tc main_v64_2)) := by
  show StableHlo.after hostOps1 _ (Proc.devRef .tc main_v74) = _
  after_results_simp; rfl

set_option maxHeartbeats 1600000 in
theorem W3_v76_eq : W3 (F := Ideal) m ρ c (Proc.devRef .tc main_v76)
    = slabT128 (W2 (F := Ideal) m ρ c (Proc.devRef .tc main_arg6)) := by
  show StableHlo.after hostOps1 _ (Proc.devRef .tc main_v76) = _
  after_results_simp; rfl

theorem W3_v67 (j : Fin 128) : W3 (F := Ideal) m ρ c (Proc.devRef .tc main_v67) (ix2 0 j) = meanB nLit (c1 m c) j := by
  rw [W3_v67_eq]; exact meanT_eq _ _ (W2_v64_1 m ρ c) j

theorem W3_v74 (j : Fin 128) : W3 (F := Ideal) m ρ c (Proc.devRef .tc main_v74) (ix2 0 j) = varB nLit (c1 m c) j := by
  rw [W3_v74_eq]; exact varT_eq _ _ _ (W2_v64_1 m ρ c) (W2_v64_2 m ρ c) j

theorem W3_v76 (k j : Fin 128) : W3 (F := Ideal) m ρ c (Proc.devRef .tc main_v76) (ix2 k j) = slab A6 0 k j := by
  rw [W3_v76_eq, slabT128_apply, W2_of_ne m ρ c main_arg6 (by decide), arg6_W1]

theorem W3_v64_0 (i : Fin NN) (j : Fin 128) :
    W3 (F := Ideal) m ρ c (Proc.devRef .tc main_v64_0) (ix2 i j) = c1 m c i j := by
  rw [keep3 m ρ c main_v64_0 (by decide)]; exact W2_v64_0 m ρ c i j

theorem W3_v46 (j : Fin 128) : W3 (F := Ideal) m ρ c (Proc.devRef .tc main_v46) (ix2 0 j) = row A4 0 j := by
  rw [to3 m ρ c main_v46 (W2_of_ne m ρ c main_v46 (by decide)) (by decide)]; exact v46_apply m ρ c j

theorem W3_v49 (j : Fin 128) : W3 (F := Ideal) m ρ c (Proc.devRef .tc main_v49) (ix2 0 j) = row A5 0 j := by
  rw [to3 m ρ c main_v49 (W2_of_ne m ρ c main_v49 (by decide)) (by decide)]; exact v49_apply m ρ c j

theorem W4_v77 (i : Fin NN) (j : Fin 128) : W4 (F := Ideal) m ρ c (Proc.devRef .tc main_v77) (ix2 i j) = h2 m c i j :=
  (congrFun (W4_arr m ρ c 6) (ix2 i j)).trans ((Reg1.out_h (V3 m ρ) c i j).trans
    (congrFun (congrFun (mm_bn_congr (fun i k => W3_v64_0 m ρ c i k) (fun k => W3_v67 m ρ c k) (fun k => W3_v74 m ρ c k)
      (fun k => W3_v46 m ρ c k) (fun k => W3_v49 m ρ c k) (fun k j => W3_v76 m ρ c k j)) i) j))

theorem W4_v1 (e : Fin EE) : W4 (F := Ideal) m ρ c (Proc.devRef .tc main_v1) (ix1 e) = A12 (ix2 0 e) := by
  rw [plain_v1.at4 m ρ c]; exact v1_apply m ρ c e
theorem W4_v3 (e : Fin EE) : W4 (F := Ideal) m ρ c (Proc.devRef .tc main_v3) (ix1 e) = A12 (ix2 1 e) := by
  rw [plain_v3.at4 m ρ c]; exact v3_apply m ρ c e
theorem W4_v25 (e : Fin EE) : W4 (F := Ideal) m ρ c (Proc.devRef .tc main_v25) (ix1 e) = WN e := by
  rw [plain_v25.at4 m ρ c]; exact v25_apply m ρ c e

set_option maxHeartbeats 1600000 in
theorem W5_v90_eq : W5 (F := Ideal) m ρ c (Proc.devRef .tc main_v90)
    = aggT128 (W4 (F := Ideal) m ρ c (Proc.devRef .tc main_v25)) (W4 (F := Ideal) m ρ c (Proc.devRef .tc main_v1))
        (W4 (F := Ideal) m ρ c (Proc.devRef .tc main_v3)) (W4 (F := Ideal) m ρ c (Proc.devRef .tc main_v77)) := by
  show StableHlo.after hostOps2 _ (Proc.devRef .tc main_v90) = _
  after_results_simp; rfl

theorem W5_v90 (i : Fin NN) (k : Fin 128) :
    W5 (F := Ideal) m ρ c (Proc.devRef .tc main_v90) (ix2 i k) = agg DW SRC WN (h2 m c) i k := by
  rw [W5_v90_eq, aggT128_apply]
  exact agg_eq_of DW SRC WN (h2 m c) _ _ _ _ (fun e => W4_v3 m ρ c e) (fun e => by rw [W4_v1]; rfl) (fun e => W4_v25 m ρ c e)
    (fun i k => W4_v77 m ρ c i k) i k

theorem W5_v27 (i : Fin NN) : W5 (F := Ideal) m ρ c (Proc.devRef .tc main_v27) (ix2 i 0) = SN i := by
  rw [to5 m ρ c main_v27 (in0_2 m ρ c) (by decide) (W4_of_ne m ρ c main_v27 (by decide)) (by decide)]; exact v27_apply m ρ c i

theorem W5_v77 (i : Fin NN) (j : Fin 128) : W5 (F := Ideal) m ρ c (Proc.devRef .tc main_v77) (ix2 i j) = h2 m c i j := by
  rw [keep5 m ρ c main_v77 (by decide)]; exact W4_v77 m ρ c i j

theorem W5_v52 (j : Fin 128) : W5 (F := Ideal) m ρ c (Proc.devRef .tc main_v52) (ix2 0 j) = row A7 0 j := by
  rw [to5 m ρ c main_v52 (W2_of_ne m ρ c main_v52 (by decide)) (by decide) (W4_of_ne m ρ c main_v52 (by decide)) (by decide)]
  exact v52_apply m ρ c j

theorem reg2_c2 : Reg2.c2 (V5 m ρ) c = c2 m c :=
  comb_congr (fun i => W5_v27 m ρ c i) (fun i k => W5_v90 m ρ c i k) (fun i k => W5_v77 m ρ c i k) (fun j => W5_v52 m ρ c j)

theorem W6_v91_0 (i : Fin NN) (j : Fin 128) :
    W6 (F := Ideal) m ρ c (Proc.devRef .tc main_v91_0) (ix2 i j) = c2 m c i j :=
  (congrFun (W6_arr m ρ c 4) (ix2 i j)).trans ((Reg2.out_c (V5 m ρ) c i j).trans (congrFun (congrFun (reg2_c2 m ρ c) i) j))

theorem W6_v91_1 (b : Fin 20) (j : Fin 128) :
    W6 (F := Ideal) m ρ c (Proc.devRef .tc main_v91_1) (ix3 b 0 j) = blkSum (c2 m c) b j :=
  (congrFun (W6_arr m ρ c 5) (ix3 b 0 j)).trans ((Reg2.out_sum (V5 m ρ) c b j).trans (by rw [reg2_c2]))

theorem W6_v91_2 (b : Fin 20) (j : Fin 128) :
    W6 (F := Ideal) m ρ c (Proc.devRef .tc main_v91_2) (ix3 b 0 j) = blkSq (c2 m c) b j :=
  (congrFun (W6_arr m ρ c 6) (ix3 b 0 j)).trans ((Reg2.out_sq (V5 m ρ) c b j).trans (by rw [reg2_c2]))

set_option maxHeartbeats 1600000 in
theorem W7_v94_eq : W7 (F := Ideal) m ρ c (Proc.devRef .tc main_v94)
    = meanT (W6 (F := Ideal) m ρ c (Proc.devRef .tc main_v91_1)) := by
  show StableHlo.after hostOps3 _ (Proc.devRef .tc main_v94) = _
  after_results_simp; rfl

set_option maxHeartbeats 1600000 in
theorem W7_v101_eq : W7 (F := Ideal) m ρ c (Proc.devRef .tc main_v101)
    = varT (W6 (F := Ideal) m ρ c (Proc.devRef .tc main_v91_1)) (W6 (F := Ideal) m ρ c (Proc.devRef .tc main_v91_2)) := by
  show StableHlo.after hostOps3 _ (Proc.devRef .tc main_v101) = _
  after_results_simp; rfl

set_option maxHeartbeats 1600000 in
theorem W7_v103_eq : W7 (F := Ideal) m ρ c (Proc.devRef .tc main_v103)
    = slabT40 (W6 (F := Ideal) m ρ c (Proc.devRef .tc main_arg10)) := by
  show StableHlo.after hostOps3 _ (Proc.devRef .tc main_v103) = _
  after_results_simp; rfl

theorem W7_v94 (j : Fin 128) : W7 (F := Ideal) m ρ c (Proc.devRef .tc main_v94) (ix2 0 j) = meanB nLit (c2 m c) j := by
  rw [W7_v94_eq]; exact meanT_eq _ _ (W6_v91_1 m ρ c) j

theorem W7_v101 (j : Fin 128) : W7 (F := Ideal) m ρ c (Proc.devRef .tc main_v101) (ix2 0 j) = varB nLit (c2 m c) j := by
  rw [W7_v101_eq]; exact varT_eq _ _ _ (W6_v91_1 m ρ c) (W6_v91_2 m ρ c) j

theorem W7_v103 (k : Fin 128) (j : Fin 40) : W7 (F := Ideal) m ρ c (Proc.devRef .tc main_v103) (ix2 k j) = slab A10 0 k j := by
  rw [W7_v103_eq, slabT40_apply, plain_arg10.at6 m ρ c, arg10_W1]

theorem W7_v91_0 (i : Fin NN) (j : Fin 128) :
    W7 (F := Ideal) m ρ c (Proc.devRef .tc main_v91_0) (ix2 i j) = c2 m c i j := by
  rw [keep7 m ρ c main_v91_0 (by decide)]; exact W6_v91_0 m ρ c i j

theorem W7_v55 (j : Fin 128) : W7 (F := Ideal) m ρ c (Proc.devRef .tc main_v55) (ix2 0 j) = row A8 0 j := by
  rw [to7 m ρ c main_v55 (W2_of_ne m ρ c main_v55 (by decide)) (by decide) (W4_of_ne m ρ c main_v55 (by decide)) (by decide)
    (W6_of_ne m ρ c main_v55 (by decide)) (by decide)]
  exact v55_apply m ρ c j

theorem W7_v58 (j : Fin 128) : W7 (F := Ideal) m ρ c (Proc.devRef .tc main_v58) (ix2 0 j) = row A9 0 j := by
  rw [to7 m ρ c main_v58 (W2_of_ne m ρ c main_v58 (by decide)) (by decide) (W4_of_ne m ρ c main_v58 (by decide)) (by decide)
    (W6_of_ne m ρ c main_v58 (by decide)) (by decide)]
  exact v58_apply m ρ c j

theorem W8_v104 (i : Fin NN) (j : Fin 40) : W8 (F := Ideal) m ρ c (Proc.devRef .tc main_v104) (ix2 i j) = h3 m c i j :=
  (congrFun (W8_arr m ρ c 6) (ix2 i j)).trans ((Reg3.out_h (V7 m ρ) c i j).trans
    (congrFun (congrFun (mm_bn_congr (fun i k => W7_v91_0 m ρ c i k) (fun k => W7_v94 m ρ c k) (fun k => W7_v101 m ρ c k)
      (fun k => W7_v55 m ρ c k) (fun k => W7_v58 m ρ c k) (fun k j => W7_v103 m ρ c k j)) i) j))

theorem W8_v1 (e : Fin EE) : W8 (F := Ideal) m ρ c (Proc.devRef .tc main_v1) (ix1 e) = A12 (ix2 0 e) := by
  rw [plain_v1.at8 m ρ c]; exact v1_apply m ρ c e
theorem W8_v3 (e : Fin EE) : W8 (F := Ideal) m ρ c (Proc.devRef .tc main_v3) (ix1 e) = A12 (ix2 1 e) := by
  rw [plain_v3.at8 m ρ c]; exact v3_apply m ρ c e
theorem W8_v25 (e : Fin EE) : W8 (F := Ideal) m ρ c (Proc.devRef .tc main_v25) (ix1 e) = WN e := by
  rw [plain_v25.at8 m ρ c]; exact v25_apply m ρ c e

set_option maxHeartbeats 1600000 in
theorem W9_v117_eq : W9 (F := Ideal) m ρ c (Proc.devRef .tc main_v117)
    = aggT40 (W8 (F := Ideal) m ρ c (Proc.devRef .tc main_v25)) (W8 (F := Ideal) m ρ c (Proc.devRef .tc main_v1))
        (W8 (F := Ideal) m ρ c (Proc.devRef .tc main_v3)) (W8 (F := Ideal) m ρ c (Proc.devRef .tc main_v104)) := by
  show StableHlo.after hostOps4 _ (Proc.devRef .tc main_v117) = _
  after_results_simp; rfl

theorem W9_v117 (i : Fin NN) (k : Fin 40) :
    W9 (F := Ideal) m ρ c (Proc.devRef .tc main_v117) (ix2 i k) = agg DW SRC WN (h3 m c) i k := by
  rw [W9_v117_eq, aggT40_apply]
  exact agg_eq_of DW SRC WN (h3 m c) _ _ _ _ (fun e => W8_v3 m ρ c e) (fun e => by rw [W8_v1]; rfl) (fun e => W8_v25 m ρ c e)
    (fun i k => W8_v104 m ρ c i k) i k

theorem W9_v27 (i : Fin NN) : W9 (F := Ideal) m ρ c (Proc.devRef .tc main_v27) (ix2 i 0) = SN i := by
  rw [to9 m ρ c main_v27 (in0_2 m ρ c) (by decide) (W4_of_ne m ρ c main_v27 (by decide)) (by decide) (in2_2 m ρ c) (by decide)
    (W8_of_ne m ρ c main_v27 (by decide)) (by decide)]
  exact v27_apply m ρ c i

theorem W9_v104 (i : Fin NN) (j : Fin 40) : W9 (F := Ideal) m ρ c (Proc.devRef .tc main_v104) (ix2 i j) = h3 m c i j := by
  rw [keep9 m ρ c main_v104 (by decide)]; exact W8_v104 m ρ c i j

theorem W9_v61 (j : Fin 40) : W9 (F := Ideal) m ρ c (Proc.devRef .tc main_v61) (ix2 0 j) = row A11 0 j := by
  rw [to9 m ρ c main_v61 (W2_of_ne m ρ c main_v61 (by decide)) (by decide) (W4_of_ne m ρ c main_v61 (by decide)) (by decide)
    (W6_of_ne m ρ c main_v61 (by decide)) (by decide) (W8_of_ne m ρ c main_v61 (by decide)) (by decide)]
  exact v61_apply m ρ c j

theorem out0 (i : Fin NN) (j : Fin 40) : W10 (F := Ideal) m ρ c (Proc.devRef .tc main_v118_0) (ix2 i j)
    = outK A0 A1 A2 A3 A4 A5 A6 A7 A8 A9 A10 A11 A12 0 i j := by
  show _ = comb SN (agg DW SRC WN (h3 m c)) (h3 m c) (row A11 0) i j
  exact (congrFun (W10_arr m ρ c 4) (ix2 i j)).trans ((Reg4.out_c (V9 m ρ) c i j).trans
    (congrFun (congrFun (comb_congr (fun i => W9_v27 m ρ c i) (fun i k => W9_v117 m ρ c i k) (fun i k => W9_v104 m ρ c i k)
      (fun j => W9_v61 m ρ c j)) i) j))

end Tower

section Keep

theorem keep_v1 : W10 (F := Ideal) m ρ c (Proc.devRef .tc main_v1) = W1 (F := Ideal) m ρ c (Proc.devRef .tc main_v1) := plain_v1.at10 m ρ c
theorem keep_v3 : W10 (F := Ideal) m ρ c (Proc.devRef .tc main_v3) = W1 (F := Ideal) m ρ c (Proc.devRef .tc main_v3) := plain_v3.at10 m ρ c
theorem keep_v25 : W10 (F := Ideal) m ρ c (Proc.devRef .tc main_v25) = W1 (F := Ideal) m ρ c (Proc.devRef .tc main_v25) := plain_v25.at10 m ρ c
theorem keep_v27 : W10 (F := Ideal) m ρ c (Proc.devRef .tc main_v27) = W1 (F := Ideal) m ρ c (Proc.devRef .tc main_v27) :=
  to10 m ρ c main_v27 (in0_2 m ρ c) (by decide) (W4_of_ne m ρ c main_v27 (by decide)) (by decide) (in2_2 m ρ c) (by decide)
    (W8_of_ne m ρ c main_v27 (by decide)) (by decide) (in4_2 m ρ c)
theorem keep_v40 : W10 (F := Ideal) m ρ c (Proc.devRef .tc main_v40) = W1 (F := Ideal) m ρ c (Proc.devRef .tc main_v40) :=
  to10 m ρ c main_v40 (in0_0 m ρ c) (by decide) (W4_of_ne m ρ c main_v40 (by decide)) (by decide) (W6_of_ne m ρ c main_v40 (by decide))
    (by decide) (W8_of_ne m ρ c main_v40 (by decide)) (by decide) (W10_of_ne m ρ c main_v40 (by decide))
theorem keep_arg0 : W10 (F := Ideal) m ρ c (Proc.devRef .tc main_arg0) = W1 (F := Ideal) m ρ c (Proc.devRef .tc main_arg0) :=
  to10 m ρ c main_arg0 (in0_1 m ρ c) (by decide) (W4_of_ne m ρ c main_arg0 (by decide)) (by decide) (W6_of_ne m ρ c main_arg0 (by decide))
    (by decide) (W8_of_ne m ρ c main_arg0 (by decide)) (by decide) (W10_of_ne m ρ c main_arg0 (by decide))

theorem keep_arg1 : W10 (F := Ideal) m ρ c (Proc.devRef .tc main_arg1) = W1 (F := Ideal) m ρ c (Proc.devRef .tc main_arg1) := plain_arg1.at10 m ρ c
theorem keep_arg2 : W10 (F := Ideal) m ρ c (Proc.devRef .tc main_arg2) = W1 (F := Ideal) m ρ c (Proc.devRef .tc main_arg2) := plain_arg2.at10 m ρ c
theorem keep_arg3 : W10 (F := Ideal) m ρ c (Proc.devRef .tc main_arg3) = W1 (F := Ideal) m ρ c (Proc.devRef .tc main_arg3) := plain_arg3.at10 m ρ c
theorem keep_arg4 : W10 (F := Ideal) m ρ c (Proc.devRef .tc main_arg4) = W1 (F := Ideal) m ρ c (Proc.devRef .tc main_arg4) := plain_arg4.at10 m ρ c
theorem keep_arg5 : W10 (F := Ideal) m ρ c (Proc.devRef .tc main_arg5) = W1 (F := Ideal) m ρ c (Proc.devRef .tc main_arg5) := plain_arg5.at10 m ρ c
theorem keep_arg6 : W10 (F := Ideal) m ρ c (Proc.devRef .tc main_arg6) = W1 (F := Ideal) m ρ c (Proc.devRef .tc main_arg6) := plain_arg6.at10 m ρ c
theorem keep_arg7 : W10 (F := Ideal) m ρ c (Proc.devRef .tc main_arg7) = W1 (F := Ideal) m ρ c (Proc.devRef .tc main_arg7) := plain_arg7.at10 m ρ c
theorem keep_arg8 : W10 (F := Ideal) m ρ c (Proc.devRef .tc main_arg8) = W1 (F := Ideal) m ρ c (Proc.devRef .tc main_arg8) := plain_arg8.at10 m ρ c
theorem keep_arg9 : W10 (F := Ideal) m ρ c (Proc.devRef .tc main_arg9) = W1 (F := Ideal) m ρ c (Proc.devRef .tc main_arg9) := plain_arg9.at10 m ρ c
theorem keep_arg10 : W10 (F := Ideal) m ρ c (Proc.devRef .tc main_arg10) = W1 (F := Ideal) m ρ c (Proc.devRef .tc main_arg10) := plain_arg10.at10 m ρ c
theorem keep_arg11 : W10 (F := Ideal) m ρ c (Proc.devRef .tc main_arg11) = W1 (F := Ideal) m ρ c (Proc.devRef .tc main_arg11) := plain_arg11.at10 m ρ c
theorem keep_arg12 : W10 (F := Ideal) m ρ c (Proc.devRef .tc main_arg12) = W1 (F := Ideal) m ρ c (Proc.devRef .tc main_arg12) := plain_arg12.at10 m ρ c

theorem keep : ∀ b ∈ [main_v1, main_v3, main_v25, main_v27, main_v40, main_arg0, main_arg1, main_arg2, main_arg3, main_arg4,
      main_arg5, main_arg6, main_arg7, main_arg8, main_arg9, main_arg10, main_arg11, main_arg12],
    W10 (F := Ideal) m ρ c (Proc.devRef .tc b) = W1 (F := Ideal) m ρ c (Proc.devRef .tc b) := by
  intro b hb
  simp only [List.mem_cons, List.not_mem_nil, or_false] at hb
  rcases hb with rfl | rfl | rfl | rfl | rfl | rfl | rfl | rfl | rfl | rfl | rfl | rfl | rfl | rfl | rfl | rfl | rfl | rfl
  · exact keep_v1 m ρ c
  · exact keep_v3 m ρ c
  · exact keep_v25 m ρ c
  · exact keep_v27 m ρ c
  · exact keep_v40 m ρ c
  · exact keep_arg0 m ρ c
  · exact keep_arg1 m ρ c
  · exact keep_arg2 m ρ c
  · exact keep_arg3 m ρ c
  · exact keep_arg4 m ρ c
  · exact keep_arg5 m ρ c
  · exact keep_arg6 m ρ c
  · exact keep_arg7 m ρ c
  · exact keep_arg8 m ρ c
  · exact keep_arg9 m ρ c
  · exact keep_arg10 m ρ c
  · exact keep_arg11 m ρ c
  · exact keep_arg12 m ρ c

end Keep

end Cert.GCN.KT0

end
-- ==== Proof.KTower1.lean ====
import proofs.«430204_j43868795961418_3_alg».proof.Proof.Gen.KernelIdeal.Frame
import proofs.«430204_j43868795961418_3_alg».proof.Proof.Args
import proofs.«430204_j43868795961418_3_alg».proof.Proof.LibRowOps
import proofs.«430204_j43868795961418_3_alg».proof.Proof.Region5
import proofs.«430204_j43868795961418_3_alg».proof.Proof.Region6
import proofs.«430204_j43868795961418_3_alg».proof.Proof.Region7
import proofs.«430204_j43868795961418_3_alg».proof.Proof.Region9
import proofs.«430204_j43868795961418_3_alg».proof.Proof.Region8
import proofs.«430204_j43868795961418_3_alg».proof.Proof.KTower0
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.GCN.KT1

open Cert.KernelIdeal Cert.KernelIdeal.Gen
open Idealize.ShloMosaic Idealize.ShloMosaic.ValueIdx Idealize.ShloMosaic.RowOps
open Idealize.ShloMosaic.TcCoe Idealize.SL.Sem

section Reads

variable {α : Type}

theorem row1_apply {n : ℕ} (x : (⟨2, ![2, n]⟩ : Shape).Idx → α)
    (hs : (⟨2, ![2, n]⟩ : Shape).Slices ![1, 0] ⟨2, ![1, n]⟩)
    (hc : (⟨2, ![1, n]⟩ : Shape).ShapeCasts ⟨1, ![n]⟩)
    (hb : (⟨1, ![n]⟩ : Shape).BroadcastsInDim ⟨2, ![1, n]⟩ ![1]) (k : Fin n) :
    broadcastInDim ⟨2, ![1, n]⟩ ![1] hb
        (shapeCast ⟨1, ![n]⟩ (extractStridedSlice ⟨2, ![1, n]⟩ ![1, 0] x hs) hc) (ix2 (0 : Fin 1) k)
      = x (ix2 (1 : Fin 2) k) := by
  refine (broadcastInDim_apply _ hb _ (ix2 (0 : Fin 1) k) (ix1 k) fun a => ?_).trans ?_
  · match a with
    | ⟨0, _⟩ =>
      show k.val = if n = 1 then 0 else k.val
      split
      · have := k.isLt; omega
      · rfl
  · rw [shapeCast_1a_a_apply]
    exact slice2_axis0_apply 1 x hs (0 : Fin 1) k (1 : Fin 2) rfl

theorem slab1_apply {a b : ℕ} (x : (⟨3, ![2, a, b]⟩ : Shape).Idx → α)
    (hs : (⟨3, ![2, a, b]⟩ : Shape).Slices ![1, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![1, 0, 0] x hs) hc (ix2 i j)
      = x (ix3 (1 : Fin 2) i j) := by
  rw [shapeCast_1ab_ab_apply]
  exact extractStridedSlice_apply _ x hs _ _ fun ax => by
    match ax with
    | ⟨0, _⟩ => rfl
    | ⟨1, _⟩ => exact (Nat.zero_add _).symm
    | ⟨2, _⟩ => exact (Nat.zero_add _).symm

theorem col_apply (v : (⟨1, ![EE]⟩ : Shape).Idx → α)
    (hb : (⟨1, ![EE]⟩ : Shape).BroadcastsInDim ⟨2, ![EE, 1]⟩ ![0]) (e : Fin EE) (z : Fin 1) :
    broadcastInDim ⟨2, ![EE, 1]⟩ ![0] hb v (ix2 e z) = v (ix1 e) := by
  refine broadcastInDim_apply _ hb _ (ix2 e z) (ix1 e) fun a => ?_
  match a with
  | ⟨0, _⟩ =>
    rw [if_neg]
    · rfl
    · intro h; exact absurd (show (EE : ℕ) = 1 from h) (by decide)

theorem spread_apply {W : ℕ} (v : (⟨2, ![EE, 1]⟩ : Shape).Idx → α)
    (hb : (⟨2, ![EE, 1]⟩ : Shape).BroadcastsInDim ⟨2, ![EE, W]⟩ ![0, 1]) (e : Fin EE) (k : Fin W) :
    broadcastInDim ⟨2, ![EE, W]⟩ ![0, 1] hb v (ix2 e k) = v (ix2 e (0 : Fin 1)) := by
  refine broadcastInDim_apply _ hb _ (ix2 e k) (ix2 e (0 : Fin 1)) fun a => ?_
  match a with
  | ⟨0, _⟩ =>
    rw [if_neg]
    · rfl
    · intro h; exact absurd (show (EE : ℕ) = 1 from h) (by decide)
  | ⟨1, _⟩ => rfl

theorem lead_apply (x : (⟨2, ![NN, 40]⟩ : Shape).Idx → α)
    (hb : (⟨2, ![NN, 40]⟩ : Shape).BroadcastsInDim ⟨3, ![1, NN, 40]⟩ ![1, 2]) (z : Fin 1) (i : Fin NN) (j : Fin 40) :
    broadcastInDim ⟨3, ![1, NN, 40]⟩ ![1, 2] hb x (ix3 z i j) = x (ix2 i j) := by
  refine broadcastInDim_apply _ hb _ (ix3 z i j) (ix2 i j) fun a => ?_
  match a with
  | ⟨0, _⟩ =>
    rw [if_neg]
    · rfl
    · intro h; exact absurd (show (NN : ℕ) = 1 from h) (by decide)
  | ⟨1, _⟩ =>
    rw [if_neg]
    · rfl
    · intro h; exact absurd (show (40 : ℕ) = 1 from h) (by decide)

theorem stack0_apply (x y : (⟨2, ![NN, 40]⟩ : Shape).Idx → α)
    (hb : (⟨2, ![NN, 40]⟩ : Shape).BroadcastsInDim ⟨3, ![1, NN, 40]⟩ ![1, 2])
    (hc : Shape.Concatenates [(⟨3, ![1, NN, 40]⟩ : Shape), ⟨3, ![1, NN, 40]⟩] ⟨3, ![2, NN, 40]⟩ 0)
    (i : Fin NN) (j : Fin 40) :
    concatenate ⟨3, ![2, NN, 40]⟩ 0 [⟨⟨3, ![1, NN, 40]⟩, broadcastInDim ⟨3, ![1, NN, 40]⟩ ![1, 2] hb x⟩,
        ⟨⟨3, ![1, NN, 40]⟩, broadcastInDim ⟨3, ![1, NN, 40]⟩ ![1, 2] hb y⟩] hc (ix3 (0 : Fin 2) i j)
      = x (ix2 i j) := by
  refine (concatenate_pair_apply_left (s₁ := ⟨3, ![1, NN, 40]⟩) (s₂ := ⟨3, ![1, NN, 40]⟩) (0 : Fin 3)
    (broadcastInDim ⟨3, ![1, NN, 40]⟩ ![1, 2] hb x) (broadcastInDim ⟨3, ![1, NN, 40]⟩ ![1, 2] hb y) hc (ix3 (0 : Fin 2) i j) rfl
    (ix3 (0 : Fin 1) i j) fun b => ?_).trans
    (lead_apply x hb 0 i j)
  match b with
  | ⟨0, _⟩ => rfl
  | ⟨1, _⟩ => rfl
  | ⟨2, _⟩ => rfl

theorem stack1_apply (x y : (⟨2, ![NN, 40]⟩ : Shape).Idx → α)
    (hb : (⟨2, ![NN, 40]⟩ : Shape).BroadcastsInDim ⟨3, ![1, NN, 40]⟩ ![1, 2])
    (hc : Shape.Concatenates [(⟨3, ![1, NN, 40]⟩ : Shape), ⟨3, ![1, NN, 40]⟩] ⟨3, ![2, NN, 40]⟩ 0)
    (i : Fin NN) (j : Fin 40) :
    concatenate ⟨3, ![2, NN, 40]⟩ 0 [⟨⟨3, ![1, NN, 40]⟩, broadcastInDim ⟨3, ![1, NN, 40]⟩ ![1, 2] hb x⟩,
        ⟨⟨3, ![1, NN, 40]⟩, broadcastInDim ⟨3, ![1, NN, 40]⟩ ![1, 2] hb y⟩] hc (ix3 (1 : Fin 2) i j)
      = y (ix2 i j) := by
  refine (concatenate_pair_apply_right (s₁ := ⟨3, ![1, NN, 40]⟩) (s₂ := ⟨3, ![1, NN, 40]⟩) (0 : Fin 3)
    (broadcastInDim ⟨3, ![1, NN, 40]⟩ ![1, 2] hb x) (broadcastInDim ⟨3, ![1, NN, 40]⟩ ![1, 2] hb y) hc (ix3 (1 : Fin 2) i j) rfl rfl
    (ix3 (0 : Fin 1) i j)
    (fun b hb' => ?_) rfl).trans (lead_apply y hb 0 i j)
  match b with
  | ⟨0, _⟩ => exact absurd rfl hb'
  | ⟨1, _⟩ => rfl
  | ⟨2, _⟩ => rfl

end Reads

theorem blockMean_apply (s : (⟨3, ![20, 1, 128]⟩ : Shape).Idx → EReal)
    (hr : (⟨3, ![20, 1, 128]⟩ : Shape).ReducesTo [0] ⟨2, ![1, 128]⟩) (hu : 0 < (⟨0, ![]⟩ : Shape).numel)
    (hb : (⟨0, ![]⟩ : Shape).BroadcastsInDim ⟨2, ![1, 128]⟩ ![]) (w : BitVec 32) (j : Fin 128) :
    Host.divf (F := Ideal) (φ := .f32)
        (Host.reduceAdd (F := Ideal) (φ := .f32) s (constant (F := Ideal) ⟨0, ![]⟩ .f32 0x00000000#32) hr hu)
        (broadcastInDim ⟨2, ![1, 128]⟩ ![] hb (constant (F := Ideal) ⟨0, ![]⟩ .f32 w)) (ix2 (0 : Fin 1) j)
      = Ideal.div (∑ b : Fin 20, s (ix3 b (0 : Fin 1) j)) (Ideal.ofBits .f32 w) := by
  show Ideal.div (Ideal.hostReduceAdd hr s (Ideal.ofBits .f32 0x00000000#32) (ix2 (0 : Fin 1) j)) (Ideal.ofBits .f32 w) = _
  rw [Ideal.hostReduceAdd_single hr (by decide) s _ _, Ideal.ofBits_zero_f32, zero_add]
  congr 1
  refine Finset.sum_congr rfl fun b _ => congrArg s (funext fun a => Fin.ext ?_)
  match a with
  | ⟨0, _⟩ => rfl
  | ⟨1, _⟩ => rfl
  | ⟨2, _⟩ => rfl

theorem blockVar_apply (s : (⟨3, ![20, 1, 128]⟩ : Shape).Idx → EReal) (mu : (⟨2, ![1, 128]⟩ : Shape).Idx → EReal)
    (hr : (⟨3, ![20, 1, 128]⟩ : Shape).ReducesTo [0] ⟨2, ![1, 128]⟩) (hu : 0 < (⟨0, ![]⟩ : Shape).numel)
    (hb : (⟨0, ![]⟩ : Shape).BroadcastsInDim ⟨2, ![1, 128]⟩ ![]) (w : BitVec 32) (j : Fin 128) :
    maximumf (F := Ideal) (φ := .f32)
        (subf (Host.divf (F := Ideal) (φ := .f32)
            (Host.reduceAdd (F := Ideal) (φ := .f32) s (constant (F := Ideal) ⟨0, ![]⟩ .f32 0x00000000#32) hr hu)
            (broadcastInDim ⟨2, ![1, 128]⟩ ![] hb (constant (F := Ideal) ⟨0, ![]⟩ .f32 w))) (mulf mu mu))
        (broadcastInDim ⟨2, ![1, 128]⟩ ![] hb (constant (F := Ideal) ⟨0, ![]⟩ .f32 0x00000000#32)) (ix2 (0 : Fin 1) j)
      = max (Ideal.div (∑ b : Fin 20, s (ix3 b (0 : Fin 1) j)) (Ideal.ofBits .f32 w)
          - mu (ix2 (0 : Fin 1) j) * mu (ix2 (0 : Fin 1) j)) 0 := by
  rw [maximumf_apply, subf_apply, mulf_apply, blockMean_apply]
  show max _ (Ideal.ofBits .f32 0x00000000#32) = _
  rw [Ideal.ofBits_zero_f32]

theorem aggr_apply {W : ℕ} (h : (⟨2, ![NN, W]⟩ : Shape).Idx → EReal) (s d : (⟨1, ![EE]⟩ : Shape).Idx → BitVec 32)
    (w : (⟨1, ![EE]⟩ : Shape).Idx → EReal)
    (gd : GatherDims ⟨2, ![NN, W]⟩ ⟨2, ![EE, 1]⟩ ⟨2, ![EE, W]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, W])
    (sd : ScatterDims ⟨2, ![NN, W]⟩ ⟨2, ![EE, 1]⟩ ⟨2, ![EE, W]⟩)
    (s1 : sd.updateWindowDims = [1]) (s2 : sd.insertedWindowDims = [0]) (s3 : sd.scatterDimsToOperandDims = [0])
    (s4 : sd.indexVectorDim = 1)
    (b0 : (⟨0, ![]⟩ : Shape).BroadcastsInDim ⟨1, ![EE]⟩ ![])
    (b1 : (⟨1, ![EE]⟩ : Shape).BroadcastsInDim ⟨2, ![EE, 1]⟩ ![0])
    (b2 : (⟨2, ![EE, 1]⟩ : Shape).BroadcastsInDim ⟨2, ![EE, W]⟩ ![0, 1])
    (b3 : (⟨0, ![]⟩ : Shape).BroadcastsInDim ⟨2, ![NN, W]⟩ ![])
    (i : Fin NN) (k : Fin W) :
    Host.scatterAdd (F := Ideal) (φ := .f32) sd
        (broadcastInDim ⟨2, ![NN, W]⟩ ![] b3 (constant (F := Ideal) ⟨0, ![]⟩ .f32 0x00000000#32))
        (broadcastInDim ⟨2, ![EE, 1]⟩ ![0] b1 d)
        (mulf (Host.gather gd h (broadcastInDim ⟨2, ![EE, 1]⟩ ![0] b1
              (select (cmpi .slt s (broadcastInDim ⟨1, ![EE]⟩ ![] b0 (constantI ⟨0, ![]⟩ 32 0#32)))
                (addi s (broadcastInDim ⟨1, ![EE]⟩ ![] b0 (constantI ⟨0, ![]⟩ 32 100000#32))) s)))
          (broadcastInDim ⟨2, ![EE, W]⟩ ![0, 1] b2 (broadcastInDim ⟨2, ![EE, 1]⟩ ![0] b1 w))) (ix2 i k)
      = ∑ e : Fin EE, if (d (ix1 e)).toInt = (i.val : ℤ)
          then h (ix2 (clampRow NN (by decide) (wrapW (s (ix1 e)))) k) * w (ix1 e) else 0 := by
  rw [hostScatterAdd_eq, scatterAdd_rows_apply sd s1 s2 s3 s4]
  rw [show broadcastInDim ⟨2, ![NN, W]⟩ ![] b3 (constant (F := Ideal) ⟨0, ![]⟩ .f32 0x00000000#32) (ix2 i k) = (0 : EReal)
    from Ideal.ofBits_zero_f32, zero_add]
  refine Finset.sum_congr rfl fun e _ => ?_
  rw [col_apply d b1 e 0, mulf_apply, gather_rows_apply (by decide) gd g1 g2 g3 g4 g5 g6 g7, spread_apply _ b2 e k,
    col_apply w b1 e 0, col_apply _ b1 e 0]
  rfl

section Host

abbrev er (x : EReal) : EReal := x

abbrev wd (x : BitVec 32) : BitVec 32 := x

def wr5 : List (Ref sig .tc) := [main_v119, main_v120, main_v121, main_v122, main_v123, main_v124, main_v125, main_v126, main_v127, main_v128, main_v129, main_v130, main_v131, main_v132, main_v133, main_v134, main_v135, main_v136, main_v137, main_v138, main_v139, main_v140, main_v141]

theorem hW5 : (hostOps5 (F := Ideal)).Forall fun op => op.writes ⊆ ((wr5).map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

def wr6 : List (Ref sig .tc) := [main_cst_23, main_v143, main_cst_24, main_v144, main_v145, main_cst_25, main_v146, main_cst_26, main_v147, main_v148, main_v149, main_v150, main_cst_27, main_v151, main_v152, main_v153, main_v154]

theorem hW6 : (hostOps6 (F := Ideal)).Forall fun op => op.writes ⊆ ((wr6).map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

def wr7 : List (Ref sig .tc) := [main_c_28, main_v156, main_v157, main_c_29, main_v158, main_v159, main_v160, main_v161, main_v162, main_v163, main_v164, main_v165, main_cst_30, main_v166, main_v167, main_v168]

theorem hW7 : (hostOps7 (F := Ideal)).Forall fun op => op.writes ⊆ ((wr7).map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

def wr8 : List (Ref sig .tc) := [main_cst_31, main_v170, main_cst_32, main_v171, main_v172, main_cst_33, main_v173, main_cst_34, main_v174, main_v175, main_v176, main_v177, main_cst_35, main_v178, main_v179, main_v180, main_v181]

theorem hW8 : (hostOps8 (F := Ideal)).Forall fun op => op.writes ⊆ ((wr8).map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

def wr9 : List (Ref sig .tc) := [main_c_36, main_v183, main_v184, main_c_37, main_v185, main_v186, main_v187, main_v188, main_v189, main_v190, main_v191, main_v192, main_cst_38, main_v193, main_v194, main_v195]

theorem hW9 : (hostOps9 (F := Ideal)).Forall fun op => op.writes ⊆ ((wr9).map (Proc.devRef (τ := τ) .tc)).toFinset := by
  simp only [hostOps9, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

def wr10 : List (Ref sig .tc) := [main_v197, main_v198, main_v199]

theorem hW10 : (hostOps10 (F := Ideal)).Forall fun op => op.writes ⊆ ((wr10).map (Proc.devRef (τ := τ) .tc)).toFinset := by
  simp only [hostOps10, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem h5_v121 (V : Valuation τ sig (Elt Ideal)) (k : Fin 128) :
    StableHlo.after (hostOps5 (F := Ideal)) V (Proc.devRef .tc main_v121) (ix2 (0 : Fin 1) k)
      = V (Proc.devRef .tc main_arg3) (ix2 (1 : Fin 2) k) := by
  show (StableHlo.after (hostOps5 (F := Ideal)) V (Proc.devRef .tc main_v121) : S1x128.Idx → EReal) (ix2 (0 : Fin 1) k) = _
  after_results
  exact row1_apply _ _ _ _ k

theorem h5_v124 (V : Valuation τ sig (Elt Ideal)) (k : Fin 128) :
    StableHlo.after (hostOps5 (F := Ideal)) V (Proc.devRef .tc main_v124) (ix2 (0 : Fin 1) k)
      = V (Proc.devRef .tc main_arg4) (ix2 (1 : Fin 2) k) := by
  show (StableHlo.after (hostOps5 (F := Ideal)) V (Proc.devRef .tc main_v124) : S1x128.Idx → EReal) (ix2 (0 : Fin 1) k) = _
  after_results
  exact row1_apply _ _ _ _ k

theorem h5_v127 (V : Valuation τ sig (Elt Ideal)) (k : Fin 128) :
    StableHlo.after (hostOps5 (F := Ideal)) V (Proc.devRef .tc main_v127) (ix2 (0 : Fin 1) k)
      = V (Proc.devRef .tc main_arg5) (ix2 (1 : Fin 2) k) := by
  show (StableHlo.after (hostOps5 (F := Ideal)) V (Proc.devRef .tc main_v127) : S1x128.Idx → EReal) (ix2 (0 : Fin 1) k) = _
  after_results
  exact row1_apply _ _ _ _ k

theorem h5_v130 (V : Valuation τ sig (Elt Ideal)) (k : Fin 128) :
    StableHlo.after (hostOps5 (F := Ideal)) V (Proc.devRef .tc main_v130) (ix2 (0 : Fin 1) k)
      = V (Proc.devRef .tc main_arg7) (ix2 (1 : Fin 2) k) := by
  show (StableHlo.after (hostOps5 (F := Ideal)) V (Proc.devRef .tc main_v130) : S1x128.Idx → EReal) (ix2 (0 : Fin 1) k) = _
  after_results
  exact row1_apply _ _ _ _ k

theorem h5_v133 (V : Valuation τ sig (Elt Ideal)) (k : Fin 128) :
    StableHlo.after (hostOps5 (F := Ideal)) V (Proc.devRef .tc main_v133) (ix2 (0 : Fin 1) k)
      = V (Proc.devRef .tc main_arg8) (ix2 (1 : Fin 2) k) := by
  show (StableHlo.after (hostOps5 (F := Ideal)) V (Proc.devRef .tc main_v133) : S1x128.Idx → EReal) (ix2 (0 : Fin 1) k) = _
  after_results
  exact row1_apply _ _ _ _ k

theorem h5_v136 (V : Valuation τ sig (Elt Ideal)) (k : Fin 128) :
    StableHlo.after (hostOps5 (F := Ideal)) V (Proc.devRef .tc main_v136) (ix2 (0 : Fin 1) k)
      = V (Proc.devRef .tc main_arg9) (ix2 (1 : Fin 2) k) := by
  show (StableHlo.after (hostOps5 (F := Ideal)) V (Proc.devRef .tc main_v136) : S1x128.Idx → EReal) (ix2 (0 : Fin 1) k) = _
  after_results
  exact row1_apply _ _ _ _ k

theorem h5_v139 (V : Valuation τ sig (Elt Ideal)) (k : Fin 40) :
    StableHlo.after (hostOps5 (F := Ideal)) V (Proc.devRef .tc main_v139) (ix2 (0 : Fin 1) k)
      = V (Proc.devRef .tc main_arg11) (ix2 (1 : Fin 2) k) := by
  show (StableHlo.after (hostOps5 (F := Ideal)) V (Proc.devRef .tc main_v139) : S1x40.Idx → EReal) (ix2 (0 : Fin 1) k) = _
  after_results
  exact row1_apply _ _ _ _ k

theorem h5_v141 (V : Valuation τ sig (Elt Ideal)) (i : Fin 128) (j : Fin 128) :
    StableHlo.after (hostOps5 (F := Ideal)) V (Proc.devRef .tc main_v141) (ix2 i j)
      = V (Proc.devRef .tc main_arg2) (ix3 (1 : Fin 2) i j) := by
  show (StableHlo.after (hostOps5 (F := Ideal)) V (Proc.devRef .tc main_v141) : S128x128.Idx → EReal) (ix2 i j) = _
  after_results
  exact slab1_apply _ _ _ i j

theorem h6_v154 (V : Valuation τ sig (Elt Ideal)) (i : Fin 128) (j : Fin 128) :
    StableHlo.after (hostOps6 (F := Ideal)) V (Proc.devRef .tc main_v154) (ix2 i j)
      = V (Proc.devRef .tc main_arg6) (ix3 (1 : Fin 2) i j) := by
  show (StableHlo.after (hostOps6 (F := Ideal)) V (Proc.devRef .tc main_v154) : S128x128.Idx → EReal) (ix2 i j) = _
  after_results
  exact slab1_apply _ _ _ i j

theorem h8_v181 (V : Valuation τ sig (Elt Ideal)) (i : Fin 128) (j : Fin 40) :
    StableHlo.after (hostOps8 (F := Ideal)) V (Proc.devRef .tc main_v181) (ix2 i j)
      = V (Proc.devRef .tc main_arg10) (ix3 (1 : Fin 2) i j) := by
  show (StableHlo.after (hostOps8 (F := Ideal)) V (Proc.devRef .tc main_v181) : S128x40.Idx → EReal) (ix2 i j) = _
  after_results
  exact slab1_apply _ _ _ i j

theorem h6_v145 (V : Valuation τ sig (Elt Ideal)) (j : Fin 128) :
    er (StableHlo.after (hostOps6 (F := Ideal)) V (Proc.devRef .tc main_v145) (ix2 (0 : Fin 1) j))
      = Ideal.div (∑ b : Fin 20, er (V (Proc.devRef .tc main_v142_1) (ix3 b (0 : Fin 1) j))) nLit := by
  show (StableHlo.after (hostOps6 (F := Ideal)) V (Proc.devRef .tc main_v145) : S1x128.Idx → EReal) (ix2 (0 : Fin 1) j) = _
  after_results
  exact blockMean_apply _ _ _ _ _ j

set_option maxHeartbeats 1600000 in
theorem h6_v152 (V : Valuation τ sig (Elt Ideal)) (j : Fin 128) :
    er (StableHlo.after (hostOps6 (F := Ideal)) V (Proc.devRef .tc main_v152) (ix2 (0 : Fin 1) j))
      = max (Ideal.div (∑ b : Fin 20, er (V (Proc.devRef .tc main_v142_2) (ix3 b (0 : Fin 1) j))) nLit
          - er (StableHlo.after (hostOps6 (F := Ideal)) V (Proc.devRef .tc main_v145) (ix2 (0 : Fin 1) j))
            * er (StableHlo.after (hostOps6 (F := Ideal)) V (Proc.devRef .tc main_v145) (ix2 (0 : Fin 1) j))) 0 := by
  show (StableHlo.after (hostOps6 (F := Ideal)) V (Proc.devRef .tc main_v152) : S1x128.Idx → EReal) (ix2 (0 : Fin 1) j) = _
  after_results_simp
  exact blockVar_apply _ _ _ _ _ _ j

theorem h8_v172 (V : Valuation τ sig (Elt Ideal)) (j : Fin 128) :
    er (StableHlo.after (hostOps8 (F := Ideal)) V (Proc.devRef .tc main_v172) (ix2 (0 : Fin 1) j))
      = Ideal.div (∑ b : Fin 20, er (V (Proc.devRef .tc main_v169_1) (ix3 b (0 : Fin 1) j))) nLit := by
  show (StableHlo.after (hostOps8 (F := Ideal)) V (Proc.devRef .tc main_v172) : S1x128.Idx → EReal) (ix2 (0 : Fin 1) j) = _
  after_results
  exact blockMean_apply _ _ _ _ _ j

set_option maxHeartbeats 1600000 in
theorem h8_v179 (V : Valuation τ sig (Elt Ideal)) (j : Fin 128) :
    er (StableHlo.after (hostOps8 (F := Ideal)) V (Proc.devRef .tc main_v179) (ix2 (0 : Fin 1) j))
      = max (Ideal.div (∑ b : Fin 20, er (V (Proc.devRef .tc main_v169_2) (ix3 b (0 : Fin 1) j))) nLit
          - er (StableHlo.after (hostOps8 (F := Ideal)) V (Proc.devRef .tc main_v172) (ix2 (0 : Fin 1) j))
            * er (StableHlo.after (hostOps8 (F := Ideal)) V (Proc.devRef .tc main_v172) (ix2 (0 : Fin 1) j))) 0 := by
  show (StableHlo.after (hostOps8 (F := Ideal)) V (Proc.devRef .tc main_v179) : S1x128.Idx → EReal) (ix2 (0 : Fin 1) j) = _
  after_results_simp
  exact blockVar_apply _ _ _ _ _ _ j

set_option maxHeartbeats 1600000 in
theorem h7_v168 (V : Valuation τ sig (Elt Ideal)) (i : Fin NN) (k : Fin 128) :
    er (StableHlo.after (hostOps7 (F := Ideal)) V (Proc.devRef .tc main_v168) (ix2 i k))
      = ∑ e : Fin EE, if (wd (V (Proc.devRef .tc main_v3) (ix1 e))).toInt = (i.val : ℤ)
          then er (V (Proc.devRef .tc main_v155) (ix2 (clampRow NN (by decide) (wrapW (V (Proc.devRef .tc main_v1) (ix1 e)))) k))
            * er (V (Proc.devRef .tc main_v25) (ix1 e)) else 0 := by
  show (StableHlo.after (hostOps7 (F := Ideal)) V (Proc.devRef .tc main_v168) : S100000x128.Idx → EReal) (ix2 i k) = _
  after_results_simp
  exact aggr_apply (W := 128) _ _ _ _ gather_S100000x128_S1600000x1_S1600000x128_1_0_n_n_0_1_1128 rfl rfl rfl rfl rfl rfl rfl scatter_S100000x128_S1600000x1_S1600000x128_1_0_0_1 rfl rfl rfl rfl _ _ _ _ i k

set_option maxHeartbeats 1600000 in
theorem h9_v195 (V : Valuation τ sig (Elt Ideal)) (i : Fin NN) (k : Fin 40) :
    er (StableHlo.after (hostOps9 (F := Ideal)) V (Proc.devRef .tc main_v195) (ix2 i k))
      = ∑ e : Fin EE, if (wd (V (Proc.devRef .tc main_v3) (ix1 e))).toInt = (i.val : ℤ)
          then er (V (Proc.devRef .tc main_v182) (ix2 (clampRow NN (by decide) (wrapW (V (Proc.devRef .tc main_v1) (ix1 e)))) k))
            * er (V (Proc.devRef .tc main_v25) (ix1 e)) else 0 := by
  show (StableHlo.after (hostOps9 (F := Ideal)) V (Proc.devRef .tc main_v195) : S100000x40.Idx → EReal) (ix2 i k) = _
  after_results_simp
  exact aggr_apply (W := 40) _ _ _ _ gather_S100000x40_S1600000x1_S1600000x40_1_0_n_n_0_1_140 rfl rfl rfl rfl rfl rfl rfl scatter_S100000x40_S1600000x1_S1600000x40_1_0_0_1 rfl rfl rfl rfl _ _ _ _ i k

theorem h10_v199_0 (V : Valuation τ sig (Elt Ideal)) (i : Fin NN) (j : Fin 40) :
    StableHlo.after (hostOps10 (F := Ideal)) V (Proc.devRef .tc main_v199) (ix3 (0 : Fin 2) i j)
      = V (Proc.devRef .tc main_v118_0) (ix2 i j) := by
  show (StableHlo.after (hostOps10 (F := Ideal)) V (Proc.devRef .tc main_v199) : S2x100000x40.Idx → EReal) (ix3 (0 : Fin 2) i j) = _
  after_results
  exact stack0_apply _ _ _ _ i j

theorem h10_v199_1 (V : Valuation τ sig (Elt Ideal)) (i : Fin NN) (j : Fin 40) :
    StableHlo.after (hostOps10 (F := Ideal)) V (Proc.devRef .tc main_v199) (ix3 (1 : Fin 2) i j)
      = V (Proc.devRef .tc main_v196_0) (ix2 i j) := by
  show (StableHlo.after (hostOps10 (F := Ideal)) V (Proc.devRef .tc main_v199) : S2x100000x40.Idx → EReal) (ix3 (1 : Fin 2) i j) = _
  after_results
  exact stack1_apply _ _ _ _ i j

end Host

section Run

variable (m : (ℓ : Loc nD τ sig) → Buf (Elt Ideal) ℓ) (ρ : Dev nD → PrngReg) (c : Dev nD)

abbrev A0 : (⟨2, ![NN, 128]⟩ : Shape).Idx → EReal := m ((c : Thread nD τ).loc main_arg0)

abbrev A1 : (⟨1, ![EE]⟩ : Shape).Idx → EReal := m ((c : Thread nD τ).loc main_arg1)

abbrev A2 : (⟨3, ![2, 128, 128]⟩ : Shape).Idx → EReal := m ((c : Thread nD τ).loc main_arg2)

abbrev A3 : (⟨2, ![2, 128]⟩ : Shape).Idx → EReal := m ((c : Thread nD τ).loc main_arg3)

abbrev A4 : (⟨2, ![2, 128]⟩ : Shape).Idx → EReal := m ((c : Thread nD τ).loc main_arg4)

abbrev A5 : (⟨2, ![2, 128]⟩ : Shape).Idx → EReal := m ((c : Thread nD τ).loc main_arg5)

abbrev A6 : (⟨3, ![2, 128, 128]⟩ : Shape).Idx → EReal := m ((c : Thread nD τ).loc main_arg6)

abbrev A7 : (⟨2, ![2, 128]⟩ : Shape).Idx → EReal := m ((c : Thread nD τ).loc main_arg7)

abbrev A8 : (⟨2, ![2, 128]⟩ : Shape).Idx → EReal := m ((c : Thread nD τ).loc main_arg8)

abbrev A9 : (⟨2, ![2, 128]⟩ : Shape).Idx → EReal := m ((c : Thread nD τ).loc main_arg9)

abbrev A10 : (⟨3, ![2, 128, 40]⟩ : Shape).Idx → EReal := m ((c : Thread nD τ).loc main_arg10)

abbrev A11 : (⟨2, ![2, 40]⟩ : Shape).Idx → EReal := m ((c : Thread nD τ).loc main_arg11)

abbrev A12 : (⟨2, ![2, EE]⟩ : Shape).Idx → BitVec 32 := m ((c : Thread nD τ).loc main_arg12)

abbrev DW : Fin EE → BitVec 32 := dwOf (A12 m c)
abbrev SRC : Fin EE → Fin NN := srcOf (A12 m c)
abbrev WNv : Fin EE → EReal := wn (DW m c) (SRC m c) (dstROf (A12 m c)) (cur1 (A1 m c))
abbrev SNv : Fin NN → EReal := sn (DW m c) (cur1 (A1 m c))

def C1 : Fin NN → Fin 128 → EReal :=
  fused (SNv m c) (agg (DW m c) (SRC m c) (WNv m c) (cur2 (A0 m c))) (cur2 (A0 m c)) (slab (A2 m c) 1) (row (A3 m c) 1)

def H2 : Fin NN → Fin 128 → EReal :=
  mm (bnRelu epsLit (C1 m c) (meanB nLit (C1 m c)) (varB nLit (C1 m c)) (row (A4 m c) 1) (row (A5 m c) 1)) (slab (A6 m c) 1)

def C2 : Fin NN → Fin 128 → EReal :=
  comb (SNv m c) (agg (DW m c) (SRC m c) (WNv m c) (H2 m c)) (H2 m c) (row (A7 m c) 1)

def H3 : Fin NN → Fin 40 → EReal :=
  mm (bnRelu epsLit (C2 m c) (meanB nLit (C2 m c)) (varB nLit (C2 m c)) (row (A8 m c) 1) (row (A9 m c) 1)) (slab (A10 m c) 1)

theorem tower1_eq : outK (A0 m c) (A1 m c) (A2 m c) (A3 m c) (A4 m c) (A5 m c) (A6 m c) (A7 m c) (A8 m c) (A9 m c) (A10 m c) (A11 m c) (A12 m c) 1 = comb (SNv m c) (agg (DW m c) (SRC m c) (WNv m c) (H3 m c)) (H3 m c) (row (A11 m c) 1) := rfl

theorem b_v27 (i : Fin NN) : W10 (F := Ideal) m ρ c (Proc.devRef .tc main_v27) (ix2 i 0) = SNv m c i :=
  (congrFun (KT0.keep_v27 m ρ c) (ix2 i 0)).trans (KT0.v27_apply m ρ c i)
theorem b_v40 (i : Fin NN) (k : Fin 128) : W10 (F := Ideal) m ρ c (Proc.devRef .tc main_v40) (ix2 i k) = agg (DW m c) (SRC m c) (WNv m c) (cur2 (A0 m c)) i k :=
  (congrFun (KT0.keep_v40 m ρ c) (ix2 i k)).trans (KT0.v40_apply m ρ c i k)
theorem b_v1 (e : Fin EE) : W10 (F := Ideal) m ρ c (Proc.devRef .tc main_v1) (ix1 e) = A12 m c (ix2 0 e) :=
  (congrFun (KT0.keep_v1 m ρ c) (ix1 e)).trans (KT0.v1_apply m ρ c e)
theorem b_v3 (e : Fin EE) : W10 (F := Ideal) m ρ c (Proc.devRef .tc main_v3) (ix1 e) = DW m c e :=
  (congrFun (KT0.keep_v3 m ρ c) (ix1 e)).trans (KT0.v3_apply m ρ c e)
theorem b_v25 (e : Fin EE) : W10 (F := Ideal) m ρ c (Proc.devRef .tc main_v25) (ix1 e) = WNv m c e :=
  (congrFun (KT0.keep_v25 m ρ c) (ix1 e)).trans (KT0.v25_apply m ρ c e)
theorem b_arg0 : W10 (F := Ideal) m ρ c (Proc.devRef .tc main_arg0) = A0 m c :=
  (KT0.keep_arg0 m ρ c).trans (KT0.arg0_W1 m ρ c)
theorem b_arg2 : W10 (F := Ideal) m ρ c (Proc.devRef .tc main_arg2) = A2 m c :=
  (KT0.keep_arg2 m ρ c).trans (KT0.arg2_W1 m ρ c)
theorem b_arg3 : W10 (F := Ideal) m ρ c (Proc.devRef .tc main_arg3) = A3 m c :=
  (KT0.keep_arg3 m ρ c).trans (KT0.arg3_W1 m ρ c)
theorem b_arg4 : W10 (F := Ideal) m ρ c (Proc.devRef .tc main_arg4) = A4 m c :=
  (KT0.keep_arg4 m ρ c).trans (KT0.arg4_W1 m ρ c)
theorem b_arg5 : W10 (F := Ideal) m ρ c (Proc.devRef .tc main_arg5) = A5 m c :=
  (KT0.keep_arg5 m ρ c).trans (KT0.arg5_W1 m ρ c)
theorem b_arg6 : W10 (F := Ideal) m ρ c (Proc.devRef .tc main_arg6) = A6 m c :=
  (KT0.keep_arg6 m ρ c).trans (KT0.arg6_W1 m ρ c)
theorem b_arg7 : W10 (F := Ideal) m ρ c (Proc.devRef .tc main_arg7) = A7 m c :=
  (KT0.keep_arg7 m ρ c).trans (KT0.arg7_W1 m ρ c)
theorem b_arg8 : W10 (F := Ideal) m ρ c (Proc.devRef .tc main_arg8) = A8 m c :=
  (KT0.keep_arg8 m ρ c).trans (KT0.arg8_W1 m ρ c)
theorem b_arg9 : W10 (F := Ideal) m ρ c (Proc.devRef .tc main_arg9) = A9 m c :=
  (KT0.keep_arg9 m ρ c).trans (KT0.arg9_W1 m ρ c)
theorem b_arg10 : W10 (F := Ideal) m ρ c (Proc.devRef .tc main_arg10) = A10 m c :=
  (KT0.keep_arg10 m ρ c).trans (KT0.arg10_W1 m ρ c)
theorem b_arg11 : W10 (F := Ideal) m ρ c (Proc.devRef .tc main_arg11) = A11 m c :=
  (KT0.keep_arg11 m ρ c).trans (KT0.arg11_W1 m ρ c)
theorem b_out0 (i : Fin NN) (j : Fin 40) : W10 (F := Ideal) m ρ c (Proc.devRef .tc main_v118_0) (ix2 i j) = outK (A0 m c) (A1 m c) (A2 m c) (A3 m c) (A4 m c) (A5 m c) (A6 m c) (A7 m c) (A8 m c) (A9 m c) (A10 m c) (A11 m c) (A12 m c) 0 i j :=
  KT0.out0 m ρ c i j

theorem k11_v27 : W11 (F := Ideal) m ρ c (Proc.devRef .tc main_v27) = W10 (F := Ideal) m ρ c (Proc.devRef .tc main_v27) :=
  (StableHlo.after_of_writes_sub (hostOps5 (F := Ideal)) (W10 m ρ c) hW5 (by decide) : W11 (F := Ideal) m ρ c (Proc.devRef .tc main_v27) = W10 (F := Ideal) m ρ c (Proc.devRef .tc main_v27))

theorem k15_v27 : W15 (F := Ideal) m ρ c (Proc.devRef .tc main_v27) = W10 (F := Ideal) m ρ c (Proc.devRef .tc main_v27) :=
  ((StableHlo.after_of_writes_sub (hostOps7 (F := Ideal)) (W14 m ρ c) hW7 (by decide) : W15 (F := Ideal) m ρ c (Proc.devRef .tc main_v27) = W14 (F := Ideal) m ρ c (Proc.devRef .tc main_v27))).trans
    (((W14_of_ne (F := Ideal) m ρ c main_v27 (by decide))).trans
    (((StableHlo.after_of_writes_sub (hostOps6 (F := Ideal)) (W12 m ρ c) hW6 (by decide) : W13 (F := Ideal) m ρ c (Proc.devRef .tc main_v27) = W12 (F := Ideal) m ρ c (Proc.devRef .tc main_v27))).trans
    ((((W12_arr (F := Ideal) m ρ c 2).trans (((dat5 (V11 (F := Ideal) m ρ) c).arrAt_in 2 rfl _).trans (A_eq5 (V11 (F := Ideal) m ρ) c 2)) : W12 (F := Ideal) m ρ c (Proc.devRef .tc main_v27) = W11 (F := Ideal) m ρ c (Proc.devRef .tc main_v27))).trans
    ((StableHlo.after_of_writes_sub (hostOps5 (F := Ideal)) (W10 m ρ c) hW5 (by decide) : W11 (F := Ideal) m ρ c (Proc.devRef .tc main_v27) = W10 (F := Ideal) m ρ c (Proc.devRef .tc main_v27))))))

theorem k19_v27 : W19 (F := Ideal) m ρ c (Proc.devRef .tc main_v27) = W10 (F := Ideal) m ρ c (Proc.devRef .tc main_v27) :=
  ((StableHlo.after_of_writes_sub (hostOps9 (F := Ideal)) (W18 m ρ c) hW9 (by decide) : W19 (F := Ideal) m ρ c (Proc.devRef .tc main_v27) = W18 (F := Ideal) m ρ c (Proc.devRef .tc main_v27))).trans
    (((W18_of_ne (F := Ideal) m ρ c main_v27 (by decide))).trans
    (((StableHlo.after_of_writes_sub (hostOps8 (F := Ideal)) (W16 m ρ c) hW8 (by decide) : W17 (F := Ideal) m ρ c (Proc.devRef .tc main_v27) = W16 (F := Ideal) m ρ c (Proc.devRef .tc main_v27))).trans
    ((((W16_arr (F := Ideal) m ρ c 2).trans (((dat7 (V15 (F := Ideal) m ρ) c).arrAt_in 2 rfl _).trans (A_eq7 (V15 (F := Ideal) m ρ) c 2)) : W16 (F := Ideal) m ρ c (Proc.devRef .tc main_v27) = W15 (F := Ideal) m ρ c (Proc.devRef .tc main_v27))).trans
    (((StableHlo.after_of_writes_sub (hostOps7 (F := Ideal)) (W14 m ρ c) hW7 (by decide) : W15 (F := Ideal) m ρ c (Proc.devRef .tc main_v27) = W14 (F := Ideal) m ρ c (Proc.devRef .tc main_v27))).trans
    (((W14_of_ne (F := Ideal) m ρ c main_v27 (by decide))).trans
    (((StableHlo.after_of_writes_sub (hostOps6 (F := Ideal)) (W12 m ρ c) hW6 (by decide) : W13 (F := Ideal) m ρ c (Proc.devRef .tc main_v27) = W12 (F := Ideal) m ρ c (Proc.devRef .tc main_v27))).trans
    ((((W12_arr (F := Ideal) m ρ c 2).trans (((dat5 (V11 (F := Ideal) m ρ) c).arrAt_in 2 rfl _).trans (A_eq5 (V11 (F := Ideal) m ρ) c 2)) : W12 (F := Ideal) m ρ c (Proc.devRef .tc main_v27) = W11 (F := Ideal) m ρ c (Proc.devRef .tc main_v27))).trans
    ((StableHlo.after_of_writes_sub (hostOps5 (F := Ideal)) (W10 m ρ c) hW5 (by decide) : W11 (F := Ideal) m ρ c (Proc.devRef .tc main_v27) = W10 (F := Ideal) m ρ c (Proc.devRef .tc main_v27))))))))))

theorem k11_v40 : W11 (F := Ideal) m ρ c (Proc.devRef .tc main_v40) = W10 (F := Ideal) m ρ c (Proc.devRef .tc main_v40) :=
  (StableHlo.after_of_writes_sub (hostOps5 (F := Ideal)) (W10 m ρ c) hW5 (by decide) : W11 (F := Ideal) m ρ c (Proc.devRef .tc main_v40) = W10 (F := Ideal) m ρ c (Proc.devRef .tc main_v40))

theorem k11_arg0 : W11 (F := Ideal) m ρ c (Proc.devRef .tc main_arg0) = W10 (F := Ideal) m ρ c (Proc.devRef .tc main_arg0) :=
  (StableHlo.after_of_writes_sub (hostOps5 (F := Ideal)) (W10 m ρ c) hW5 (by decide) : W11 (F := Ideal) m ρ c (Proc.devRef .tc main_arg0) = W10 (F := Ideal) m ρ c (Proc.devRef .tc main_arg0))

theorem k14_v1 : W14 (F := Ideal) m ρ c (Proc.devRef .tc main_v1) = W10 (F := Ideal) m ρ c (Proc.devRef .tc main_v1) :=
  ((W14_of_ne (F := Ideal) m ρ c main_v1 (by decide))).trans
    (((StableHlo.after_of_writes_sub (hostOps6 (F := Ideal)) (W12 m ρ c) hW6 (by decide) : W13 (F := Ideal) m ρ c (Proc.devRef .tc main_v1) = W12 (F := Ideal) m ρ c (Proc.devRef .tc main_v1))).trans
    (((W12_of_ne (F := Ideal) m ρ c main_v1 (by decide))).trans
    ((StableHlo.after_of_writes_sub (hostOps5 (F := Ideal)) (W10 m ρ c) hW5 (by decide) : W11 (F := Ideal) m ρ c (Proc.devRef .tc main_v1) = W10 (F := Ideal) m ρ c (Proc.devRef .tc main_v1)))))

theorem k14_v3 : W14 (F := Ideal) m ρ c (Proc.devRef .tc main_v3) = W10 (F := Ideal) m ρ c (Proc.devRef .tc main_v3) :=
  ((W14_of_ne (F := Ideal) m ρ c main_v3 (by decide))).trans
    (((StableHlo.after_of_writes_sub (hostOps6 (F := Ideal)) (W12 m ρ c) hW6 (by decide) : W13 (F := Ideal) m ρ c (Proc.devRef .tc main_v3) = W12 (F := Ideal) m ρ c (Proc.devRef .tc main_v3))).trans
    (((W12_of_ne (F := Ideal) m ρ c main_v3 (by decide))).trans
    ((StableHlo.after_of_writes_sub (hostOps5 (F := Ideal)) (W10 m ρ c) hW5 (by decide) : W11 (F := Ideal) m ρ c (Proc.devRef .tc main_v3) = W10 (F := Ideal) m ρ c (Proc.devRef .tc main_v3)))))

theorem k14_v25 : W14 (F := Ideal) m ρ c (Proc.devRef .tc main_v25) = W10 (F := Ideal) m ρ c (Proc.devRef .tc main_v25) :=
  ((W14_of_ne (F := Ideal) m ρ c main_v25 (by decide))).trans
    (((StableHlo.after_of_writes_sub (hostOps6 (F := Ideal)) (W12 m ρ c) hW6 (by decide) : W13 (F := Ideal) m ρ c (Proc.devRef .tc main_v25) = W12 (F := Ideal) m ρ c (Proc.devRef .tc main_v25))).trans
    (((W12_of_ne (F := Ideal) m ρ c main_v25 (by decide))).trans
    ((StableHlo.after_of_writes_sub (hostOps5 (F := Ideal)) (W10 m ρ c) hW5 (by decide) : W11 (F := Ideal) m ρ c (Proc.devRef .tc main_v25) = W10 (F := Ideal) m ρ c (Proc.devRef .tc main_v25)))))

theorem k18_v1 : W18 (F := Ideal) m ρ c (Proc.devRef .tc main_v1) = W10 (F := Ideal) m ρ c (Proc.devRef .tc main_v1) :=
  ((W18_of_ne (F := Ideal) m ρ c main_v1 (by decide))).trans
    (((StableHlo.after_of_writes_sub (hostOps8 (F := Ideal)) (W16 m ρ c) hW8 (by decide) : W17 (F := Ideal) m ρ c (Proc.devRef .tc main_v1) = W16 (F := Ideal) m ρ c (Proc.devRef .tc main_v1))).trans
    (((W16_of_ne (F := Ideal) m ρ c main_v1 (by decide))).trans
    (((StableHlo.after_of_writes_sub (hostOps7 (F := Ideal)) (W14 m ρ c) hW7 (by decide) : W15 (F := Ideal) m ρ c (Proc.devRef .tc main_v1) = W14 (F := Ideal) m ρ c (Proc.devRef .tc main_v1))).trans
    (((W14_of_ne (F := Ideal) m ρ c main_v1 (by decide))).trans
    (((StableHlo.after_of_writes_sub (hostOps6 (F := Ideal)) (W12 m ρ c) hW6 (by decide) : W13 (F := Ideal) m ρ c (Proc.devRef .tc main_v1) = W12 (F := Ideal) m ρ c (Proc.devRef .tc main_v1))).trans
    (((W12_of_ne (F := Ideal) m ρ c main_v1 (by decide))).trans
    ((StableHlo.after_of_writes_sub (hostOps5 (F := Ideal)) (W10 m ρ c) hW5 (by decide) : W11 (F := Ideal) m ρ c (Proc.devRef .tc main_v1) = W10 (F := Ideal) m ρ c (Proc.devRef .tc main_v1)))))))))

theorem k18_v3 : W18 (F := Ideal) m ρ c (Proc.devRef .tc main_v3) = W10 (F := Ideal) m ρ c (Proc.devRef .tc main_v3) :=
  ((W18_of_ne (F := Ideal) m ρ c main_v3 (by decide))).trans
    (((StableHlo.after_of_writes_sub (hostOps8 (F := Ideal)) (W16 m ρ c) hW8 (by decide) : W17 (F := Ideal) m ρ c (Proc.devRef .tc main_v3) = W16 (F := Ideal) m ρ c (Proc.devRef .tc main_v3))).trans
    (((W16_of_ne (F := Ideal) m ρ c main_v3 (by decide))).trans
    (((StableHlo.after_of_writes_sub (hostOps7 (F := Ideal)) (W14 m ρ c) hW7 (by decide) : W15 (F := Ideal) m ρ c (Proc.devRef .tc main_v3) = W14 (F := Ideal) m ρ c (Proc.devRef .tc main_v3))).trans
    (((W14_of_ne (F := Ideal) m ρ c main_v3 (by decide))).trans
    (((StableHlo.after_of_writes_sub (hostOps6 (F := Ideal)) (W12 m ρ c) hW6 (by decide) : W13 (F := Ideal) m ρ c (Proc.devRef .tc main_v3) = W12 (F := Ideal) m ρ c (Proc.devRef .tc main_v3))).trans
    (((W12_of_ne (F := Ideal) m ρ c main_v3 (by decide))).trans
    ((StableHlo.after_of_writes_sub (hostOps5 (F := Ideal)) (W10 m ρ c) hW5 (by decide) : W11 (F := Ideal) m ρ c (Proc.devRef .tc main_v3) = W10 (F := Ideal) m ρ c (Proc.devRef .tc main_v3)))))))))

theorem k18_v25 : W18 (F := Ideal) m ρ c (Proc.devRef .tc main_v25) = W10 (F := Ideal) m ρ c (Proc.devRef .tc main_v25) :=
  ((W18_of_ne (F := Ideal) m ρ c main_v25 (by decide))).trans
    (((StableHlo.after_of_writes_sub (hostOps8 (F := Ideal)) (W16 m ρ c) hW8 (by decide) : W17 (F := Ideal) m ρ c (Proc.devRef .tc main_v25) = W16 (F := Ideal) m ρ c (Proc.devRef .tc main_v25))).trans
    (((W16_of_ne (F := Ideal) m ρ c main_v25 (by decide))).trans
    (((StableHlo.after_of_writes_sub (hostOps7 (F := Ideal)) (W14 m ρ c) hW7 (by decide) : W15 (F := Ideal) m ρ c (Proc.devRef .tc main_v25) = W14 (F := Ideal) m ρ c (Proc.devRef .tc main_v25))).trans
    (((W14_of_ne (F := Ideal) m ρ c main_v25 (by decide))).trans
    (((StableHlo.after_of_writes_sub (hostOps6 (F := Ideal)) (W12 m ρ c) hW6 (by decide) : W13 (F := Ideal) m ρ c (Proc.devRef .tc main_v25) = W12 (F := Ideal) m ρ c (Proc.devRef .tc main_v25))).trans
    (((W12_of_ne (F := Ideal) m ρ c main_v25 (by decide))).trans
    ((StableHlo.after_of_writes_sub (hostOps5 (F := Ideal)) (W10 m ρ c) hW5 (by decide) : W11 (F := Ideal) m ρ c (Proc.devRef .tc main_v25) = W10 (F := Ideal) m ρ c (Proc.devRef .tc main_v25)))))))))

theorem k12_arg6 : W12 (F := Ideal) m ρ c (Proc.devRef .tc main_arg6) = W10 (F := Ideal) m ρ c (Proc.devRef .tc main_arg6) :=
  ((W12_of_ne (F := Ideal) m ρ c main_arg6 (by decide))).trans
    ((StableHlo.after_of_writes_sub (hostOps5 (F := Ideal)) (W10 m ρ c) hW5 (by decide) : W11 (F := Ideal) m ρ c (Proc.devRef .tc main_arg6) = W10 (F := Ideal) m ρ c (Proc.devRef .tc main_arg6)))

theorem k16_arg10 : W16 (F := Ideal) m ρ c (Proc.devRef .tc main_arg10) = W10 (F := Ideal) m ρ c (Proc.devRef .tc main_arg10) :=
  ((W16_of_ne (F := Ideal) m ρ c main_arg10 (by decide))).trans
    (((StableHlo.after_of_writes_sub (hostOps7 (F := Ideal)) (W14 m ρ c) hW7 (by decide) : W15 (F := Ideal) m ρ c (Proc.devRef .tc main_arg10) = W14 (F := Ideal) m ρ c (Proc.devRef .tc main_arg10))).trans
    (((W14_of_ne (F := Ideal) m ρ c main_arg10 (by decide))).trans
    (((StableHlo.after_of_writes_sub (hostOps6 (F := Ideal)) (W12 m ρ c) hW6 (by decide) : W13 (F := Ideal) m ρ c (Proc.devRef .tc main_arg10) = W12 (F := Ideal) m ρ c (Proc.devRef .tc main_arg10))).trans
    (((W12_of_ne (F := Ideal) m ρ c main_arg10 (by decide))).trans
    ((StableHlo.after_of_writes_sub (hostOps5 (F := Ideal)) (W10 m ρ c) hW5 (by decide) : W11 (F := Ideal) m ρ c (Proc.devRef .tc main_arg10) = W10 (F := Ideal) m ρ c (Proc.devRef .tc main_arg10)))))))

theorem k13_v124 : W13 (F := Ideal) m ρ c (Proc.devRef .tc main_v124) = W11 (F := Ideal) m ρ c (Proc.devRef .tc main_v124) :=
  ((StableHlo.after_of_writes_sub (hostOps6 (F := Ideal)) (W12 m ρ c) hW6 (by decide) : W13 (F := Ideal) m ρ c (Proc.devRef .tc main_v124) = W12 (F := Ideal) m ρ c (Proc.devRef .tc main_v124))).trans
    ((W12_of_ne (F := Ideal) m ρ c main_v124 (by decide)))

theorem k13_v127 : W13 (F := Ideal) m ρ c (Proc.devRef .tc main_v127) = W11 (F := Ideal) m ρ c (Proc.devRef .tc main_v127) :=
  ((StableHlo.after_of_writes_sub (hostOps6 (F := Ideal)) (W12 m ρ c) hW6 (by decide) : W13 (F := Ideal) m ρ c (Proc.devRef .tc main_v127) = W12 (F := Ideal) m ρ c (Proc.devRef .tc main_v127))).trans
    ((W12_of_ne (F := Ideal) m ρ c main_v127 (by decide)))

theorem k15_v130 : W15 (F := Ideal) m ρ c (Proc.devRef .tc main_v130) = W11 (F := Ideal) m ρ c (Proc.devRef .tc main_v130) :=
  ((StableHlo.after_of_writes_sub (hostOps7 (F := Ideal)) (W14 m ρ c) hW7 (by decide) : W15 (F := Ideal) m ρ c (Proc.devRef .tc main_v130) = W14 (F := Ideal) m ρ c (Proc.devRef .tc main_v130))).trans
    (((W14_of_ne (F := Ideal) m ρ c main_v130 (by decide))).trans
    (((StableHlo.after_of_writes_sub (hostOps6 (F := Ideal)) (W12 m ρ c) hW6 (by decide) : W13 (F := Ideal) m ρ c (Proc.devRef .tc main_v130) = W12 (F := Ideal) m ρ c (Proc.devRef .tc main_v130))).trans
    ((W12_of_ne (F := Ideal) m ρ c main_v130 (by decide)))))

theorem k17_v133 : W17 (F := Ideal) m ρ c (Proc.devRef .tc main_v133) = W11 (F := Ideal) m ρ c (Proc.devRef .tc main_v133) :=
  ((StableHlo.after_of_writes_sub (hostOps8 (F := Ideal)) (W16 m ρ c) hW8 (by decide) : W17 (F := Ideal) m ρ c (Proc.devRef .tc main_v133) = W16 (F := Ideal) m ρ c (Proc.devRef .tc main_v133))).trans
    (((W16_of_ne (F := Ideal) m ρ c main_v133 (by decide))).trans
    (((StableHlo.after_of_writes_sub (hostOps7 (F := Ideal)) (W14 m ρ c) hW7 (by decide) : W15 (F := Ideal) m ρ c (Proc.devRef .tc main_v133) = W14 (F := Ideal) m ρ c (Proc.devRef .tc main_v133))).trans
    (((W14_of_ne (F := Ideal) m ρ c main_v133 (by decide))).trans
    (((StableHlo.after_of_writes_sub (hostOps6 (F := Ideal)) (W12 m ρ c) hW6 (by decide) : W13 (F := Ideal) m ρ c (Proc.devRef .tc main_v133) = W12 (F := Ideal) m ρ c (Proc.devRef .tc main_v133))).trans
    ((W12_of_ne (F := Ideal) m ρ c main_v133 (by decide)))))))

theorem k17_v136 : W17 (F := Ideal) m ρ c (Proc.devRef .tc main_v136) = W11 (F := Ideal) m ρ c (Proc.devRef .tc main_v136) :=
  ((StableHlo.after_of_writes_sub (hostOps8 (F := Ideal)) (W16 m ρ c) hW8 (by decide) : W17 (F := Ideal) m ρ c (Proc.devRef .tc main_v136) = W16 (F := Ideal) m ρ c (Proc.devRef .tc main_v136))).trans
    (((W16_of_ne (F := Ideal) m ρ c main_v136 (by decide))).trans
    (((StableHlo.after_of_writes_sub (hostOps7 (F := Ideal)) (W14 m ρ c) hW7 (by decide) : W15 (F := Ideal) m ρ c (Proc.devRef .tc main_v136) = W14 (F := Ideal) m ρ c (Proc.devRef .tc main_v136))).trans
    (((W14_of_ne (F := Ideal) m ρ c main_v136 (by decide))).trans
    (((StableHlo.after_of_writes_sub (hostOps6 (F := Ideal)) (W12 m ρ c) hW6 (by decide) : W13 (F := Ideal) m ρ c (Proc.devRef .tc main_v136) = W12 (F := Ideal) m ρ c (Proc.devRef .tc main_v136))).trans
    ((W12_of_ne (F := Ideal) m ρ c main_v136 (by decide)))))))

theorem k19_v139 : W19 (F := Ideal) m ρ c (Proc.devRef .tc main_v139) = W11 (F := Ideal) m ρ c (Proc.devRef .tc main_v139) :=
  ((StableHlo.after_of_writes_sub (hostOps9 (F := Ideal)) (W18 m ρ c) hW9 (by decide) : W19 (F := Ideal) m ρ c (Proc.devRef .tc main_v139) = W18 (F := Ideal) m ρ c (Proc.devRef .tc main_v139))).trans
    (((W18_of_ne (F := Ideal) m ρ c main_v139 (by decide))).trans
    (((StableHlo.after_of_writes_sub (hostOps8 (F := Ideal)) (W16 m ρ c) hW8 (by decide) : W17 (F := Ideal) m ρ c (Proc.devRef .tc main_v139) = W16 (F := Ideal) m ρ c (Proc.devRef .tc main_v139))).trans
    (((W16_of_ne (F := Ideal) m ρ c main_v139 (by decide))).trans
    (((StableHlo.after_of_writes_sub (hostOps7 (F := Ideal)) (W14 m ρ c) hW7 (by decide) : W15 (F := Ideal) m ρ c (Proc.devRef .tc main_v139) = W14 (F := Ideal) m ρ c (Proc.devRef .tc main_v139))).trans
    (((W14_of_ne (F := Ideal) m ρ c main_v139 (by decide))).trans
    (((StableHlo.after_of_writes_sub (hostOps6 (F := Ideal)) (W12 m ρ c) hW6 (by decide) : W13 (F := Ideal) m ρ c (Proc.devRef .tc main_v139) = W12 (F := Ideal) m ρ c (Proc.devRef .tc main_v139))).trans
    ((W12_of_ne (F := Ideal) m ρ c main_v139 (by decide)))))))))

theorem k13_v142_0 : W13 (F := Ideal) m ρ c (Proc.devRef .tc main_v142_0) = W12 (F := Ideal) m ρ c (Proc.devRef .tc main_v142_0) :=
  (StableHlo.after_of_writes_sub (hostOps6 (F := Ideal)) (W12 m ρ c) hW6 (by decide) : W13 (F := Ideal) m ρ c (Proc.devRef .tc main_v142_0) = W12 (F := Ideal) m ρ c (Proc.devRef .tc main_v142_0))

theorem k15_v155 : W15 (F := Ideal) m ρ c (Proc.devRef .tc main_v155) = W14 (F := Ideal) m ρ c (Proc.devRef .tc main_v155) :=
  (StableHlo.after_of_writes_sub (hostOps7 (F := Ideal)) (W14 m ρ c) hW7 (by decide) : W15 (F := Ideal) m ρ c (Proc.devRef .tc main_v155) = W14 (F := Ideal) m ρ c (Proc.devRef .tc main_v155))

theorem k17_v169_0 : W17 (F := Ideal) m ρ c (Proc.devRef .tc main_v169_0) = W16 (F := Ideal) m ρ c (Proc.devRef .tc main_v169_0) :=
  (StableHlo.after_of_writes_sub (hostOps8 (F := Ideal)) (W16 m ρ c) hW8 (by decide) : W17 (F := Ideal) m ρ c (Proc.devRef .tc main_v169_0) = W16 (F := Ideal) m ρ c (Proc.devRef .tc main_v169_0))

theorem k19_v182 : W19 (F := Ideal) m ρ c (Proc.devRef .tc main_v182) = W18 (F := Ideal) m ρ c (Proc.devRef .tc main_v182) :=
  (StableHlo.after_of_writes_sub (hostOps9 (F := Ideal)) (W18 m ρ c) hW9 (by decide) : W19 (F := Ideal) m ρ c (Proc.devRef .tc main_v182) = W18 (F := Ideal) m ρ c (Proc.devRef .tc main_v182))

theorem k20_v118_0 : W20 (F := Ideal) m ρ c (Proc.devRef .tc main_v118_0) = W10 (F := Ideal) m ρ c (Proc.devRef .tc main_v118_0) :=
  ((W20_of_ne (F := Ideal) m ρ c main_v118_0 (by decide))).trans
    (((StableHlo.after_of_writes_sub (hostOps9 (F := Ideal)) (W18 m ρ c) hW9 (by decide) : W19 (F := Ideal) m ρ c (Proc.devRef .tc main_v118_0) = W18 (F := Ideal) m ρ c (Proc.devRef .tc main_v118_0))).trans
    (((W18_of_ne (F := Ideal) m ρ c main_v118_0 (by decide))).trans
    (((StableHlo.after_of_writes_sub (hostOps8 (F := Ideal)) (W16 m ρ c) hW8 (by decide) : W17 (F := Ideal) m ρ c (Proc.devRef .tc main_v118_0) = W16 (F := Ideal) m ρ c (Proc.devRef .tc main_v118_0))).trans
    (((W16_of_ne (F := Ideal) m ρ c main_v118_0 (by decide))).trans
    (((StableHlo.after_of_writes_sub (hostOps7 (F := Ideal)) (W14 m ρ c) hW7 (by decide) : W15 (F := Ideal) m ρ c (Proc.devRef .tc main_v118_0) = W14 (F := Ideal) m ρ c (Proc.devRef .tc main_v118_0))).trans
    (((W14_of_ne (F := Ideal) m ρ c main_v118_0 (by decide))).trans
    (((StableHlo.after_of_writes_sub (hostOps6 (F := Ideal)) (W12 m ρ c) hW6 (by decide) : W13 (F := Ideal) m ρ c (Proc.devRef .tc main_v118_0) = W12 (F := Ideal) m ρ c (Proc.devRef .tc main_v118_0))).trans
    (((W12_of_ne (F := Ideal) m ρ c main_v118_0 (by decide))).trans
    ((StableHlo.after_of_writes_sub (hostOps5 (F := Ideal)) (W10 m ρ c) hW5 (by decide) : W11 (F := Ideal) m ρ c (Proc.devRef .tc main_v118_0) = W10 (F := Ideal) m ρ c (Proc.devRef .tc main_v118_0)))))))))))

def R5 (V : (c : Dev nD) → (b : Ref sig .tc) → Buf (Elt Ideal) ((c : Thread nD τ).loc b)) (c : Dev nD) :
    Fin NN → Fin 128 → EReal := fused (fun i => V c (Pipeline.arrRef spec5 2) (ix2 i 0)) (cur2 (V c (Pipeline.arrRef spec5 0))) (cur2 (V c (Pipeline.arrRef spec5 1))) (cur2 (V c (Pipeline.arrRef spec5 3))) (fun j => V c (Pipeline.arrRef spec5 4) (ix2 0 j))

theorem R5_eq : R5 (V11 (F := Ideal) m ρ) c = C1 m c := by
  have e1 : (fun i => V11 (F := Ideal) m ρ c (Pipeline.arrRef spec5 2) (ix2 i 0)) = SNv m c :=
    funext fun i => (congrFun (k11_v27 m ρ c) (ix2 i 0)).trans (b_v27 m ρ c i)
  have e2 : cur2 (V11 (F := Ideal) m ρ c (Pipeline.arrRef spec5 0)) = agg (DW m c) (SRC m c) (WNv m c) (cur2 (A0 m c)) :=
    funext fun i => funext fun k => (congrFun (k11_v40 m ρ c) (ix2 i k)).trans (b_v40 m ρ c i k)
  have e3 : cur2 (V11 (F := Ideal) m ρ c (Pipeline.arrRef spec5 1)) = cur2 (A0 m c) :=
    funext fun i => funext fun k => congrFun ((k11_arg0 m ρ c).trans (b_arg0 m ρ c)) (ix2 i k)
  have e4 : cur2 (V11 (F := Ideal) m ρ c (Pipeline.arrRef spec5 3)) = slab (A2 m c) 1 :=
    funext fun k => funext fun j => (h5_v141 (W10 (F := Ideal) m ρ c) k j).trans (congrFun (b_arg2 m ρ c) (ix3 1 k j))
  have e5 : (fun j => V11 (F := Ideal) m ρ c (Pipeline.arrRef spec5 4) (ix2 0 j)) = row (A3 m c) 1 :=
    funext fun k => (h5_v121 (W10 (F := Ideal) m ρ c) k).trans (congrFun (b_arg3 m ρ c) (ix2 1 k))
  unfold R5 C1
  rw [e1, e2, e3, e4, e5]

theorem s12_c (i : Fin NN) (j : Fin 128) :
    W12 (F := Ideal) m ρ c (Proc.devRef .tc main_v142_0) (ix2 i j) = C1 m c i j :=
  (congrFun (W12_arr (F := Ideal) m ρ c 5) (ix2 i j)).trans
    ((Reg5.out_c (V11 (F := Ideal) m ρ) c i j).trans (congrFun (congrFun (R5_eq m ρ c) i) j))

theorem s12_sum (b : Fin 20) (j : Fin 128) :
    W12 (F := Ideal) m ρ c (Proc.devRef .tc main_v142_1) (ix3 b 0 j) = blkSum (C1 m c) b j :=
  (congrFun (W12_arr (F := Ideal) m ρ c 6) (ix3 b 0 j)).trans
    ((Reg5.out_sum (V11 (F := Ideal) m ρ) c b j).trans (congrArg (fun f => blkSum f b j) (R5_eq m ρ c)))

theorem s12_sq (b : Fin 20) (j : Fin 128) :
    W12 (F := Ideal) m ρ c (Proc.devRef .tc main_v142_2) (ix3 b 0 j) = blkSq (C1 m c) b j :=
  (congrFun (W12_arr (F := Ideal) m ρ c 7) (ix3 b 0 j)).trans
    ((Reg5.out_sq (V11 (F := Ideal) m ρ) c b j).trans (congrArg (fun f => blkSq f b j) (R5_eq m ρ c)))

theorem s13_mean (j : Fin 128) :
    W13 (F := Ideal) m ρ c (Proc.devRef .tc main_v145) (ix2 0 j) = meanB nLit (C1 m c) j :=
  (h6_v145 (W12 (F := Ideal) m ρ c) j).trans
    (congrArg (fun s => Ideal.div s nLit) (Finset.sum_congr rfl fun b _ => s12_sum m ρ c b j))

theorem s13_var (j : Fin 128) :
    W13 (F := Ideal) m ρ c (Proc.devRef .tc main_v152) (ix2 0 j) = varB nLit (C1 m c) j := by
  refine (h6_v152 (W12 (F := Ideal) m ρ c) j).trans ?_
  have hm := s13_mean m ρ c j
  have hs : (∑ b : Fin 20, er (W12 (F := Ideal) m ρ c (Proc.devRef .tc main_v142_2) (ix3 b (0 : Fin 1) j)))
      = ∑ b : Fin 20, blkSq (C1 m c) b j := Finset.sum_congr rfl fun b _ => s12_sq m ρ c b j
  show max (Ideal.div (∑ b : Fin 20, er (W12 (F := Ideal) m ρ c (Proc.devRef .tc main_v142_2) (ix3 b (0 : Fin 1) j))) nLit
      - er (W13 (F := Ideal) m ρ c (Proc.devRef .tc main_v145) (ix2 0 j)) * er (W13 (F := Ideal) m ρ c (Proc.devRef .tc main_v145) (ix2 0 j))) 0 = _
  rw [hs, hm]
  rfl

theorem s13_w (k j : Fin 128) : W13 (F := Ideal) m ρ c (Proc.devRef .tc main_v154) (ix2 k j) = slab (A6 m c) 1 k j :=
  (h6_v154 (W12 (F := Ideal) m ρ c) k j).trans (congrFun ((k12_arg6 m ρ c).trans (b_arg6 m ρ c)) (ix3 1 k j))

def R6 (V : (c : Dev nD) → (b : Ref sig .tc) → Buf (Elt Ideal) ((c : Thread nD τ).loc b)) (c : Dev nD) :
    Fin NN → Fin 128 → EReal := mm (bnRelu epsLit (cur2 (V c (Pipeline.arrRef spec6 0))) (fun k => V c (Pipeline.arrRef spec6 1) (ix2 0 k)) (fun k => V c (Pipeline.arrRef spec6 2) (ix2 0 k)) (fun k => V c (Pipeline.arrRef spec6 3) (ix2 0 k)) (fun k => V c (Pipeline.arrRef spec6 4) (ix2 0 k))) (cur2 (V c (Pipeline.arrRef spec6 5)))

theorem R6_eq : R6 (V13 (F := Ideal) m ρ) c = H2 m c := by
  have e0 : cur2 (V13 (F := Ideal) m ρ c (Pipeline.arrRef spec6 0)) = C1 m c :=
    funext fun i => funext fun j => (congrFun (k13_v142_0 m ρ c) (ix2 i j)).trans (s12_c m ρ c i j)
  have e1 : (fun k => V13 (F := Ideal) m ρ c (Pipeline.arrRef spec6 1) (ix2 0 k)) = meanB nLit (C1 m c) :=
    funext fun k => s13_mean m ρ c k
  have e2 : (fun k => V13 (F := Ideal) m ρ c (Pipeline.arrRef spec6 2) (ix2 0 k)) = varB nLit (C1 m c) :=
    funext fun k => s13_var m ρ c k
  have e3 : (fun k => V13 (F := Ideal) m ρ c (Pipeline.arrRef spec6 3) (ix2 0 k)) = row (A4 m c) 1 :=
    funext fun k => (congrFun (k13_v124 m ρ c) (ix2 0 k)).trans ((h5_v124 (W10 (F := Ideal) m ρ c) k).trans (congrFun (b_arg4 m ρ c) (ix2 1 k)))
  have e4 : (fun k => V13 (F := Ideal) m ρ c (Pipeline.arrRef spec6 4) (ix2 0 k)) = row (A5 m c) 1 :=
    funext fun k => (congrFun (k13_v127 m ρ c) (ix2 0 k)).trans ((h5_v127 (W10 (F := Ideal) m ρ c) k).trans (congrFun (b_arg5 m ρ c) (ix2 1 k)))
  have e5 : cur2 (V13 (F := Ideal) m ρ c (Pipeline.arrRef spec6 5)) = slab (A6 m c) 1 :=
    funext fun k => funext fun j => s13_w m ρ c k j
  unfold R6 H2
  rw [e0, e1, e2, e3, e4, e5]

theorem s14_h (i : Fin NN) (j : Fin 128) : W14 (F := Ideal) m ρ c (Proc.devRef .tc main_v155) (ix2 i j) = H2 m c i j :=
  (congrFun (W14_arr (F := Ideal) m ρ c 6) (ix2 i j)).trans
    ((Reg6.out_h (V13 (F := Ideal) m ρ) c i j).trans (congrFun (congrFun (R6_eq m ρ c) i) j))

theorem f14_v3 (e : Fin EE) : W14 (F := Ideal) m ρ c (Proc.devRef .tc main_v3) (ix1 e) = DW m c e :=
  (congrFun (k14_v3 m ρ c) (ix1 e)).trans (b_v3 m ρ c e)
theorem f14_v1 (e : Fin EE) : W14 (F := Ideal) m ρ c (Proc.devRef .tc main_v1) (ix1 e) = A12 m c (ix2 0 e) :=
  (congrFun (k14_v1 m ρ c) (ix1 e)).trans (b_v1 m ρ c e)
theorem f14_v25 (e : Fin EE) : W14 (F := Ideal) m ρ c (Proc.devRef .tc main_v25) (ix1 e) = WNv m c e :=
  (congrFun (k14_v25 m ρ c) (ix1 e)).trans (b_v25 m ρ c e)

theorem s15_agg (i : Fin NN) (k : Fin 128) :
    W15 (F := Ideal) m ρ c (Proc.devRef .tc main_v168) (ix2 i k) = agg (DW m c) (SRC m c) (WNv m c) (H2 m c) i k := by
  refine (h7_v168 (W14 (F := Ideal) m ρ c) i k).trans ?_
  unfold agg
  refine Finset.sum_congr rfl fun e _ => ?_
  rw [f14_v3 m ρ c e, f14_v1 m ρ c e, f14_v25 m ρ c e, s14_h m ρ c]
  rfl

def R7 (V : (c : Dev nD) → (b : Ref sig .tc) → Buf (Elt Ideal) ((c : Thread nD τ).loc b)) (c : Dev nD) :
    Fin NN → Fin 128 → EReal := comb (fun i => V c (Pipeline.arrRef spec7 2) (ix2 i 0)) (cur2 (V c (Pipeline.arrRef spec7 0))) (cur2 (V c (Pipeline.arrRef spec7 1))) (fun j => V c (Pipeline.arrRef spec7 3) (ix2 0 j))

theorem R7_eq : R7 (V15 (F := Ideal) m ρ) c = C2 m c := by
  have e2 : (fun i => V15 (F := Ideal) m ρ c (Pipeline.arrRef spec7 2) (ix2 i 0)) = SNv m c :=
    funext fun i => (congrFun (k15_v27 m ρ c) (ix2 i 0)).trans (b_v27 m ρ c i)
  have e0 : cur2 (V15 (F := Ideal) m ρ c (Pipeline.arrRef spec7 0)) = agg (DW m c) (SRC m c) (WNv m c) (H2 m c) :=
    funext fun i => funext fun k => s15_agg m ρ c i k
  have e1 : cur2 (V15 (F := Ideal) m ρ c (Pipeline.arrRef spec7 1)) = H2 m c :=
    funext fun i => funext fun j => (congrFun (k15_v155 m ρ c) (ix2 i j)).trans (s14_h m ρ c i j)
  have e3 : (fun k => V15 (F := Ideal) m ρ c (Pipeline.arrRef spec7 3) (ix2 0 k)) = row (A7 m c) 1 :=
    funext fun k => (congrFun (k15_v130 m ρ c) (ix2 0 k)).trans ((h5_v130 (W10 (F := Ideal) m ρ c) k).trans (congrFun (b_arg7 m ρ c) (ix2 1 k)))
  unfold R7 C2
  rw [e2, e0, e1, e3]

theorem s16_c (i : Fin NN) (j : Fin 128) :
    W16 (F := Ideal) m ρ c (Proc.devRef .tc main_v169_0) (ix2 i j) = C2 m c i j :=
  (congrFun (W16_arr (F := Ideal) m ρ c 4) (ix2 i j)).trans
    ((Reg7.out_c (V15 (F := Ideal) m ρ) c i j).trans (congrFun (congrFun (R7_eq m ρ c) i) j))

theorem s16_sum (b : Fin 20) (j : Fin 128) :
    W16 (F := Ideal) m ρ c (Proc.devRef .tc main_v169_1) (ix3 b 0 j) = blkSum (C2 m c) b j :=
  (congrFun (W16_arr (F := Ideal) m ρ c 5) (ix3 b 0 j)).trans
    ((Reg7.out_sum (V15 (F := Ideal) m ρ) c b j).trans (congrArg (fun f => blkSum f b j) (R7_eq m ρ c)))

theorem s16_sq (b : Fin 20) (j : Fin 128) :
    W16 (F := Ideal) m ρ c (Proc.devRef .tc main_v169_2) (ix3 b 0 j) = blkSq (C2 m c) b j :=
  (congrFun (W16_arr (F := Ideal) m ρ c 6) (ix3 b 0 j)).trans
    ((Reg7.out_sq (V15 (F := Ideal) m ρ) c b j).trans (congrArg (fun f => blkSq f b j) (R7_eq m ρ c)))

theorem s17_mean (j : Fin 128) :
    W17 (F := Ideal) m ρ c (Proc.devRef .tc main_v172) (ix2 0 j) = meanB nLit (C2 m c) j :=
  (h8_v172 (W16 (F := Ideal) m ρ c) j).trans
    (congrArg (fun s => Ideal.div s nLit) (Finset.sum_congr rfl fun b _ => s16_sum m ρ c b j))

theorem s17_var (j : Fin 128) :
    W17 (F := Ideal) m ρ c (Proc.devRef .tc main_v179) (ix2 0 j) = varB nLit (C2 m c) j := by
  refine (h8_v179 (W16 (F := Ideal) m ρ c) j).trans ?_
  have hm := s17_mean m ρ c j
  have hs : (∑ b : Fin 20, er (W16 (F := Ideal) m ρ c (Proc.devRef .tc main_v169_2) (ix3 b (0 : Fin 1) j)))
      = ∑ b : Fin 20, blkSq (C2 m c) b j := Finset.sum_congr rfl fun b _ => s16_sq m ρ c b j
  show max (Ideal.div (∑ b : Fin 20, er (W16 (F := Ideal) m ρ c (Proc.devRef .tc main_v169_2) (ix3 b (0 : Fin 1) j))) nLit
      - er (W17 (F := Ideal) m ρ c (Proc.devRef .tc main_v172) (ix2 0 j)) * er (W17 (F := Ideal) m ρ c (Proc.devRef .tc main_v172) (ix2 0 j))) 0 = _
  rw [hs, hm]
  rfl

theorem s17_w (k : Fin 128) (j : Fin 40) : W17 (F := Ideal) m ρ c (Proc.devRef .tc main_v181) (ix2 k j) = slab (A10 m c) 1 k j :=
  (h8_v181 (W16 (F := Ideal) m ρ c) k j).trans (congrFun ((k16_arg10 m ρ c).trans (b_arg10 m ρ c)) (ix3 1 k j))

def R8 (V : (c : Dev nD) → (b : Ref sig .tc) → Buf (Elt Ideal) ((c : Thread nD τ).loc b)) (c : Dev nD) :
    Fin NN → Fin 40 → EReal := mm (bnRelu epsLit (cur2 (V c (Pipeline.arrRef spec8 0))) (fun k => V c (Pipeline.arrRef spec8 1) (ix2 0 k)) (fun k => V c (Pipeline.arrRef spec8 2) (ix2 0 k)) (fun k => V c (Pipeline.arrRef spec8 3) (ix2 0 k)) (fun k => V c (Pipeline.arrRef spec8 4) (ix2 0 k))) (cur2 (V c (Pipeline.arrRef spec8 5)))

theorem R8_eq : R8 (V17 (F := Ideal) m ρ) c = H3 m c := by
  have e0 : cur2 (V17 (F := Ideal) m ρ c (Pipeline.arrRef spec8 0)) = C2 m c :=
    funext fun i => funext fun j => (congrFun (k17_v169_0 m ρ c) (ix2 i j)).trans (s16_c m ρ c i j)
  have e1 : (fun k => V17 (F := Ideal) m ρ c (Pipeline.arrRef spec8 1) (ix2 0 k)) = meanB nLit (C2 m c) :=
    funext fun k => s17_mean m ρ c k
  have e2 : (fun k => V17 (F := Ideal) m ρ c (Pipeline.arrRef spec8 2) (ix2 0 k)) = varB nLit (C2 m c) :=
    funext fun k => s17_var m ρ c k
  have e3 : (fun k => V17 (F := Ideal) m ρ c (Pipeline.arrRef spec8 3) (ix2 0 k)) = row (A8 m c) 1 :=
    funext fun k => (congrFun (k17_v133 m ρ c) (ix2 0 k)).trans ((h5_v133 (W10 (F := Ideal) m ρ c) k).trans (congrFun (b_arg8 m ρ c) (ix2 1 k)))
  have e4 : (fun k => V17 (F := Ideal) m ρ c (Pipeline.arrRef spec8 4) (ix2 0 k)) = row (A9 m c) 1 :=
    funext fun k => (congrFun (k17_v136 m ρ c) (ix2 0 k)).trans ((h5_v136 (W10 (F := Ideal) m ρ c) k).trans (congrFun (b_arg9 m ρ c) (ix2 1 k)))
  have e5 : cur2 (V17 (F := Ideal) m ρ c (Pipeline.arrRef spec8 5)) = slab (A10 m c) 1 :=
    funext fun k => funext fun j => s17_w m ρ c k j
  unfold R8 H3
  rw [e0, e1, e2, e3, e4, e5]

theorem s18_h (i : Fin NN) (j : Fin 40) : W18 (F := Ideal) m ρ c (Proc.devRef .tc main_v182) (ix2 i j) = H3 m c i j :=
  (congrFun (W18_arr (F := Ideal) m ρ c 6) (ix2 i j)).trans
    ((Reg8.out_h (V17 (F := Ideal) m ρ) c i j).trans (congrFun (congrFun (R8_eq m ρ c) i) j))

theorem f18_v3 (e : Fin EE) : W18 (F := Ideal) m ρ c (Proc.devRef .tc main_v3) (ix1 e) = DW m c e :=
  (congrFun (k18_v3 m ρ c) (ix1 e)).trans (b_v3 m ρ c e)
theorem f18_v1 (e : Fin EE) : W18 (F := Ideal) m ρ c (Proc.devRef .tc main_v1) (ix1 e) = A12 m c (ix2 0 e) :=
  (congrFun (k18_v1 m ρ c) (ix1 e)).trans (b_v1 m ρ c e)
theorem f18_v25 (e : Fin EE) : W18 (F := Ideal) m ρ c (Proc.devRef .tc main_v25) (ix1 e) = WNv m c e :=
  (congrFun (k18_v25 m ρ c) (ix1 e)).trans (b_v25 m ρ c e)

theorem s19_agg (i : Fin NN) (k : Fin 40) :
    W19 (F := Ideal) m ρ c (Proc.devRef .tc main_v195) (ix2 i k) = agg (DW m c) (SRC m c) (WNv m c) (H3 m c) i k := by
  refine (h9_v195 (W18 (F := Ideal) m ρ c) i k).trans ?_
  unfold agg
  refine Finset.sum_congr rfl fun e _ => ?_
  rw [f18_v3 m ρ c e, f18_v1 m ρ c e, f18_v25 m ρ c e, s18_h m ρ c]
  rfl

def R9 (V : (c : Dev nD) → (b : Ref sig .tc) → Buf (Elt Ideal) ((c : Thread nD τ).loc b)) (c : Dev nD) :
    Fin NN → Fin 40 → EReal := comb (fun i => V c (Pipeline.arrRef spec9 2) (ix2 i 0)) (cur2 (V c (Pipeline.arrRef spec9 0))) (cur2 (V c (Pipeline.arrRef spec9 1))) (fun j => V c (Pipeline.arrRef spec9 3) (ix2 0 j))

theorem R9_eq : R9 (V19 (F := Ideal) m ρ) c = comb (SNv m c) (agg (DW m c) (SRC m c) (WNv m c) (H3 m c)) (H3 m c) (row (A11 m c) 1) := by
  have e2 : (fun i => V19 (F := Ideal) m ρ c (Pipeline.arrRef spec9 2) (ix2 i 0)) = SNv m c :=
    funext fun i => (congrFun (k19_v27 m ρ c) (ix2 i 0)).trans (b_v27 m ρ c i)
  have e0 : cur2 (V19 (F := Ideal) m ρ c (Pipeline.arrRef spec9 0)) = agg (DW m c) (SRC m c) (WNv m c) (H3 m c) :=
    funext fun i => funext fun k => s19_agg m ρ c i k
  have e1 : cur2 (V19 (F := Ideal) m ρ c (Pipeline.arrRef spec9 1)) = H3 m c :=
    funext fun i => funext fun j => (congrFun (k19_v182 m ρ c) (ix2 i j)).trans (s18_h m ρ c i j)
  have e3 : (fun k => V19 (F := Ideal) m ρ c (Pipeline.arrRef spec9 3) (ix2 0 k)) = row (A11 m c) 1 :=
    funext fun k => (congrFun (k19_v139 m ρ c) (ix2 0 k)).trans ((h5_v139 (W10 (F := Ideal) m ρ c) k).trans (congrFun (b_arg11 m ρ c) (ix2 1 k)))
  unfold R9
  rw [e2, e0, e1, e3]

theorem out1 (i : Fin NN) (j : Fin 40) :
    W20 (F := Ideal) m ρ c (Proc.devRef .tc main_v196_0) (ix2 i j)
      = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) 1 i j :=
  (congrFun (W20_arr (F := Ideal) m ρ c 4) (ix2 i j)).trans
    ((Reg9.out_c (V19 (F := Ideal) m ρ) c i j).trans
      ((congrFun (congrFun (R9_eq m ρ c) i) j).trans (congrFun (congrFun (tower1_eq m c).symm i) j)))

theorem kernel_value (g : Fin 2) (i : Fin NN) (j : Fin 40) :
    W21 (F := Ideal) m ρ c (Proc.devRef .tc main_v199) (ix3 g i j)
      = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) g i j := by
  match g with
  | ⟨0, _⟩ =>
    exact (h10_v199_0 (W20 (F := Ideal) m ρ c) i j).trans ((congrFun (k20_v118_0 m ρ c) (ix2 i j)).trans (b_out0 m ρ c i j))
  | ⟨1, _⟩ =>
    exact (h10_v199_1 (W20 (F := Ideal) m ρ c) i j).trans (out1 m ρ c i j)

end Run

end Cert.GCN.KT1

end
-- ==== Proof.RefGraph.lean ====
import proofs.«430204_j43868795961418_3_alg».proof.Proof.RefRun
import proofs.«430204_j43868795961418_3_alg».proof.Proof.Args
import Idealize.ShloMosaic.Lib.ValueLayout
import Idealize.ShloMosaic.Lib.IdealHost
import Idealize.ShloMosaic.Lib.StackMember

noncomputable section

open scoped BigOperators

namespace Cert.GCN.Ref

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.RowOps Cert.GCN.RefRun

section Layout
variable {α : Type}

theorem bval {n : ℕ} (i : Fin n) : i.val = if n = 1 then 0 else i.val := by
  have := i.isLt
  split <;> omega

/-- Broadcast to a single column, a vector is read back at (i, ·) as its entry i. -/
theorem col_apply {a : ℕ} (h : (⟨1, ![a]⟩ : Shape).BroadcastsInDim ⟨2, ![a, 1]⟩ (![0] : Fin 1 → Fin 2))
    (v : (⟨1, ![a]⟩ : Shape).Idx → α) (i : Fin a) (z : Fin 1) :
    broadcastInDim ⟨2, ![a, 1]⟩ ![0] h v (ix2 i z) = v (ix1 i) :=
  broadcastInDim_apply _ h v _ (ix1 i) fun d => match d with | ⟨0, _⟩ => bval i

/-- Entry (i, j) of a row-indexed vector broadcast across the columns is its entry i. -/
theorem colcol_apply {a b : ℕ} (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : (⟨1, ![a]⟩ : Shape).Idx → α) (i : Fin a) (j : Fin b) :
    broadcastInDim ⟨2, ![a, b]⟩ ![0, 1] h2 (broadcastInDim ⟨2, ![a, 1]⟩ ![0] h1 v) (ix2 i j) = v (ix1 i) :=
  (broadcastInDim_apply _ h2 _ (ix2 i j) (ix2 i (0 : Fin 1)) fun d => match d with
    | ⟨0, _⟩ => bval i
    | ⟨1, _⟩ => (if_pos rfl).symm).trans (col_apply h1 v i 0)

/-- Entry (i, j) of a column-indexed vector broadcast down the rows is its entry j. -/
theorem rowrow_apply {a b : ℕ} (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (v : (⟨1, ![b]⟩ : Shape).Idx → α) (i : Fin a) (j : Fin b) :
    broadcastInDim ⟨2, ![a, b]⟩ ![0, 1] h2 (broadcastInDim ⟨2, ![1, b]⟩ ![1] h1 v) (ix2 i j) = v (ix1 j) :=
  (broadcastInDim_oneRow_apply h2 _ i j).trans
    (broadcastInDim_apply _ h1 v _ (ix1 j) fun d => match d with | ⟨0, _⟩ => bval j)

/-- Under a new leading axis of extent one, entry (·, i, j) is the matrix's entry (i, j). -/
theorem lead_apply {a b : ℕ} (h : (⟨2, ![a, b]⟩ : Shape).BroadcastsInDim ⟨3, ![1, a, b]⟩ (![1, 2] : Fin 2 → Fin 3))
    (v : (⟨2, ![a, b]⟩ : Shape).Idx → α) (z : Fin 1) (i : Fin a) (j : Fin b) :
    broadcastInDim ⟨3, ![1, a, b]⟩ ![1, 2] h v (ix3 z i j) = v (ix2 i j) :=
  broadcastInDim_apply _ h v _ (ix2 i j) fun d => match d with
    | ⟨0, _⟩ => bval i
    | ⟨1, _⟩ => bval j

/-- Cutting slab g out of a two-matrix stack and dropping the unit axis gives Args.lean's `slab`. -/
theorem slab_apply {a b : ℕ} (g : Fin 2) (x : (⟨3, ![2, a, b]⟩ : Shape).Idx → α)
    (h : (⟨3, ![2, a, b]⟩ : Shape).Slices ![g.val, 0, 0] ⟨3, ![1, a, b]⟩)
    (h' : (⟨3, ![1, a, b]⟩ : Shape).ShapeCasts ⟨2, ![a, b]⟩) (k : Fin a) (j : Fin b) :
    shapeCast ⟨2, ![a, b]⟩ (extractStridedSlice ⟨3, ![1, a, b]⟩ ![g.val, 0, 0] x h) h' (ix2 k j) = slab x g k j :=
  (shapeCast_1ab_ab_apply _ h' k j).trans (extractStridedSlice_apply _ x h _ _ fun d => match d with
    | ⟨0, _⟩ => (Nat.add_zero _).symm
    | ⟨1, _⟩ => (Nat.zero_add _).symm
    | ⟨2, _⟩ => (Nat.zero_add _).symm)

/-- Cutting row g out of a two-row array and dropping the unit axis gives Args.lean's `row`. -/
theorem rowslice_apply {b : ℕ} (g : Fin 2) (x : (⟨2, ![2, b]⟩ : Shape).Idx → α)
    (h : (⟨2, ![2, b]⟩ : Shape).Slices ![g.val, 0] ⟨2, ![1, b]⟩)
    (h' : (⟨2, ![1, b]⟩ : Shape).ShapeCasts ⟨1, ![b]⟩) (j : Fin b) :
    shapeCast ⟨1, ![b]⟩ (extractStridedSlice ⟨2, ![1, b]⟩ ![g.val, 0] x h) h' (ix1 j) = row x g j :=
  (shapeCast_1a_a_apply _ h' j).trans (slice2_axis0_apply g.val x h (0 : Fin 1) j g (Nat.add_zero _).symm)

end Layout

def wrapOp (w : IVec S1600000 32) : IVec S1600000 32 :=
  select (cmpi .slt w (broadcastInDim S1600000 ![] bcast_S_S1600000 (constantI S_ 32 0#32)))
    (addi w (broadcastInDim S1600000 ![] bcast_S_S1600000 (constantI S_ 32 100000#32))) w

theorem wrapOp_apply (w : IVec S1600000 32) (e : Fin EE) : wrapOp w (ix1 e) = wrapW (w (ix1 e)) := by
  unfold wrapOp wrapW
  show Scalar.select (IntOp.cmpi .slt (w (ix1 e)) (broadcastInDim S1600000 ![] bcast_S_S1600000 (constantI S_ 32 0#32) (ix1 e)))
      (IntOp.addi (w (ix1 e)) (broadcastInDim S1600000 ![] bcast_S_S1600000 (constantI S_ 32 100000#32) (ix1 e))) (w (ix1 e)) = _
  rw [broadcastInDim_scalar_apply, broadcastInDim_scalar_apply]
  rfl

theorem colsum_apply (y : FVec Ideal S100000x128 .f32) (init : FVec Ideal S_ .f32) (j : Fin 128) :
    Host.reduceAdd y init reducesTo_S100000x128_S128_d0 h_S_ (ix1 j) = init (Shape.Idx.first h_S_) + ∑ k : Fin 100000, y (ix2 k j) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

/-- One convolution as the program spells it, at any output width: the product with the weights, gathered at the wrapped source words, weighted, scattered onto zeros at the target words, plus the self-weighted product, plus the bias. -/
def convOp {C : ℕ} (dg : GatherDims ⟨2, ![NN, C]⟩ S1600000x1 ⟨2, ![EE, C]⟩) (ds : ScatterDims ⟨2, ![NN, C]⟩ S1600000x1 ⟨2, ![EE, C]⟩)
    (bz : S_.BroadcastsInDim ⟨2, ![NN, C]⟩ (![] : Fin 0 → Fin 2)) (be : S1600000x1.BroadcastsInDim ⟨2, ![EE, C]⟩ (![0, 1] : Fin 2 → Fin 2))
    (bn : S100000x1.BroadcastsInDim ⟨2, ![NN, C]⟩ (![0, 1] : Fin 2 → Fin 2)) (b1 : (⟨1, ![C]⟩ : Shape).BroadcastsInDim ⟨2, ![1, C]⟩ (![1] : Fin 1 → Fin 2))
    (b2 : (⟨2, ![1, C]⟩ : Shape).BroadcastsInDim ⟨2, ![NN, C]⟩ (![0, 1] : Fin 2 → Fin 2))
    (hin : FVec Ideal S100000x128 .f32) (Wm : FVec Ideal ⟨2, ![128, C]⟩ .f32) (bv : FVec Ideal ⟨1, ![C]⟩ .f32)
    (sw tw : IVec S1600000 32) (wv : FVec Ideal S1600000 .f32) (sv : FVec Ideal S100000 .f32) : FVec Ideal ⟨2, ![NN, C]⟩ .f32 :=
  addf (addf (Host.scatterAdd ds (broadcastInDim _ _ bz (constant (F := Ideal) S_ .f32 0x00000000#32))
      (broadcastInDim S1600000x1 ![0] bcast_S1600000_S1600000x1_0 tw)
      (mulf (Host.gather dg (Host.dotGeneral (DotDims.plain NN 128 C) none hin Wm)
          (broadcastInDim S1600000x1 ![0] bcast_S1600000_S1600000x1_0 (wrapOp sw)))
        (broadcastInDim _ _ be (broadcastInDim S1600000x1 ![0] bcast_S1600000_S1600000x1_0 wv))))
    (mulf (broadcastInDim _ _ bn (broadcastInDim S100000x1 ![0] bcast_S100000_S100000x1_0 sv))
      (Host.dotGeneral (DotDims.plain NN 128 C) none hin Wm)))
    (broadcastInDim _ _ b2 (broadcastInDim _ _ b1 bv))

/-- At (i, j) the term is Spec.lean's `conv`: the scatter becomes the sum over the edges landing on i, the gather reads the wrapped source row. -/
theorem convOp_apply {C : ℕ} {dg : GatherDims ⟨2, ![NN, C]⟩ S1600000x1 ⟨2, ![EE, C]⟩} {ds : ScatterDims ⟨2, ![NN, C]⟩ S1600000x1 ⟨2, ![EE, C]⟩}
    {bz : S_.BroadcastsInDim ⟨2, ![NN, C]⟩ (![] : Fin 0 → Fin 2)} {be : S1600000x1.BroadcastsInDim ⟨2, ![EE, C]⟩ (![0, 1] : Fin 2 → Fin 2)}
    {bn : S100000x1.BroadcastsInDim ⟨2, ![NN, C]⟩ (![0, 1] : Fin 2 → Fin 2)} {b1 : (⟨1, ![C]⟩ : Shape).BroadcastsInDim ⟨2, ![1, C]⟩ (![1] : Fin 1 → Fin 2)}
    {b2 : (⟨2, ![1, C]⟩ : Shape).BroadcastsInDim ⟨2, ![NN, C]⟩ (![0, 1] : Fin 2 → Fin 2)}
    (hin : FVec Ideal S100000x128 .f32) (Wm : FVec Ideal ⟨2, ![128, C]⟩ .f32) (bv : FVec Ideal ⟨1, ![C]⟩ .f32)
    (sw tw : IVec S1600000 32) (wv : FVec Ideal S1600000 .f32) (sv : FVec Ideal S100000 .f32)
    (ei : (⟨2, ![2, EE]⟩ : Shape).Idx → BitVec 32)
    (h : Fin NN → Fin 128 → EReal) (W : Fin 128 → Fin C → EReal) (b : Fin C → EReal) (wnF : Fin EE → EReal) (snF : Fin NN → EReal)
    (hh : ∀ i k, hin (ix2 i k) = h i k) (hW : ∀ k j, Wm (ix2 k j) = W k j) (hb : ∀ j, bv (ix1 j) = b j)
    (hs : ∀ e, sw (ix1 e) = ei (ix2 0 e)) (ht : ∀ e, tw (ix1 e) = ei (ix2 1 e))
    (hwn : ∀ e, wv (ix1 e) = wnF e) (hsn : ∀ i, sv (ix1 i) = snF i) (i : Fin NN) (j : Fin C)
    (g1 : dg.offsetDims = [1] := by rfl) (g2 : dg.collapsedSliceDims = [0] := by rfl) (g3 : dg.operandBatchingDims = [] := by rfl)
    (g4 : dg.startIndicesBatchingDims = [] := by rfl) (g5 : dg.startIndexMap = [0] := by rfl) (g6 : dg.indexVectorDim = 1 := by rfl)
    (g7 : dg.sliceSizes = ![1, C] := by rfl) (s1 : ds.updateWindowDims = [1] := by rfl) (s2 : ds.insertedWindowDims = [0] := by rfl)
    (s3 : ds.scatterDimsToOperandDims = [0] := by rfl) (s4 : ds.indexVectorDim = 1 := by rfl) :
    convOp dg ds bz be bn b1 b2 hin Wm bv sw tw wv sv (ix2 i j) = conv (dwOf ei) (srcOf ei) wnF snF h W b i j := by
  have hd : ∀ i j, Host.dotGeneral (DotDims.plain NN 128 C) none hin Wm (ix2 i j) = mm h W i j := fun i j =>
    (StackMember.dotGeneral_plain_apply none hin Wm i j).trans (Finset.sum_congr rfl fun k _ => by rw [hh, hW])
  unfold convOp conv comb agg
  rw [addf_apply, addf_apply, mulf_apply, hostScatterAdd_eq, scatterAdd_rows_apply ds s1 s2 s3 s4, broadcastInDim_scalar_apply,
    constant_apply, Ideal.ofBits_zero_f32, zero_add, colcol_apply, hsn, rowrow_apply, hb, hd]
  refine congrArg (· + b j) (congrArg (· + snF i * mm h W i j) (Finset.sum_congr rfl fun e _ => ?_))
  rw [col_apply, ht, mulf_apply, gather_rows_apply (show 0 < NN by decide) dg g1 g2 g3 g4 g5 g6 g7, hd, col_apply, wrapOp_apply, hs,
    colcol_apply, hwn]
  rfl

def convOp128 := convOp gather_S100000x128_S1600000x1_S1600000x128_1_0_n_n_0_1_1128 scatter_S100000x128_S1600000x1_S1600000x128_1_0_0_1
  bcast_S_S100000x128 bcast_S1600000x1_S1600000x128_0_1 bcast_S100000x1_S100000x128_0_1 bcast_S128_S1x128_1 bcast_S1x128_S100000x128_0_1

def convOp40 := convOp gather_S100000x40_S1600000x1_S1600000x40_1_0_n_n_0_1_140 scatter_S100000x40_S1600000x1_S1600000x40_1_0_0_1
  bcast_S_S100000x40 bcast_S1600000x1_S1600000x40_0_1 bcast_S100000x1_S100000x40_0_1 bcast_S40_S1x40_1 bcast_S1x40_S100000x40_0_1

def rowsOp (v : FVec Ideal S128 .f32) : FVec Ideal S100000x128 .f32 :=
  broadcastInDim S100000x128 ![0, 1] bcast_S1x128_S100000x128_0_1 (broadcastInDim S1x128 ![1] bcast_S128_S1x128_1 v)

theorem rowsOp_apply (v : FVec Ideal S128 .f32) (i : Fin NN) (j : Fin 128) : rowsOp v (ix2 i j) = v (ix1 j) :=
  rowrow_apply _ _ v i j

theorem rsqrt_apply {s : Shape} (a : FVec Ideal s .f32) (i : s.Idx) : Host.rsqrt a i = Ideal.rsqrt (a i) := rfl

def meanOp (cv : FVec Ideal S100000x128 .f32) : FVec Ideal S128 .f32 :=
  Host.divf (Host.reduceAdd cv (constant (F := Ideal) S_ .f32 0x00000000#32) reducesTo_S100000x128_S128_d0 h_S_)
    (broadcastInDim S128 ![] bcast_S_S128 (constant (F := Ideal) S_ .f32 0x47C35000#32))

def varOp (cv : FVec Ideal S100000x128 .f32) : FVec Ideal S128 .f32 :=
  Host.divf (Host.reduceAdd (mulf (subf cv (rowsOp (meanOp cv))) (subf cv (rowsOp (meanOp cv))))
      (constant (F := Ideal) S_ .f32 0x00000000#32) reducesTo_S100000x128_S128_d0 h_S_)
    (broadcastInDim S128 ![] bcast_S_S128 (constant (F := Ideal) S_ .f32 0x47C35000#32))

def bnOp (cv : FVec Ideal S100000x128 .f32) (γv βv : FVec Ideal S128 .f32) :
    FVec Ideal S100000x128 .f32 :=
  maximumf (addf (mulf (mulf (rowsOp γv) (subf cv (rowsOp (meanOp cv))))
        (rowsOp (Host.rsqrt (addf (varOp cv) (broadcastInDim S128 ![] bcast_S_S128 (constant (F := Ideal) S_ .f32 0x3727C5AC#32))))))
      (rowsOp βv))
    (broadcastInDim S100000x128 ![] bcast_S_S100000x128 (constant (F := Ideal) S_ .f32 0x00000000#32))

section BN
variable (cv : FVec Ideal S100000x128 .f32) (c : Fin NN → Fin 128 → EReal) (hc : ∀ i j, cv (ix2 i j) = c i j)
include hc

theorem meanOp_apply (j : Fin 128) : meanOp cv (ix1 j) = mean nLit c j := by
  unfold meanOp mean
  rw [hostDivf_apply, colsum_apply, broadcastInDim_scalar_apply, constant_apply, constant_apply, Ideal.ofBits_zero_f32, zero_add]
  exact congrArg (Ideal.div · nLit) (Finset.sum_congr rfl fun k _ => hc k j)

theorem varOp_apply (j : Fin 128) : varOp cv (ix1 j) = var nLit c j := by
  unfold varOp var
  rw [hostDivf_apply, colsum_apply, broadcastInDim_scalar_apply, constant_apply, constant_apply, Ideal.ofBits_zero_f32, zero_add]
  refine congrArg (Ideal.div · nLit) (Finset.sum_congr rfl fun k _ => ?_)
  rw [mulf_apply, subf_apply, rowsOp_apply, meanOp_apply cv c hc, hc]

theorem bnOp_apply (γv βv : FVec Ideal S128 .f32) (γ β : Fin 128 → EReal)
    (hγ : ∀ j, γv (ix1 j) = γ j) (hβ : ∀ j, βv (ix1 j) = β j) (i : Fin NN) (j : Fin 128) :
    bnOp cv γv βv (ix2 i j) = bnRelu epsLit c (mean nLit c) (var nLit c) γ β i j := by
  unfold bnOp bnRelu
  rw [maximumf_apply, addf_apply, mulf_apply, mulf_apply, subf_apply, rowsOp_apply, rowsOp_apply, rowsOp_apply, rowsOp_apply,
    broadcastInDim_scalar_apply, constant_apply, Ideal.ofBits_zero_f32, meanOp_apply cv c hc, hc, hγ, hβ, rsqrt_apply, addf_apply,
    varOp_apply cv c hc, broadcastInDim_scalar_apply, constant_apply]
  rfl

end BN

def slab128A (x : FVec Ideal S2x128x128 .f32) : FVec Ideal S128x128 .f32 :=
  shapeCast S128x128 (extractStridedSlice S1x128x128 ![0, 0, 0] x slices_S2x128x128_S1x128x128_0_0_0) shapeCasts_S1x128x128_S128x128

def slab128B (x : FVec Ideal S2x128x128 .f32) : FVec Ideal S128x128 .f32 :=
  shapeCast S128x128 (extractStridedSlice S1x128x128 ![1, 0, 0] x slices_S2x128x128_S1x128x128_1_0_0) shapeCasts_S1x128x128_S128x128

def slab40A (x : FVec Ideal S2x128x40 .f32) : FVec Ideal S128x40 .f32 :=
  shapeCast S128x40 (extractStridedSlice S1x128x40 ![0, 0, 0] x slices_S2x128x40_S1x128x40_0_0_0) shapeCasts_S1x128x40_S128x40

def slab40B (x : FVec Ideal S2x128x40 .f32) : FVec Ideal S128x40 .f32 :=
  shapeCast S128x40 (extractStridedSlice S1x128x40 ![1, 0, 0] x slices_S2x128x40_S1x128x40_1_0_0) shapeCasts_S1x128x40_S128x40

def row128A (x : FVec Ideal S2x128 .f32) : FVec Ideal S128 .f32 :=
  shapeCast S128 (extractStridedSlice S1x128 ![0, 0] x slices_S2x128_S1x128_0_0) shapeCasts_S1x128_S128

def row128B (x : FVec Ideal S2x128 .f32) : FVec Ideal S128 .f32 :=
  shapeCast S128 (extractStridedSlice S1x128 ![1, 0] x slices_S2x128_S1x128_1_0) shapeCasts_S1x128_S128

def row40A (x : FVec Ideal S2x40 .f32) : FVec Ideal S40 .f32 :=
  shapeCast S40 (extractStridedSlice S1x40 ![0, 0] x slices_S2x40_S1x40_0_0) shapeCasts_S1x40_S40

def row40B (x : FVec Ideal S2x40 .f32) : FVec Ideal S40 .f32 :=
  shapeCast S40 (extractStridedSlice S1x40 ![1, 0] x slices_S2x40_S1x40_1_0) shapeCasts_S1x40_S40

def srcW (x12 : IVec S2x1600000 32) : IVec S1600000 32 :=
  shapeCast S1600000 (extractStridedSlice S1x1600000 ![0, 0] x12 slices_S2x1600000_S1x1600000_0_0) shapeCasts_S1x1600000_S1600000

def dstW (x12 : IVec S2x1600000 32) : IVec S1600000 32 :=
  shapeCast S1600000 (extractStridedSlice S1x1600000 ![1, 0] x12 slices_S2x1600000_S1x1600000_1_0) shapeCasts_S1x1600000_S1600000

theorem srcW_apply (x12 : IVec S2x1600000 32) (e : Fin EE) : srcW x12 (ix1 e) = x12 (ix2 0 e) :=
  rowslice_apply 0 x12 _ _ e

theorem dstW_apply (x12 : IVec S2x1600000 32) (e : Fin EE) : dstW x12 (ix1 e) = x12 (ix2 1 e) :=
  rowslice_apply 1 x12 _ _ e

def degOp (x1 : FVec Ideal S1600000 .f32) (x12 : IVec S2x1600000 32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstW x12)) x1)
    (broadcastInDim S100000 ![] bcast_S_S100000 (constant (F := Ideal) S_ .f32 0x3F800000#32))

def dinvOp (x1 : FVec Ideal S1600000 .f32) (x12 : IVec S2x1600000 32) : FVec Ideal S100000 .f32 :=
  Host.rsqrt (degOp x1 x12)

def wnOp (x1 : FVec Ideal S1600000 .f32) (x12 : IVec S2x1600000 32) : FVec Ideal S1600000 .f32 :=
  mulf (mulf (Host.gather gather_S100000_S1600000x1_S1600000_n_0_n_n_0_1_1 (dinvOp x1 x12)
        (broadcastInDim S1600000x1 ![0] bcast_S1600000_S1600000x1_0 (wrapOp (srcW x12)))) x1)
    (Host.gather gather_S100000_S1600000x1_S1600000_n_0_n_n_0_1_1 (dinvOp x1 x12)
      (broadcastInDim S1600000x1 ![0] bcast_S1600000_S1600000x1_0 (wrapOp (dstW x12))))

def snOp (x1 : FVec Ideal S1600000 .f32) (x12 : IVec S2x1600000 32) : FVec Ideal S100000 .f32 :=
  mulf (dinvOp x1 x12) (dinvOp x1 x12)

section Graph
variable (x1 : FVec Ideal S1600000 .f32) (x12 : IVec S2x1600000 32)

theorem degOp_apply (i : Fin NN) : degOp x1 x12 (ix1 i) = deg (dwOf x12) (cur1 x1) i := by
  unfold degOp deg
  rw [addf_apply, hostScatterAdd_eq, scatterAdd_vec_apply scatter_S100000_S1600000x1_S1600000_n_0_0_1 rfl rfl rfl rfl, broadcastInDim_scalar_apply,
    broadcastInDim_scalar_apply, constant_apply, constant_apply, Ideal.ofBits_zero_f32, Ideal.ofBits_one_f32, zero_add]
  refine congrArg (fun t : EReal => t + 1) (Finset.sum_congr rfl fun e _ => ?_)
  rw [col_apply, dstW_apply]
  rfl

theorem dinvOp_apply (i : Fin NN) : dinvOp x1 x12 (ix1 i) = dinv (dwOf x12) (cur1 x1) i := by
  unfold dinvOp dinv
  rw [rsqrt_apply, degOp_apply]

theorem wnOp_apply (e : Fin EE) : wnOp x1 x12 (ix1 e) = wn (dwOf x12) (srcOf x12) (dstROf x12) (cur1 x1) e := by
  unfold wnOp wn
  rw [mulf_apply, mulf_apply, gather_vec_apply (show 0 < NN by decide) gather_S100000_S1600000x1_S1600000_n_0_n_n_0_1_1 rfl rfl rfl rfl rfl rfl rfl,
    gather_vec_apply (show 0 < NN by decide) gather_S100000_S1600000x1_S1600000_n_0_n_n_0_1_1 rfl rfl rfl rfl rfl rfl rfl, dinvOp_apply, dinvOp_apply,
    col_apply, col_apply, wrapOp_apply, wrapOp_apply, srcW_apply, dstW_apply]
  rfl

theorem snOp_apply (i : Fin NN) : snOp x1 x12 (ix1 i) = sn (dwOf x12) (cur1 x1) i := by
  unfold snOp sn
  rw [mulf_apply, dinvOp_apply]

end Graph

section Final

abbrev NW (ops : List (HloOp τ sig (Elt Ideal))) (r : Ref sig .tc) : Prop :=
  ∀ op ∈ ops, Proc.devRef (τ := τ) .tc r ∉ op.writes

/-- Carries an argument or a shared buffer unchanged across a window that does not write it. -/
theorem keep {ops : List (HloOp τ sig (Elt Ideal))} {V : Valuation τ sig (Elt Ideal)} {r : Ref sig .tc} (h : NW ops r) :
    after ops V (no_index (Proc.devRef .tc r)) = V (Proc.devRef .tc r) :=
  after_of_forall_not_mem _ _ h

/-- Six uses of `keep`, one for each window. -/
theorem arg_kept (m : (ℓ : Loc nD τ sig) → Buf (Elt Ideal) ℓ) (d : Dev nD) (r : Ref sig .tc)
    (h : NW ops0 r ∧ NW ops1 r ∧ NW ops2 r ∧ NW ops3 r ∧ NW ops4 r ∧ NW ops5 r) :
    RF (F := Ideal) m d (Proc.devRef .tc r) = m ((d.tc : Thread nD τ).loc r) :=
  (keep h.2.2.2.2.2).trans ((keep h.2.2.2.2.1).trans ((keep h.2.2.2.1).trans ((keep h.2.2.1).trans ((keep h.2.1).trans (keep h.1)))))

theorem in0_v1 (V : Valuation τ sig (Elt Ideal)) :
    after (ops0 (F := Ideal)) V (Proc.devRef .tc main_v1) = srcW (V (Proc.devRef .tc main_arg12)) := by
  after_results_simp <;> rfl
theorem in0_v3 (V : Valuation τ sig (Elt Ideal)) :
    after (ops0 (F := Ideal)) V (Proc.devRef .tc main_v3) = dstW (V (Proc.devRef .tc main_arg12)) := by
  after_results_simp <;> rfl
theorem in0_v29 (V : Valuation τ sig (Elt Ideal)) :
    after (ops0 (F := Ideal)) V (Proc.devRef .tc main_v29) = wnOp (V (Proc.devRef .tc main_arg1)) (V (Proc.devRef .tc main_arg12)) := by
  after_results_simp <;> rfl
theorem in0_v30 (V : Valuation τ sig (Elt Ideal)) :
    after (ops0 (F := Ideal)) V (Proc.devRef .tc main_v30) = snOp (V (Proc.devRef .tc main_arg1)) (V (Proc.devRef .tc main_arg12)) := by
  after_results_simp <;> rfl

end Final

end Cert.GCN.Ref

end
-- ==== Proof.RefValue.lean ====
import proofs.«430204_j43868795961418_3_alg».proof.Proof.RefGraph

noncomputable section

open scoped BigOperators

namespace Cert.GCN.Ref

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.RowOps Cert.GCN.RefRun

section Stage
variable (V : Valuation τ sig (Elt Ideal))

theorem st_c1 : after ops1 (after ops0 V) (Proc.devRef .tc main_v55)
    = convOp128 (V (Proc.devRef .tc main_arg0)) (slab128A (V (Proc.devRef .tc main_arg2))) (row128A (V (Proc.devRef .tc main_arg3)))
        (after ops0 V (Proc.devRef .tc main_v1)) (after ops0 V (Proc.devRef .tc main_v3))
        (after ops0 V (Proc.devRef .tc main_v29)) (after ops0 V (Proc.devRef .tc main_v30)) := by
  after_results_simp <;> rfl

theorem st_n1 : after ops1 V (Proc.devRef .tc main_v85)
    = bnOp (after ops1 V (Proc.devRef .tc main_v55)) (row128A (V (Proc.devRef .tc main_arg4))) (row128A (V (Proc.devRef .tc main_arg5))) := by
  after_results_simp <;> rfl

set_option maxHeartbeats 2000000 in
theorem st_c2 : after ops2 (after ops1 V) (Proc.devRef .tc main_v110)
    = convOp128 (after ops1 V (Proc.devRef .tc main_v85)) (slab128A (V (Proc.devRef .tc main_arg6))) (row128A (V (Proc.devRef .tc main_arg7)))
        (V (Proc.devRef .tc main_v1)) (V (Proc.devRef .tc main_v3)) (V (Proc.devRef .tc main_v29)) (V (Proc.devRef .tc main_v30)) := by
  after_results_simp <;> rfl

theorem st_n2 : after ops2 V (Proc.devRef .tc main_v140)
    = bnOp (after ops2 V (Proc.devRef .tc main_v110)) (row128A (V (Proc.devRef .tc main_arg8))) (row128A (V (Proc.devRef .tc main_arg9))) := by
  after_results_simp <;> rfl

set_option maxHeartbeats 2000000 in
theorem st_c3 : after ops3 (after ops2 V) (Proc.devRef .tc main_v165)
    = convOp40 (after ops2 V (Proc.devRef .tc main_v140)) (slab40A (V (Proc.devRef .tc main_arg10))) (row40A (V (Proc.devRef .tc main_arg11)))
        (V (Proc.devRef .tc main_v1)) (V (Proc.devRef .tc main_v3)) (V (Proc.devRef .tc main_v29)) (V (Proc.devRef .tc main_v30)) := by
  after_results_simp <;> rfl

theorem st_stack : after ops5 V (Proc.devRef .tc main_v303)
    = concatenate S2x100000x40 0
        [⟨S1x100000x40, broadcastInDim S1x100000x40 ![1, 2] bcast_S100000x40_S1x100000x40_1_2 (V (Proc.devRef .tc main_v165))⟩,
         ⟨S1x100000x40, broadcastInDim S1x100000x40 ![1, 2] bcast_S100000x40_S1x100000x40_1_2
            (after ops5 V (Proc.devRef .tc main_v300))⟩]
        concatenates_S1x100000x40_S1x100000x40_S2x100000x40_d0 := by
  after_results_simp <;> rfl

theorem st_conv1 :
    after ops3 V (Proc.devRef .tc main_v190)
      = convOp128 (V (Proc.devRef .tc main_arg0)) (slab128B (V (Proc.devRef .tc main_arg2)))
          (row128B (V (Proc.devRef .tc main_arg3))) (V (Proc.devRef .tc main_v1)) (V (Proc.devRef .tc main_v3))
          (V (Proc.devRef .tc main_v29)) (V (Proc.devRef .tc main_v30)) := by
  after_results_simp <;> rfl

set_option maxHeartbeats 2000000 in
theorem st_act1 :
    after ops4 (after ops3 V) (Proc.devRef .tc main_v220)
      = bnOp (after ops3 V (Proc.devRef .tc main_v190))
          (row128B (V (Proc.devRef .tc main_arg4))) (row128B (V (Proc.devRef .tc main_arg5))) := by
  after_results_simp <;> rfl

theorem st_conv2 :
    after ops4 V (Proc.devRef .tc main_v245)
      = convOp128 (after ops4 V (Proc.devRef .tc main_v220)) (slab128B (V (Proc.devRef .tc main_arg6)))
          (row128B (V (Proc.devRef .tc main_arg7))) (V (Proc.devRef .tc main_v1)) (V (Proc.devRef .tc main_v3))
          (V (Proc.devRef .tc main_v29)) (V (Proc.devRef .tc main_v30)) := by
  after_results_simp <;> rfl

theorem st_act2 :
    after ops5 (after ops4 V) (Proc.devRef .tc main_v275)
      = bnOp (after ops4 V (Proc.devRef .tc main_v245))
          (row128B (V (Proc.devRef .tc main_arg8))) (row128B (V (Proc.devRef .tc main_arg9))) := by
  after_results_simp <;> rfl

theorem st_conv3 :
    after ops5 V (Proc.devRef .tc main_v300)
      = convOp40 (after ops5 V (Proc.devRef .tc main_v275)) (slab40B (V (Proc.devRef .tc main_arg10)))
          (row40B (V (Proc.devRef .tc main_arg11))) (V (Proc.devRef .tc main_v1)) (V (Proc.devRef .tc main_v3))
          (V (Proc.devRef .tc main_v29)) (V (Proc.devRef .tc main_v30)) := by
  after_results_simp <;> rfl

end Stage

section Tower
variable (V : Valuation τ sig (Elt Ideal)) (s : FVec Ideal S2x128x128 .f32 → FVec Ideal S128x128 .f32)
  (s' : FVec Ideal S2x128x40 .f32 → FVec Ideal S128x40 .f32) (r : FVec Ideal S2x128 .f32 → FVec Ideal S128 .f32)
  (r' : FVec Ideal S2x40 .f32 → FVec Ideal S40 .f32)

/-- One tower as the program spells it over the arguments found in V: three convolutions, a normalisation and clip after each of the first two; s, s', r, r' cut the tower's slab or row out of a stacked parameter. -/
def towerOp : FVec Ideal S100000x40 .f32 :=
  convOp40 (bnOp (convOp128 (bnOp (convOp128 (V (Proc.devRef .tc main_arg0)) (s (V (Proc.devRef .tc main_arg2))) (r (V (Proc.devRef .tc main_arg3))) (srcW (V (Proc.devRef .tc main_arg12))) (dstW (V (Proc.devRef .tc main_arg12))) (wnOp (V (Proc.devRef .tc main_arg1)) (V (Proc.devRef .tc main_arg12))) (snOp (V (Proc.devRef .tc main_arg1)) (V (Proc.devRef .tc main_arg12))))
          (r (V (Proc.devRef .tc main_arg4))) (r (V (Proc.devRef .tc main_arg5)))) (s (V (Proc.devRef .tc main_arg6))) (r (V (Proc.devRef .tc main_arg7))) (srcW (V (Proc.devRef .tc main_arg12))) (dstW (V (Proc.devRef .tc main_arg12))) (wnOp (V (Proc.devRef .tc main_arg1)) (V (Proc.devRef .tc main_arg12))) (snOp (V (Proc.devRef .tc main_arg1)) (V (Proc.devRef .tc main_arg12))))
      (r (V (Proc.devRef .tc main_arg8))) (r (V (Proc.devRef .tc main_arg9)))) (s' (V (Proc.devRef .tc main_arg10))) (r' (V (Proc.devRef .tc main_arg11))) (srcW (V (Proc.devRef .tc main_arg12))) (dstW (V (Proc.devRef .tc main_arg12))) (wnOp (V (Proc.devRef .tc main_arg1)) (V (Proc.devRef .tc main_arg12))) (snOp (V (Proc.devRef .tc main_arg1)) (V (Proc.devRef .tc main_arg12)))

/-- Spec.lean's tower g of the arguments found in V. -/
def outV : Fin 2 → Fin NN → Fin 40 → EReal :=
  outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

variable {s s' r r'}

/-- Stage by stage the program's tower is Spec.lean's, whenever the cuts read slab g and row g. -/
theorem towerOp_apply (g : Fin 2) (hs : ∀ x k j, s x (ix2 k j) = slab x g k j) (hs' : ∀ x k j, s' x (ix2 k j) = slab x g k j)
    (hr : ∀ x j, r x (ix1 j) = row x g j) (hr' : ∀ x j, r' x (ix1 j) = row x g j) (i : Fin NN) (j : Fin 40) :
    towerOp V s s' r r' (ix2 i j) = outV V g i j :=
  convOp_apply _ _ _ _ _ _ _ (V (Proc.devRef .tc main_arg12)) _ _ _ _ _
    (bnOp_apply _ _ (convOp_apply _ _ _ _ _ _ _ (V (Proc.devRef .tc main_arg12)) _ _ _ _ _
      (bnOp_apply _ _ (convOp_apply _ _ _ _ _ _ _ (V (Proc.devRef .tc main_arg12)) _ _ _ _ _ (fun _ _ => rfl) (hs _) (hr _)
        (srcW_apply _) (dstW_apply _) (wnOp_apply _ _) (snOp_apply _ _)) _ _ _ _ (hr _) (hr _))
      (hs _) (hr _) (srcW_apply _) (dstW_apply _) (wnOp_apply _ _) (snOp_apply _ _)) _ _ _ _ (hr _) (hr _))
    (hs' _) (hr' _) (srcW_apply _) (dstW_apply _) (wnOp_apply _ _) (snOp_apply _ _) i j

/-- Chain tower 0's five stage equations, then carry every argument back to V with `keep`. -/
theorem t0_eq : after ops3 (after ops2 (after ops1 (after ops0 V))) (Proc.devRef .tc main_v165)
    = towerOp V slab128A slab40A row128A row40A := by
  rw [st_c3, st_n2, st_c2, st_n1, st_c1]
  simp (disch := decide) only [keep]
  rw [in0_v1, in0_v3, in0_v29, in0_v30]
  rfl

/-- The same chain for tower 1, whose stages sit in the last three windows. -/
theorem t1_eq : after ops5 (after ops4 (after ops3 (after ops2 (after ops1 (after ops0 V))))) (Proc.devRef .tc main_v300)
    = towerOp V slab128B slab40B row128B row40B := by
  rw [st_conv3, st_act2, st_conv2, st_act1, st_conv1]
  simp (disch := decide) only [keep]
  rw [in0_v1, in0_v3, in0_v29, in0_v30]
  rfl

/-- The last window stacks the two towers. -/
theorem out_eq : after ops5 (after ops4 (after ops3 (after ops2 (after ops1 (after ops0 V))))) (Proc.devRef .tc main_v303)
    = concatenate S2x100000x40 0 [⟨S1x100000x40, broadcastInDim S1x100000x40 ![1, 2] bcast_S100000x40_S1x100000x40_1_2 (towerOp V slab128A slab40A row128A row40A)⟩,
        ⟨S1x100000x40, broadcastInDim S1x100000x40 ![1, 2] bcast_S100000x40_S1x100000x40_1_2 (towerOp V slab128B slab40B row128B row40B)⟩] concatenates_S1x100000x40_S1x100000x40_S2x100000x40_d0 := by
  rw [st_stack, t1_eq, keep (ops := ops4) (r := main_v165) (by decide), t0_eq]

theorem out_at (g : Fin 2) (i : Fin NN) (j : Fin 40) :
    after ops5 (after ops4 (after ops3 (after ops2 (after ops1 (after ops0 V))))) (Proc.devRef .tc main_v303) (ix3 g i j) = outV V g i j := by
  refine (congrFun (out_eq V) (ix3 g i j)).trans ?_
  match g with
  | ⟨0, _⟩ =>
    refine (concatenate_pair_apply_left (t := S2x100000x40) (s₁ := S1x100000x40) (s₂ := S1x100000x40) 0 _ _ _ (ix3 (0 : Fin 2) i j) rfl (ix3 (0 : Fin 1) i j) (fun b => ?_)).trans
      ((lead_apply _ _ 0 i j).trans (towerOp_apply V 0 (fun x => slab_apply 0 x _ _) (fun x => slab_apply 0 x _ _) (fun x => rowslice_apply 0 x _ _) (fun x => rowslice_apply 0 x _ _) i j))
    match b with
    | ⟨0, _⟩ => rfl
    | ⟨1, _⟩ => rfl
    | ⟨2, _⟩ => rfl
  | ⟨1, _⟩ =>
    refine (concatenate_pair_apply_right (t := S2x100000x40) (s₁ := S1x100000x40) (s₂ := S1x100000x40) 0 _ _ _ (ix3 (1 : Fin 2) i j) rfl rfl (ix3 (0 : Fin 1) i j) (fun b hb => ?_) rfl).trans
      ((lead_apply _ _ 0 i j).trans (towerOp_apply V 1 (fun x => slab_apply 1 x _ _) (fun x => slab_apply 1 x _ _) (fun x => rowslice_apply 1 x _ _) (fun x => rowslice_apply 1 x _ _) i j))
    match b, hb with
    | ⟨0, _⟩, hb => exact absurd rfl hb
    | ⟨1, _⟩, _ => rfl
    | ⟨2, _⟩, _ => rfl

end Tower

/-- Any fair run of the reference leaves Spec.lean's two towers of the launch arguments in the result buffer and leaves the arguments alone. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ d : Dev nD,
      (∀ (g : Fin 2) (i : Fin NN) (j : Fin 40), r.2.mem ((d.tc : Thread nD τ).loc main_v303) (ix3 g i j)
          = outR (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) g i j)
      ∧ r.2.mem ((d.tc : Thread nD τ).loc main_arg0) = (m ((d.tc : Thread nD τ).loc main_arg0))
      ∧ r.2.mem ((d.tc : Thread nD τ).loc main_arg1) = (m ((d.tc : Thread nD τ).loc main_arg1))
      ∧ r.2.mem ((d.tc : Thread nD τ).loc main_arg2) = (m ((d.tc : Thread nD τ).loc main_arg2))
      ∧ r.2.mem ((d.tc : Thread nD τ).loc main_arg3) = (m ((d.tc : Thread nD τ).loc main_arg3))
      ∧ r.2.mem ((d.tc : Thread nD τ).loc main_arg4) = (m ((d.tc : Thread nD τ).loc main_arg4))
      ∧ r.2.mem ((d.tc : Thread nD τ).loc main_arg5) = (m ((d.tc : Thread nD τ).loc main_arg5))
      ∧ r.2.mem ((d.tc : Thread nD τ).loc main_arg6) = (m ((d.tc : Thread nD τ).loc main_arg6))
      ∧ r.2.mem ((d.tc : Thread nD τ).loc main_arg7) = (m ((d.tc : Thread nD τ).loc main_arg7))
      ∧ r.2.mem ((d.tc : Thread nD τ).loc main_arg8) = (m ((d.tc : Thread nD τ).loc main_arg8))
      ∧ r.2.mem ((d.tc : Thread nD τ).loc main_arg9) = (m ((d.tc : Thread nD τ).loc main_arg9))
      ∧ r.2.mem ((d.tc : Thread nD τ).loc main_arg10) = (m ((d.tc : Thread nD τ).loc main_arg10))
      ∧ r.2.mem ((d.tc : Thread nD τ).loc main_arg11) = (m ((d.tc : Thread nD τ).loc main_arg11))
      ∧ r.2.mem ((d.tc : Thread nD τ).loc main_arg12) = (m ((d.tc : Thread nD τ).loc main_arg12))) :=
  (θ_run defs _ _).mono (fun r h d =>
    have k : ∀ a : Ref sig .tc, _ → r.2.mem ((d.tc : Thread nD τ).loc a) = m ((d.tc : Thread nD τ).loc a) :=
      fun a ha => (h d a).trans (arg_kept m d a ha)
    ⟨fun g i j => (congrFun (h d main_v303) (ix3 g i j)).trans (out_at (launchContents m d) g i j),
      k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide)⟩)
    (run_after (F := Ideal) m ρ)

end Cert.GCN.Ref

end
-- ==== Proof.Math.lean ====
import proofs.«430204_j43868795961418_3_alg».proof.Proof.Spec
import Mathlib.Data.EReal.Operations
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

open scoped BigOperators

namespace Cert.GCN

open Idealize.ShloMosaic

namespace Math

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_max_zero (a : ℝ) : max (a : EReal) 0 = ((max a 0 : ℝ) : EReal) := by
  rw [← EReal.coe_zero, coe_max]

theorem ite_coe_zero (P : Prop) [Decidable P] (a : ℝ) :
    (if P then (a : EReal) else 0) = ((if P then a else 0 : ℝ) : EReal) := by
  split_ifs <;> rfl

theorem isReal_coe (r : ℝ) : IsReal (r : EReal) := ⟨r, rfl⟩

theorem isReal_zero : IsReal 0 := ⟨0, rfl⟩

theorem isReal_one : IsReal 1 := ⟨1, rfl⟩

theorem isReal_add {a b : EReal} (ha : IsReal a) (hb : IsReal b) : IsReal (a + b) := by
  obtain ⟨x, rfl⟩ := ha; obtain ⟨y, rfl⟩ := hb; exact ⟨x + y, (EReal.coe_add x y).symm⟩

theorem isReal_mul {a b : EReal} (ha : IsReal a) (hb : IsReal b) : IsReal (a * b) := by
  obtain ⟨x, rfl⟩ := ha; obtain ⟨y, rfl⟩ := hb; exact ⟨x * y, (EReal.coe_mul x y).symm⟩

theorem isReal_sub {a b : EReal} (ha : IsReal a) (hb : IsReal b) : IsReal (a - b) := by
  obtain ⟨x, rfl⟩ := ha; obtain ⟨y, rfl⟩ := hb; exact ⟨x - y, (EReal.coe_sub x y).symm⟩

theorem isReal_max_zero {a : EReal} (ha : IsReal a) : IsReal (max a 0) := by
  obtain ⟨x, rfl⟩ := ha; exact ⟨max x 0, coe_max_zero x⟩

theorem isReal_ite (P : Prop) [Decidable P] {a b : EReal} (ha : IsReal a) (hb : IsReal b) :
    IsReal (if P then a else b) := by
  split_ifs
  · exact ha
  · exact hb

theorem isReal_sum {ι : Type*} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact isReal_add (hf a (Finset.mem_insert_self a s)) (ih fun i hi => hf i (Finset.mem_insert_of_mem hi))

theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

theorem div_n (x : EReal) : Ideal.div x ((100000 : ℝ) : EReal) = x * (((1 / 100000 : ℝ)) : EReal) :=
  Ideal.div_coe (by norm_num) x

theorem deg_real (dw : Fin EE → BitVec 32) (ea : Fin EE → EReal) (hea : ∀ e, IsReal (ea e)) (i : Fin NN) :
    IsReal (deg dw ea i) := by
  unfold deg
  exact isReal_add (isReal_sum _ _ fun e _ => isReal_ite _ (hea e) isReal_zero) isReal_one

theorem dinv_real (dw : Fin EE → BitVec 32) (ea : Fin EE → EReal) (hea : ∀ e, IsReal (ea e))
    (hdeg : ∀ i, 0 < deg dw ea i) (i : Fin NN) : IsReal (dinv dw ea i) := by
  obtain ⟨d, hd⟩ := deg_real dw ea hea i
  have hpos : 0 < d := by
    have h := hdeg i
    rw [hd] at h
    exact EReal.coe_pos.1 h
  unfold dinv
  rw [hd, rsqrt_coe_pos hpos]
  exact isReal_coe _

end Math

open Math in
theorem wn_real (dw : Fin EE → BitVec 32) (src dstR : Fin EE → Fin NN) (ea : Fin EE → EReal)
    (hea : ∀ e, IsReal (ea e)) (hdeg : ∀ i, 0 < deg dw ea i) : ∀ e, IsReal (wn dw src dstR ea e) := by
  intro e
  unfold wn
  exact isReal_mul (isReal_mul (dinv_real dw ea hea hdeg _) (hea e)) (dinv_real dw ea hea hdeg _)

open Math in
theorem sn_real (dw : Fin EE → BitVec 32) (ea : Fin EE → EReal) (hea : ∀ e, IsReal (ea e))
    (hdeg : ∀ i, 0 < deg dw ea i) : ∀ i, IsReal (sn dw ea i) := by
  intro i
  unfold sn
  exact isReal_mul (dinv_real dw ea hea hdeg _) (dinv_real dw ea hea hdeg _)

namespace Math

theorem agg_real (dw : Fin EE → BitVec 32) (src : Fin EE → Fin NN) (wn : Fin EE → EReal)
    (hwn : ∀ e, IsReal (wn e)) {C : ℕ} (h : Fin NN → Fin C → EReal) (hh : ∀ i j, IsReal (h i j)) :
    ∀ i j, IsReal (agg dw src wn h i j) := by
  intro i j
  unfold agg
  exact isReal_sum _ _ fun e _ => isReal_ite _ (isReal_mul (hh _ _) (hwn e)) isReal_zero

theorem mm_real {R K C : ℕ} (a : Fin R → Fin K → EReal) (W : Fin K → Fin C → EReal)
    (ha : ∀ i k, IsReal (a i k)) (hW : ∀ k j, IsReal (W k j)) : ∀ i j, IsReal (mm a W i j) := by
  intro i j
  unfold mm
  exact isReal_sum _ _ fun k _ => isReal_mul (ha _ _) (hW _ _)

theorem comb_real (sn : Fin NN → EReal) (hsn : ∀ i, IsReal (sn i)) {C : ℕ} (a h : Fin NN → Fin C → EReal)
    (b : Fin C → EReal) (ha : ∀ i j, IsReal (a i j)) (hh : ∀ i j, IsReal (h i j)) (hb : ∀ j, IsReal (b j)) :
    ∀ i j, IsReal (comb sn a h b i j) := by
  intro i j
  unfold comb
  exact isReal_add (isReal_add (ha _ _) (isReal_mul (hsn _) (hh _ _))) (hb _)

theorem conv_real (dw : Fin EE → BitVec 32) (src : Fin EE → Fin NN) (wn : Fin EE → EReal) (sn : Fin NN → EReal)
    (hwn : ∀ e, IsReal (wn e)) (hsn : ∀ i, IsReal (sn i)) {K C : ℕ} (h : Fin NN → Fin K → EReal)
    (W : Fin K → Fin C → EReal) (b : Fin C → EReal) (hh : ∀ i k, IsReal (h i k)) (hW : ∀ k j, IsReal (W k j))
    (hb : ∀ j, IsReal (b j)) : ∀ i j, IsReal (conv dw src wn sn h W b i j) := by
  unfold conv
  exact comb_real sn hsn _ _ b (agg_real dw src wn hwn _ (mm_real h W hh hW)) (mm_real h W hh hW) hb

/-- Distributivity and an exchange of two finite sums, over the reals. -/
theorem fused_alg {E K : Type*} [Fintype E] [Fintype K] (P : E → Prop) [DecidablePred P]
    (xs : E → K → ℝ) (w : E → ℝ) (s : ℝ) (y V : K → ℝ) :
    ∑ k, ((∑ e, if P e then xs e k * w e else 0) + s * y k) * V k
      = (∑ e, if P e then (∑ k, xs e k * V k) * w e else 0) + s * ∑ k, y k * V k := by
  have h1 : ∀ k, ((∑ e, if P e then xs e k * w e else 0) + s * y k) * V k
      = (∑ e, if P e then xs e k * V k * w e else 0) + s * (y k * V k) := by
    intro k
    rw [add_mul, Finset.sum_mul, mul_assoc]
    congr 1
    refine Finset.sum_congr rfl fun e _ => ?_
    split_ifs
    · ring
    · ring
  have h2 : ∀ e, (if P e then (∑ k, xs e k * V k) * w e else 0) = ∑ k, if P e then xs e k * V k * w e else 0 := by
    intro e
    split_ifs
    · rw [Finset.sum_mul]
    · rw [Finset.sum_const_zero]
  rw [Finset.sum_congr rfl fun k _ => h1 k, Finset.sum_add_distrib, Finset.sum_comm, ← Finset.mul_sum,
    Finset.sum_congr rfl fun e _ => h2 e]

theorem fused_eq_conv (dw : Fin EE → BitVec 32) (src : Fin EE → Fin NN) (wn : Fin EE → EReal) (sn : Fin NN → EReal)
    (hwn : ∀ e, IsReal (wn e)) (hsn : ∀ i, IsReal (sn i)) {K C : ℕ} (x : Fin NN → Fin K → EReal)
    (W : Fin K → Fin C → EReal) (b : Fin C → EReal) (hx : ∀ i k, IsReal (x i k)) (hW : ∀ k j, IsReal (W k j)) :
    fused sn (agg dw src wn x) x W b = conv dw src wn sn x W b := by
  choose wn' hwn' using hwn
  choose sn' hsn' using hsn
  choose x' hx' using hx
  choose W' hW' using hW
  obtain rfl : wn = fun e => (wn' e : EReal) := funext hwn'
  obtain rfl : sn = fun i => (sn' i : EReal) := funext hsn'
  obtain rfl : x = fun i k => (x' i k : EReal) := funext fun i => funext fun k => hx' i k
  obtain rfl : W = fun k j => (W' k j : EReal) := funext fun k => funext fun j => hW' k j
  funext i j
  simp only [fused, conv, comb, agg, mm]
  refine congrArg (· + b j) ?_
  simp only [← EReal.coe_mul, ← coe_sum, ite_coe_zero, ← EReal.coe_add]
  exact EReal.coe_eq_coe_iff.2 (fused_alg _ _ _ _ _ _)

theorem blkRow_bijective : Function.Bijective (fun p : Fin 20 × Fin 5000 => blkRow p.1 p.2) := by
  constructor
  · rintro ⟨b, r⟩ ⟨b', r'⟩ h
    have hv : b.val * 5000 + r.val = b'.val * 5000 + r'.val := congrArg Fin.val h
    have hr := r.isLt
    have hr' := r'.isLt
    have hb : b.val = b'.val := by omega
    have hr2 : r.val = r'.val := by omega
    exact Prod.ext (Fin.ext hb) (Fin.ext hr2)
  · intro i
    have hi : i.val < 100000 := i.isLt
    refine ⟨(⟨i.val / 5000, by omega⟩, ⟨i.val % 5000, Nat.mod_lt _ (by norm_num)⟩), ?_⟩
    apply Fin.ext
    show i.val / 5000 * 5000 + i.val % 5000 = i.val
    omega

/-- The 20 blocks of 5000 rows partition the nodes. -/
theorem sum_blocks {M : Type*} [AddCommMonoid M] (f : Fin NN → M) :
    ∑ b : Fin 20, ∑ r : Fin 5000, f (blkRow b r) = ∑ i : Fin NN, f i := by
  rw [← Fintype.sum_prod_type']
  exact Fintype.sum_bijective _ blkRow_bijective _ _ fun _ => rfl

theorem meanB_eq_mean (n : EReal) {C : ℕ} (c : Fin NN → Fin C → EReal) : meanB n c = mean n c := by
  funext j
  unfold meanB mean blkSum
  rw [sum_blocks fun i => c i j]

theorem mean_coe {C : ℕ} (c : Fin NN → Fin C → ℝ) (j : Fin C) :
    mean ((100000 : ℝ) : EReal) (fun i j => (c i j : EReal)) j = (((∑ i, c i j) * (1 / 100000) : ℝ) : EReal) := by
  unfold mean
  rw [div_n, ← coe_sum, ← EReal.coe_mul]

theorem var_coe {C : ℕ} (c : Fin NN → Fin C → ℝ) (j : Fin C) :
    var ((100000 : ℝ) : EReal) (fun i j => (c i j : EReal)) j
      = (((∑ i, (c i j - (∑ i, c i j) * (1 / 100000)) * (c i j - (∑ i, c i j) * (1 / 100000))) * (1 / 100000) : ℝ) : EReal) := by
  unfold var
  rw [mean_coe, div_n]
  simp only [← EReal.coe_sub, ← EReal.coe_mul, ← coe_sum]

/-- Σ(c − μ)²/N = Σc²/N − μ² with μ = Σc/N. -/
theorem var_alg {ι : Type*} [Fintype ι] (c : ι → ℝ) (N : ℝ) (hN : (Fintype.card ι : ℝ) = N) (hN0 : N ≠ 0) :
    (∑ i, (c i - (∑ i, c i) * (1 / N)) * (c i - (∑ i, c i) * (1 / N))) * (1 / N)
      = (∑ i, c i * c i) * (1 / N) - (∑ i, c i) * (1 / N) * ((∑ i, c i) * (1 / N)) := by
  set S := ∑ i, c i with hS
  set μ := S * (1 / N) with hμ
  have h1 : ∀ i, (c i - μ) * (c i - μ) = c i * c i - 2 * μ * c i + μ * μ := fun i => by ring
  rw [Finset.sum_congr rfl fun i _ => h1 i, Finset.sum_add_distrib, Finset.sum_sub_distrib, ← Finset.mul_sum,
    Finset.sum_const, Finset.card_univ, nsmul_eq_mul, hN, ← hS]
  rw [hμ]
  field_simp
  ring

theorem varB_eq_var {C : ℕ} (c : Fin NN → Fin C → EReal) (hc : ∀ i j, IsReal (c i j)) :
    varB ((100000 : ℝ) : EReal) c = var ((100000 : ℝ) : EReal) c := by
  choose c' hc' using hc
  obtain rfl : c = fun i j => (c' i j : EReal) := funext fun i => funext fun j => hc' i j
  funext j
  rw [var_coe]
  unfold varB
  rw [meanB_eq_mean, mean_coe]
  unfold blkSq
  rw [sum_blocks fun i => (c' i j : EReal) * (c' i j : EReal), div_n]
  simp only [← EReal.coe_mul, ← coe_sum, ← EReal.coe_sub]
  rw [coe_max_zero]
  refine EReal.coe_eq_coe_iff.2 ?_
  have hcard : ((Fintype.card (Fin NN) : ℕ) : ℝ) = 100000 := by rw [Fintype.card_fin]; norm_num
  rw [← var_alg (fun i => c' i j) 100000 hcard (by norm_num)]
  exact max_eq_left (mul_nonneg (Finset.sum_nonneg fun i _ => mul_self_nonneg _) (by norm_num))

theorem var_nonneg_real {C : ℕ} (c : Fin NN → Fin C → EReal) (hc : ∀ i j, IsReal (c i j)) (j : Fin C) :
    ∃ v : ℝ, 0 ≤ v ∧ var ((100000 : ℝ) : EReal) c j = (v : EReal) := by
  choose c' hc' using hc
  obtain rfl : c = fun i j => (c' i j : EReal) := funext fun i => funext fun j => hc' i j
  exact ⟨_, mul_nonneg (Finset.sum_nonneg fun i _ => mul_self_nonneg _) (by norm_num), var_coe c' j⟩

theorem mean_real {C : ℕ} (c : Fin NN → Fin C → EReal) (hc : ∀ i j, IsReal (c i j)) (j : Fin C) :
    IsReal (mean ((100000 : ℝ) : EReal) c j) := by
  choose c' hc' using hc
  obtain rfl : c = fun i j => (c' i j : EReal) := funext fun i => funext fun j => hc' i j
  exact ⟨_, mean_coe c' j⟩

theorem bnRelu_real (eps : EReal) (heps : ∃ r : ℝ, 0 < r ∧ eps = (r : EReal)) {C : ℕ}
    (c : Fin NN → Fin C → EReal) (mu va γ β : Fin C → EReal) (hc : ∀ i j, IsReal (c i j))
    (hmu : ∀ j, IsReal (mu j)) (hva : ∀ j, ∃ v : ℝ, 0 ≤ v ∧ va j = (v : EReal)) (hγ : ∀ j, IsReal (γ j))
    (hβ : ∀ j, IsReal (β j)) : ∀ i j, IsReal (bnRelu eps c mu va γ β i j) := by
  intro i j
  obtain ⟨r, hr, rfl⟩ := heps
  obtain ⟨v, hv, hvj⟩ := hva j
  unfold bnRelu
  rw [hvj, ← EReal.coe_add, rsqrt_coe_pos (by positivity)]
  exact isReal_max_zero (isReal_add (isReal_mul (isReal_mul (hγ j) (isReal_sub (hc i j) (hmu j))) (isReal_coe _)) (hβ j))

end Math

open Math in
/-- On real data the product distributes over the aggregate and the two variance formulas agree. -/
theorem towerK_eq_towerR (dw : Fin EE → BitVec 32) (src : Fin EE → Fin NN) (wn : Fin EE → EReal) (sn : Fin NN → EReal) (n eps : EReal)
    (hwn : ∀ e, IsReal (wn e)) (hsn : ∀ i, IsReal (sn i)) (hn : n = ((100000 : ℝ) : EReal)) (heps : ∃ r : ℝ, 0 < r ∧ eps = (r : EReal))
    (x : Fin NN → Fin 128 → EReal) (W1 : Fin 128 → Fin 128 → EReal) (b1 g1 bt1 : Fin 128 → EReal) (W2 : Fin 128 → Fin 128 → EReal) (b2 g2 bt2 : Fin 128 → EReal) (W3 : Fin 128 → Fin 40 → EReal) (b3 : Fin 40 → EReal)
    (hx : ∀ i k, IsReal (x i k)) (hW1 : ∀ k j, IsReal (W1 k j)) (hb1 : ∀ j, IsReal (b1 j)) (hg1 : ∀ j, IsReal (g1 j)) (hbt1 : ∀ j, IsReal (bt1 j)) (hW2 : ∀ k j, IsReal (W2 k j)) (hb2 : ∀ j, IsReal (b2 j)) (hg2 : ∀ j, IsReal (g2 j)) (hbt2 : ∀ j, IsReal (bt2 j)) (hW3 : ∀ k j, IsReal (W3 k j)) (hb3 : ∀ j, IsReal (b3 j)) :
    towerK dw src wn sn n eps x W1 b1 g1 bt1 W2 b2 g2 bt2 W3 b3 = towerR dw src wn sn n eps x W1 b1 g1 bt1 W2 b2 g2 bt2 W3 b3 := by
  subst hn

  have hc1 : fused sn (agg dw src wn x) x W1 b1 = conv dw src wn sn x W1 b1 :=
    fused_eq_conv dw src wn sn hwn hsn x W1 b1 hx hW1
  have hc1r : ∀ i j, IsReal (conv dw src wn sn x W1 b1 i j) := conv_real dw src wn sn hwn hsn x W1 b1 hx hW1 hb1
  have hv1 := varB_eq_var _ hc1r
  have ha1r := bnRelu_real eps heps _ _ _ g1 bt1 hc1r (mean_real _ hc1r) (var_nonneg_real _ hc1r) hg1 hbt1

  have hc2r := conv_real dw src wn sn hwn hsn _ W2 b2 ha1r hW2 hb2
  have hv2 := varB_eq_var _ hc2r
  unfold conv at hv2
  unfold towerK towerR
  simp only [hc1, meanB_eq_mean, hv1]
  simp only [conv] at hv2 ⊢
  simp only [hv2]

end Cert.GCN

end
-- ==== Proof.PreFacts.lean ====
import proofs.«430204_j43868795961418_3_alg».proof.Pre_finite_inputs
import proofs.«430204_j43868795961418_3_alg».proof.Proof.Gen.Pre_finite_inputs
import proofs.«430204_j43868795961418_3_alg».proof.Proof.Args
import proofs.«430204_j43868795961418_3_alg».proof.Proof.LibRowOps
import Idealize.ShloMosaic.Lib.ReduceAll
import Idealize.ShloMosaic.Lib.StableHlo.Predicate
import Idealize.ShloMosaic.Lib.Pipeline.Value

noncomputable section

open scoped BigOperators

namespace Cert.GCN

open Idealize.ShloMosaic Idealize.ShloMosaic.ValueIdx Idealize.ShloMosaic.RowOps

theorem ofBits_inf : Ideal.ofBits .f32 0x7F800000#32 = ⊤ := by
  simp [Ideal.ofBits, Ideal.ieee]

theorem ofBits_one : Ideal.ofBits .f32 0x3F800000#32 = 1 := by
  simp [Ideal.ofBits, Ideal.ieee, -EReal.coe_mul]; norm_num

theorem nLit_eq : nLit = ((100000 : ℝ) : EReal) := by
  unfold nLit
  simp [Ideal.ofBits, Ideal.ieee, -EReal.coe_mul]; norm_num

theorem epsLit_pos : ∃ r : ℝ, 0 < r ∧ epsLit = (r : EReal) := by
  refine ⟨(10995116 : ℝ) * (2 : ℝ) ^ (-40 : ℤ), by positivity, ?_⟩
  unfold epsLit
  simp [Ideal.ofBits, Ideal.ieee, -EReal.coe_mul]

theorem cmp_olt_eq_one {x y : EReal} : Ideal.cmp .olt x y = 1#1 ↔ x < y := by
  simp only [Ideal.cmp, StableHlo.Predicate.ofBool_eq_one_iff, decide_eq_true_eq]

theorem cmp_ogt_eq_one {x y : EReal} : Ideal.cmp .ogt x y = 1#1 ↔ y < x := by
  simp only [Ideal.cmp, StableHlo.Predicate.ofBool_eq_one_iff, decide_eq_true_eq]

/-- Of the two infinities, +∞ fails the test itself and −∞ fails it through its absolute value. -/
theorem isReal_of_abs_lt_top {x : EReal} (h : max x (-x) < ⊤) : IsReal x := by
  induction x using EReal.rec with
  | bot => simp at h
  | coe r => exact ⟨r, rfl⟩
  | top => simp at h

instance : Subsingleton (⟨0, ![]⟩ : Shape).Idx := ⟨fun a b => funext fun d => d.elim0⟩

theorem all_finite {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ix0 = 1#1) :
    ∀ i, IsReal (a i) := by
  intro i
  have h1 := Host.reduce_andi_all _ _ hr hu ix0 h i
  have h2 : Ideal.cmp .olt (max (a i) (-(a i))) (Ideal.ofBits .f32 0x7F800000#32) = 1#1 := h1
  rw [ofBits_inf] at h2
  exact isReal_of_abs_lt_top (cmp_olt_eq_one.1 h2)

theorem idx_read {E : ℕ} (hb : (⟨1, ![E]⟩ : Shape).BroadcastsInDim ⟨2, ![E, 1]⟩ (![0] : Fin 1 → Fin 2))
    (hsc : (⟨2, ![1, E]⟩ : Shape).ShapeCasts ⟨1, ![E]⟩)
    (hsl : (⟨2, ![2, E]⟩ : Shape).Slices ![1, 0] ⟨2, ![1, E]⟩)
    (ei : IVec ⟨2, ![2, E]⟩ 32) (e : Fin E) :
    broadcastInDim ⟨2, ![E, 1]⟩ ![0] hb
        (shapeCast ⟨1, ![E]⟩ (extractStridedSlice ⟨2, ![1, E]⟩ ![1, 0] ei hsl) hsc) (ix2 e (0 : Fin 1))
      = ei (ix2 (1 : Fin 2) e) := by
  refine (broadcastInDim_apply _ hb _ (ix2 e (0 : Fin 1)) (ix1 e) (by
    intro a
    match a with
    | ⟨0, _⟩ =>
      by_cases h1 : E = 1
      · subst h1
        show e.val = if (1 : ℕ) = 1 then 0 else e.val
        have := e.isLt
        simp only [if_true]; omega
      · show e.val = if E = 1 then 0 else e.val
        rw [if_neg h1])).trans ?_
  refine (shapeCast_apply _ hsc (ix1 e) (ix2 (0 : Fin 1) e) (by
    rw [Shape.rowMajor_val_two, Shape.rowMajor_val_one]; show 0 * E + e.val = e.val; omega)).trans ?_
  exact extractStridedSlice_apply _ ei hsl (ix2 (0 : Fin 1) e) (ix2 (1 : Fin 2) e) (by
    intro a
    match a with
    | ⟨0, _⟩ => rfl
    | ⟨1, _⟩ => show e.val = 0 + e.val; omega)

theorem scatter_read {N E : ℕ} (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (hbz : (⟨0, ![]⟩ : Shape).BroadcastsInDim ⟨1, ![N]⟩ (![] : Fin 0 → Fin 1))
    (hb : (⟨1, ![E]⟩ : Shape).BroadcastsInDim ⟨2, ![E, 1]⟩ (![0] : Fin 1 → Fin 2))
    (hsc : (⟨2, ![1, E]⟩ : Shape).ShapeCasts ⟨1, ![E]⟩)
    (hsl : (⟨2, ![2, E]⟩ : Shape).Slices ![1, 0] ⟨2, ![1, E]⟩)
    (ei : IVec ⟨2, ![2, E]⟩ 32) (ea : FVec Ideal ⟨1, ![E]⟩ .f32) (i : Fin N) :
    Host.scatterAdd d (broadcastInDim ⟨1, ![N]⟩ ![] hbz (constant (F := Ideal) ⟨0, ![]⟩ .f32 0x00000000#32))
        (broadcastInDim ⟨2, ![E, 1]⟩ ![0] hb
          (shapeCast ⟨1, ![E]⟩ (extractStridedSlice ⟨2, ![1, E]⟩ ![1, 0] ei hsl) hsc)) ea (ix1 i)
      = ∑ e : Fin E, (if (ei (ix2 (1 : Fin 2) e)).toInt = (i.val : ℤ) then ea (ix1 e) else 0) := by
  rw [hostScatterAdd_eq]
  refine (scatterAdd_vec_apply d h1 h2 h3 h4 _ _ _ i).trans ?_
  have hz : broadcastInDim ⟨1, ![N]⟩ ![] hbz (constant (F := Ideal) ⟨0, ![]⟩ .f32 0x00000000#32) (ix1 i)
      = (0 : EReal) := Ideal.ofBits_zero_f32
  rw [hz, zero_add]
  refine Finset.sum_congr rfl fun e _ => ?_
  rw [idx_read hb hsc hsl ei e]

theorem deg_pos_read {N E : ℕ} (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (hbz : (⟨0, ![]⟩ : Shape).BroadcastsInDim ⟨1, ![N]⟩ (![] : Fin 0 → Fin 1))
    (hb : (⟨1, ![E]⟩ : Shape).BroadcastsInDim ⟨2, ![E, 1]⟩ (![0] : Fin 1 → Fin 2))
    (hsc : (⟨2, ![1, E]⟩ : Shape).ShapeCasts ⟨1, ![E]⟩)
    (hsl : (⟨2, ![2, E]⟩ : Shape).Slices ![1, 0] ⟨2, ![1, E]⟩)
    (ei : IVec ⟨2, ![2, E]⟩ 32) (ea : FVec Ideal ⟨1, ![E]⟩ .f32) (i : Fin N)
    (h : cmpf .ogt
        (addf
          (Host.scatterAdd d (broadcastInDim ⟨1, ![N]⟩ ![] hbz (constant (F := Ideal) ⟨0, ![]⟩ .f32 0x00000000#32))
            (broadcastInDim ⟨2, ![E, 1]⟩ ![0] hb
              (shapeCast ⟨1, ![E]⟩ (extractStridedSlice ⟨2, ![1, E]⟩ ![1, 0] ei hsl) hsc)) ea)
          (broadcastInDim ⟨1, ![N]⟩ ![] hbz (constant (F := Ideal) ⟨0, ![]⟩ .f32 0x3F800000#32)))
        (broadcastInDim ⟨1, ![N]⟩ ![] hbz (constant (F := Ideal) ⟨0, ![]⟩ .f32 0x00000000#32)) (ix1 i) = 1#1) :
    0 < (∑ e : Fin E, (if (ei (ix2 (1 : Fin 2) e)).toInt = (i.val : ℤ) then ea (ix1 e) else 0)) + 1 := by
  have h' : Ideal.cmp .ogt
      (Host.scatterAdd d (broadcastInDim ⟨1, ![N]⟩ ![] hbz (constant (F := Ideal) ⟨0, ![]⟩ .f32 0x00000000#32))
          (broadcastInDim ⟨2, ![E, 1]⟩ ![0] hb
            (shapeCast ⟨1, ![E]⟩ (extractStridedSlice ⟨2, ![1, E]⟩ ![1, 0] ei hsl) hsc)) ea (ix1 i)
        + Ideal.ofBits .f32 0x3F800000#32)
      (Ideal.ofBits .f32 0x00000000#32) = 1#1 := h
  rw [scatter_read d h1 h2 h3 h4 hbz hb hsc hsl ei ea i, ofBits_one, Ideal.ofBits_zero_f32] at h'
  exact cmp_ogt_eq_one.1 h'

/-- The precondition, decoded: twelve finiteness tests and the positivity of every degree. -/
theorem pre_facts (x : FVec Ideal Cert.Pre_finite_inputs.S100000x128 .f32) (ea : FVec Ideal Cert.Pre_finite_inputs.S1600000 .f32)
    (W1 : FVec Ideal Cert.Pre_finite_inputs.S2x128x128 .f32) (b1 g1 bt1 : FVec Ideal Cert.Pre_finite_inputs.S2x128 .f32)
    (W2 : FVec Ideal Cert.Pre_finite_inputs.S2x128x128 .f32) (b2 g2 bt2 : FVec Ideal Cert.Pre_finite_inputs.S2x128 .f32)
    (W3 : FVec Ideal Cert.Pre_finite_inputs.S2x128x40 .f32) (b3 : FVec Ideal Cert.Pre_finite_inputs.S2x40 .f32)
    (ei : IVec Cert.Pre_finite_inputs.S2x1600000 32)
    (h : Cert.Pre_finite_inputs.fn (F := Ideal) x ea W1 b1 g1 bt1 W2 b2 g2 bt2 W3 b3 ei = fun _ => 1#1) :
    (∀ i, IsReal (x i)) ∧ (∀ i, IsReal (ea i)) ∧ (∀ i, IsReal (W1 i)) ∧ (∀ i, IsReal (b1 i)) ∧ (∀ i, IsReal (g1 i))
      ∧ (∀ i, IsReal (bt1 i)) ∧ (∀ i, IsReal (W2 i)) ∧ (∀ i, IsReal (b2 i)) ∧ (∀ i, IsReal (g2 i)) ∧ (∀ i, IsReal (bt2 i))
      ∧ (∀ i, IsReal (W3 i)) ∧ (∀ i, IsReal (b3 i))
      ∧ ∀ i : Fin NN, 0 < deg (dwOf ei) (cur1 ea) i := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨all_finite x _ _ _ h1, all_finite ea _ _ _ h2, all_finite W1 _ _ _ h3, all_finite b1 _ _ _ h4,
    all_finite g1 _ _ _ h5, all_finite bt1 _ _ _ h6, all_finite W2 _ _ _ h7, all_finite b2 _ _ _ h8,
    all_finite g2 _ _ _ h9, all_finite bt2 _ _ _ h10, all_finite W3 _ _ _ h11, all_finite b3 _ _ _ h12, ?_⟩
  intro i
  have e13 := Host.reduce_andi_all _ _ _ _ ix0 h13 (ix1 i)
  exact deg_pos_read (N := NN) (E := EE) Cert.Pre_finite_inputs.scatter_S100000_S1600000x1_S1600000_n_0_0_1 rfl rfl rfl rfl
    _ _ _ _ ei ea i e13

end Cert.GCN

end
-- ==== Proof.lean ====
import proofs.«430204_j43868795961418_3_alg».proof.Defs
import proofs.«430204_j43868795961418_3_alg».proof.Proof.Gen.Kernel
import proofs.«430204_j43868795961418_3_alg».proof.Proof.Gen.Kernel.Frame
import proofs.«430204_j43868795961418_3_alg».proof.Proof.Gen.KernelIdeal
import proofs.«430204_j43868795961418_3_alg».proof.Proof.Gen.KernelIdeal.Frame
import proofs.«430204_j43868795961418_3_alg».proof.Proof.Gen.ReferenceIdeal
import proofs.«430204_j43868795961418_3_alg».proof.Proof.Gen.Pre_finite_inputs
import proofs.«430204_j43868795961418_3_alg».proof.Proof.KernelRun
import proofs.«430204_j43868795961418_3_alg».proof.Proof.KTower1
import proofs.«430204_j43868795961418_3_alg».proof.Proof.RefValue
import proofs.«430204_j43868795961418_3_alg».proof.Proof.Math
import proofs.«430204_j43868795961418_3_alg».proof.Proof.PreFacts
import Idealize.ShloMosaic.Adequacy
import Idealize.ShloMosaic.Init

noncomputable section

namespace Cert.Proof

open Idealize.ShloMosaic Idealize.ShloMosaic.ValueIdx Idealize.SL.Sem Cert.GCN

/-- Under the precondition every input is real and every degree positive, so the two towers are equal. -/
theorem outK_eq_outR [Cert.Pre_finite_inputs.Facts] (x : FVec Ideal Cert.Pre_finite_inputs.S100000x128 .f32) (ea : FVec Ideal Cert.Pre_finite_inputs.S1600000 .f32) (W1 : FVec Ideal Cert.Pre_finite_inputs.S2x128x128 .f32) (b1 g1 bt1 : FVec Ideal Cert.Pre_finite_inputs.S2x128 .f32) (W2 : FVec Ideal Cert.Pre_finite_inputs.S2x128x128 .f32) (b2 g2 bt2 : FVec Ideal Cert.Pre_finite_inputs.S2x128 .f32) (W3 : FVec Ideal Cert.Pre_finite_inputs.S2x128x40 .f32) (b3 : FVec Ideal Cert.Pre_finite_inputs.S2x40 .f32) (ei : IVec Cert.Pre_finite_inputs.S2x1600000 32)
    (h : Cert.Pre_finite_inputs.fn (F := Ideal) x ea W1 b1 g1 bt1 W2 b2 g2 bt2 W3 b3 ei = fun _ => 1#1) (g : Fin 2) :
    outK x ea W1 b1 g1 bt1 W2 b2 g2 bt2 W3 b3 ei g = outR x ea W1 b1 g1 bt1 W2 b2 g2 bt2 W3 b3 ei g := by
  obtain ⟨hx, hea, hW1, hb1, hg1, hbt1, hW2, hb2, hg2, hbt2, hW3, hb3, hdeg⟩ := pre_facts x ea W1 b1 g1 bt1 W2 b2 g2 bt2 W3 b3 ei h
  have hea' : ∀ e, IsReal (cur1 ea e) := fun e => hea _
  exact towerK_eq_towerR _ _ _ _ _ _ (wn_real _ _ _ _ hea' hdeg) (sn_real _ _ hea' hdeg) nLit_eq epsLit_pos _ _ _ _ _ _ _ _ _ _ _
    (fun i k => hx _) (fun k j => hW1 _) (fun j => hb1 _) (fun j => hg1 _) (fun j => hbt1 _) (fun k j => hW2 _) (fun j => hb2 _)
    (fun j => hg2 _) (fun j => hbt2 _) (fun k j => hW3 _) (fun j => hb3 _)

instance : Cert.Pre_finite_inputs.Facts := Cert.Pre_finite_inputs.Gen.facts
instance : Cert.KernelIdeal.Facts := Cert.KernelIdeal.Gen.facts
instance : Cert.ReferenceIdeal.Facts := Cert.ReferenceIdeal.Gen.facts

theorem frame_ri : Cert.frame_ReferenceIdeal := fun m ρ _ =>
  (θ_run Cert.ReferenceIdeal.defs _ _).mono (fun _ h d => (h d).2) (Cert.GCN.Ref.ref_run m ρ)

/-- Both runs end; read index by index their results are `outK` and `outR` of agreeing arguments. -/
theorem algebraic : Cert.algebraic_KernelIdeal_ReferenceIdeal := by
  intro m ρ m' ρ' hpre hagree
  refine ⟨fun c => Cert.KernelIdeal.Gen.W21 (F := Ideal) m ρ c (Proc.devRef .tc Cert.KernelIdeal.main_v199), Cert.GCN.KRun.run_valued m ρ, ?_⟩
  refine (θ_run Cert.ReferenceIdeal.defs _ _).mono (fun r h d => ⟨?_, (h d).2⟩) (Cert.GCN.Ref.ref_run m' ρ')
  obtain ⟨hv, -⟩ := h d
  refine funext fun (idx : (⟨3, ![2, 100000, 40]⟩ : Shape).Idx) => ?_
  obtain ⟨g, i, j, rfl⟩ : ∃ (g : Fin 2) (i : Fin NN) (j : Fin 40), idx = ix3 g i j := ⟨idx 0, idx 1, idx 2, eq_ix3 idx⟩
  refine (hv g i j).trans ?_
  refine Eq.trans ?_ (Cert.GCN.KT1.kernel_value m ρ d g i j).symm
  obtain ⟨e0, e1, e2, e3, e4, e5, e6, e7, e8, e9, e10, e11, e12⟩ := hagree d
  rw [e0, e1, e2, e3, e4, e5, e6, e7, e8, e9, e10, e11, e12]
  exact (congrFun (congrFun (outK_eq_outR _ _ _ _ _ _ _ _ _ _ _ _ _ (hpre d) _) _) _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
